-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S512x256 .f32) (main_arg8 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S8192x8192 .f32) (main_arg5 : FVec F S512x512 .f32) (main_arg6 : FVec F S512 .f32) (main_arg7 : FVec F S512x256 .f32) (main_arg8 : FVec F S256 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x512 .f32) (main_arg2 : FVec F S8192x8192 .f32) (main_arg3 : FVec F S8192x8192 .f32) (main_arg4 : FVec F S8192x8192 .f32) (main_arg5 : FVec F S512x512 .f32) (main_arg6 : FVec F S512 .f32) (main_arg7 : FVec F S512x256 .f32) (main_arg8 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1024x512 : Shape := ⟨2, ![1024, 512]⟩
abbrev S1x512 : Shape := ⟨2, ![1, 512]⟩
abbrev S1024x2048 : Shape := ⟨2, ![1024, 2048]⟩
abbrev S2048x512 : Shape := ⟨2, ![2048, 512]⟩
abbrev S8192x256 : Shape := ⟨2, ![8192, 256]⟩
abbrev S1024x256 : Shape := ⟨2, ![1024, 256]⟩
abbrev S1x256 : Shape := ⟨2, ![1, 256]⟩
abbrev S2048x256 : Shape := ⟨2, ![2048, 256]⟩

abbrev nBuf : Space → Nat
  | .hbm => 31
  | .vmem => 94
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S1x256, .f32⟩
  | .hbm, ⟨30, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1024x512, .f32⟩
  | .local _ .vmem, ⟨9, _⟩ => ⟨S1024x512, .f32⟩
  | .local _ .vmem, ⟨10, _⟩ => ⟨S1024x2048, .f32⟩
  | .local _ .vmem, ⟨11, _⟩ => ⟨S1024x2048, .f32⟩
  | .local _ .vmem, ⟨12, _⟩ => ⟨S2048x512, .f32⟩
  | .local _ .vmem, ⟨13, _⟩ => ⟨S2048x512, .f32⟩
  | .local _ .vmem, ⟨14, _⟩ => ⟨S1x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x2048, .f32⟩
  | .local _ .vmem, ⟨19, _⟩ => ⟨S1024x2048, .f32⟩
  | .local _ .vmem, ⟨20, _⟩ => ⟨S2048x512, .f32⟩
  | .local _ .vmem, ⟨21, _⟩ => ⟨S2048x512, .f32⟩
  | .local _ .vmem, ⟨22, _⟩ => ⟨S1x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x2048, .f32⟩
  | .local _ .vmem, ⟨27, _⟩ => ⟨S1024x2048, .f32⟩
  | .local _ .vmem, ⟨28, _⟩ => ⟨S2048x512, .f32⟩
  | .local _ .vmem, ⟨29, _⟩ => ⟨S2048x512, .f32⟩
  | .local _ .vmem, ⟨30, _⟩ => ⟨S1x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x2048, .f32⟩
  | .local _ .vmem, ⟨35, _⟩ => ⟨S1024x2048, .f32⟩
  | .local _ .vmem, ⟨36, _⟩ => ⟨S2048x512, .f32⟩
  | .local _ .vmem, ⟨37, _⟩ => ⟨S2048x512, .f32⟩
  | .local _ .vmem, ⟨38, _⟩ => ⟨S1x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | .local _ .vmem, ⟨44, _⟩ => ⟨S512x256, .f32⟩
  | .local _ .vmem, ⟨45, _⟩ => ⟨S1024x256, .f32⟩
  | .local _ .vmem, ⟨46, _⟩ => ⟨S1024x256, .f32⟩
  | .local _ .vmem, ⟨47, _⟩ => ⟨S1024x2048, .f32⟩
  | .local _ .vmem, ⟨48, _⟩ => ⟨S1024x2048, .f32⟩
  | .local _ .vmem, ⟨49, _⟩ => ⟨S2048x256, .f32⟩
  | .local _ .vmem, ⟨50, _⟩ => ⟨S2048x256, .f32⟩
  | .local _ .vmem, ⟨51, _⟩ => ⟨S1x256, .f32⟩
  | .local _ .vmem, ⟨52, _⟩ => ⟨S1024x256, .f32⟩
  | .local _ .vmem, ⟨53, _⟩ => ⟨S1024x256, .f32⟩
  | .local _ .vmem, ⟨54, _⟩ => ⟨S1024x256, .f32⟩
  | .local _ .vmem, ⟨55, _⟩ => ⟨S1024x512, .f32⟩
  | .local _ .vmem, ⟨56, _⟩ => ⟨S1024x512, .f32⟩
  | .local _ .vmem, ⟨57, _⟩ => ⟨S512x256, .f32⟩
  | .local _ .vmem, ⟨58, _⟩ => ⟨S1024x256, .f32⟩
  | .local _ .vmem, ⟨59, _⟩ => ⟨S1024x256, .f32⟩
  | .local _ .vmem, ⟨60, _⟩ => ⟨S1024x2048, .f32⟩
  | .local _ .vmem, ⟨61, _⟩ => ⟨S1024x2048, .f32⟩
  | .local _ .vmem, ⟨62, _⟩ => ⟨S2048x256, .f32⟩
  | .local _ .vmem, ⟨63, _⟩ => ⟨S2048x256, .f32⟩
  | .local _ .vmem, ⟨64, _⟩ => ⟨S1x256, .f32⟩
  | .local _ .vmem, ⟨65, _⟩ => ⟨S1024x256, .f32⟩
  | .local _ .vmem, ⟨66, _⟩ => ⟨S1024x256, .f32⟩
  | .local _ .vmem, ⟨67, _⟩ => ⟨S1024x256, .f32⟩
  | .local _ .vmem, ⟨68, _⟩ => ⟨S1024x512, .f32⟩
  | .local _ .vmem, ⟨69, _⟩ => ⟨S1024x512, .f32⟩
  | .local _ .vmem, ⟨70, _⟩ => ⟨S512x256, .f32⟩
  | .local _ .vmem, ⟨71, _⟩ => ⟨S1024x256, .f32⟩
  | .local _ .vmem, ⟨72, _⟩ => ⟨S1024x256, .f32⟩
  | .local _ .vmem, ⟨73, _⟩ => ⟨S1024x2048, .f32⟩
  | .local _ .vmem, ⟨74, _⟩ => ⟨S1024x2048, .f32⟩
  | .local _ .vmem, ⟨75, _⟩ => ⟨S2048x256, .f32⟩
  | .local _ .vmem, ⟨76, _⟩ => ⟨S2048x256, .f32⟩
  | .local _ .vmem, ⟨77, _⟩ => ⟨S1x256, .f32⟩
  | .local _ .vmem, ⟨78, _⟩ => ⟨S1024x256, .f32⟩
  | .local _ .vmem, ⟨79, _⟩ => ⟨S1024x256, .f32⟩
  | .local _ .vmem, ⟨80, _⟩ => ⟨S1024x256, .f32⟩
  | .local _ .vmem, ⟨81, _⟩ => ⟨S1024x512, .f32⟩
  | .local _ .vmem, ⟨82, _⟩ => ⟨S1024x512, .f32⟩
  | .local _ .vmem, ⟨83, _⟩ => ⟨S512x256, .f32⟩
  | .local _ .vmem, ⟨84, _⟩ => ⟨S1024x256, .f32⟩
  | .local _ .vmem, ⟨85, _⟩ => ⟨S1024x256, .f32⟩
  | .local _ .vmem, ⟨86, _⟩ => ⟨S1024x2048, .f32⟩
  | .local _ .vmem, ⟨87, _⟩ => ⟨S1024x2048, .f32⟩
  | .local _ .vmem, ⟨88, _⟩ => ⟨S2048x256, .f32⟩
  | .local _ .vmem, ⟨89, _⟩ => ⟨S2048x256, .f32⟩
  | .local _ .vmem, ⟨90, _⟩ => ⟨S1x256, .f32⟩
  | .local _ .vmem, ⟨91, _⟩ => ⟨S1024x256, .f32⟩
  | .local _ .vmem, ⟨92, _⟩ => ⟨S1024x256, .f32⟩
  | .local _ .vmem, ⟨93, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc7_scratch0 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg2_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg3_1 : Ref sig .tc := ⟨.vmem, 66, rfl⟩
abbrev cc9_scratch0 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg2_0 : Ref sig .tc := ⟨.vmem, 71, rfl⟩
abbrev cc10_stg2_1 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg1_1 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc11_scratch0 : Ref sig .tc := ⟨.vmem, 80, rfl⟩
abbrev cc12_stg0_0 : Ref sig .tc := ⟨.vmem, 81, rfl⟩
abbrev cc12_stg0_1 : Ref sig .tc := ⟨.vmem, 82, rfl⟩
abbrev cc12_stg1_0 : Ref sig .tc := ⟨.vmem, 83, rfl⟩
abbrev cc12_stg2_0 : Ref sig .tc := ⟨.vmem, 84, rfl⟩
abbrev cc12_stg2_1 : Ref sig .tc := ⟨.vmem, 85, rfl⟩
abbrev cc13_stg0_0 : Ref sig .tc := ⟨.vmem, 86, rfl⟩
abbrev cc13_stg0_1 : Ref sig .tc := ⟨.vmem, 87, rfl⟩
abbrev cc13_stg1_0 : Ref sig .tc := ⟨.vmem, 88, rfl⟩
abbrev cc13_stg1_1 : Ref sig .tc := ⟨.vmem, 89, rfl⟩
abbrev cc13_stg2_0 : Ref sig .tc := ⟨.vmem, 90, rfl⟩
abbrev cc13_stg3_0 : Ref sig .tc := ⟨.vmem, 91, rfl⟩
abbrev cc13_stg3_1 : Ref sig .tc := ⟨.vmem, 92, rfl⟩
abbrev cc13_scratch0 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem2_1 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem3_0 : DmaSem sig := 60
abbrev cc9_sem3_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem2_1 : DmaSem sig := 66
abbrev cc11_sem0_0 : DmaSem sig := 67
abbrev cc11_sem0_1 : DmaSem sig := 68
abbrev cc11_sem1_0 : DmaSem sig := 69
abbrev cc11_sem1_1 : DmaSem sig := 70
abbrev cc11_sem2_0 : DmaSem sig := 71
abbrev cc11_sem3_0 : DmaSem sig := 72
abbrev cc11_sem3_1 : DmaSem sig := 73
abbrev cc12_sem0_0 : DmaSem sig := 74
abbrev cc12_sem0_1 : DmaSem sig := 75
abbrev cc12_sem1_0 : DmaSem sig := 76
abbrev cc12_sem2_0 : DmaSem sig := 77
abbrev cc12_sem2_1 : DmaSem sig := 78
abbrev cc13_sem0_0 : DmaSem sig := 79
abbrev cc13_sem0_1 : DmaSem sig := 80
abbrev cc13_sem1_0 : DmaSem sig := 81
abbrev cc13_sem1_1 : DmaSem sig := 82
abbrev cc13_sem2_0 : DmaSem sig := 83
abbrev cc13_sem3_0 : DmaSem sig := 84
abbrev cc13_sem3_1 : DmaSem sig := 85

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 4], ![false, false]⟩

def k7_cond2 (i : grid7.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![8, 4], ![false, false]⟩

def k9_cond2 (i : grid9.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S2048x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1024x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1024x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![8, 4], ![false, false]⟩

def k11_cond2 (i : grid11.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S2048x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1024x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x512 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S512x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1024x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨2, ![8, 4], ![false, false]⟩

def k13_cond2 (i : grid13.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x2048 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S2048x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false, false]

abbrev stage13_3 : Fin 2 → Memref sig .tc .vmem S1024x256 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512_S1x512 : S512.ShapeCasts S1x512
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S256_S1x256 : S256.ShapeCasts S1x256
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x512_S1024x512_1_0_0_1_n_n_wf : DotDims.WF S1024x512 S512x512 S1024x512 [1] [0] [0] [1] [] []
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .f32 = 32 ∨ (Rect.block (s := S8192x512) S2048x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .f32 = 32 ∨ (Rect.block (s := S8192x512) S2048x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .f32 = 32 ∨ (Rect.block (s := S8192x8192) S1024x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S8192x512.size a
  hwx4_1 : ∀ i : grid4.Coords, EltTy.bits .f32 = 32 ∨ (Rect.block (s := S8192x512) S2048x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S8192x512.size a
  hwx4_3 : ∀ i : grid4.Coords, EltTy.bits .f32 = 32 ∨ (Rect.block (s := S8192x512) S1024x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .f32 = 32 ∨ (Rect.block (s := S8192x8192) S1024x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S8192x512.size a
  hwx5_1 : ∀ i : grid5.Coords, EltTy.bits .f32 = 32 ∨ (Rect.block (s := S8192x512) S2048x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S8192x512.size a
  hwx5_3 : ∀ i : grid5.Coords, EltTy.bits .f32 = 32 ∨ (Rect.block (s := S8192x512) S1024x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S8192x512.size a
  hwx6_0 : ∀ i : grid6.Coords, EltTy.bits .f32 = 32 ∨ (Rect.block (s := S8192x512) S1024x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S8192x256.size a
  hwx6_2 : ∀ i : grid6.Coords, EltTy.bits .f32 = 32 ∨ (Rect.block (s := S8192x256) S1024x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S8192x8192.size a
  hwx7_0 : ∀ i : grid7.Coords, EltTy.bits .f32 = 32 ∨ (Rect.block (s := S8192x8192) S1024x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S8192x256.size a
  hwx7_1 : ∀ i : grid7.Coords, EltTy.bits .f32 = 32 ∨ (Rect.block (s := S8192x256) S2048x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S8192x256.size a
  hwx7_3 : ∀ i : grid7.Coords, EltTy.bits .f32 = 32 ∨ (Rect.block (s := S8192x256) S1024x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S8192x512.size a
  hwx8_0 : ∀ i : grid8.Coords, EltTy.bits .f32 = 32 ∨ (Rect.block (s := S8192x512) S1024x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x256.size a ≤ S8192x256.size a
  hwx8_2 : ∀ i : grid8.Coords, EltTy.bits .f32 = 32 ∨ (Rect.block (s := S8192x256) S1024x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x2048.size a ≤ S8192x8192.size a
  hwx9_0 : ∀ i : grid9.Coords, EltTy.bits .f32 = 32 ∨ (Rect.block (s := S8192x8192) S1024x2048.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x256.size a ≤ S8192x256.size a
  hwx9_1 : ∀ i : grid9.Coords, EltTy.bits .f32 = 32 ∨ (Rect.block (s := S8192x256) S2048x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x256.size a ≤ S8192x256.size a
  hwx9_3 : ∀ i : grid9.Coords, EltTy.bits .f32 = 32 ∨ (Rect.block (s := S8192x256) S1024x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S8192x512.size a
  hwx10_0 : ∀ i : grid10.Coords, EltTy.bits .f32 = 32 ∨ (Rect.block (s := S8192x512) S1024x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S512x256.size a
  hwx10_1 : ∀ i : grid10.Coords, EltTy.bits .f32 = 32 ∨ (Rect.block (s := S512x256) S512x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x256.size a ≤ S8192x256.size a
  hwx10_2 : ∀ i : grid10.Coords, EltTy.bits .f32 = 32 ∨ (Rect.block (s := S8192x256) S1024x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x2048.size a ≤ S8192x8192.size a
  hwx11_0 : ∀ i : grid11.Coords, EltTy.bits .f32 = 32 ∨ (Rect.block (s := S8192x8192) S1024x2048.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x256.size a ≤ S8192x256.size a
  hwx11_1 : ∀ i : grid11.Coords, EltTy.bits .f32 = 32 ∨ (Rect.block (s := S8192x256) S2048x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x256.size a ≤ S8192x256.size a
  hwx11_3 : ∀ i : grid11.Coords, EltTy.bits .f32 = 32 ∨ (Rect.block (s := S8192x256) S1024x256.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x512.size a ≤ S8192x512.size a
  hwx12_0 : ∀ i : grid12.Coords, EltTy.bits .f32 = 32 ∨ (Rect.block (s := S8192x512) S1024x512.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x256.size a ≤ S512x256.size a
  hwx12_1 : ∀ i : grid12.Coords, EltTy.bits .f32 = 32 ∨ (Rect.block (s := S512x256) S512x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x256.size a ≤ S8192x256.size a
  hwx12_2 : ∀ i : grid12.Coords, EltTy.bits .f32 = 32 ∨ (Rect.block (s := S8192x256) S1024x256.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x2048.size a ≤ S8192x8192.size a
  hwx13_0 : ∀ i : grid13.Coords, EltTy.bits .f32 = 32 ∨ (Rect.block (s := S8192x8192) S1024x2048.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2048x256.size a ≤ S8192x256.size a
  hwx13_1 : ∀ i : grid13.Coords, EltTy.bits .f32 = 32 ∨ (Rect.block (s := S8192x256) S2048x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1024x256.size a ≤ S8192x256.size a
  hwx13_3 : ∀ i : grid13.Coords, EltTy.bits .f32 = 32 ∨ (Rect.block (s := S8192x256) S1024x256.size (cc13_transform_3 i) (hinb13_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg2) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg3) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg4) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S2048x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v9) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v3) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v10) S1024x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg2) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v12) S1024x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v5) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v13) S1024x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_arg2) S1024x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v13) S2048x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v14) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v15) S1024x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v7) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S512x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v16) S1024x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_arg3) S1024x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v16) S2048x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v17) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v18) S1024x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_v9) S1024x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg7) S512x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v19) S1024x256.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_arg4) S1024x2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v19) S2048x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v20) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v21) S1024x256.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S_ : Shape := ⟨0, ![]⟩
abbrev S8192x256 : Shape := ⟨2, ![8192, 256]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x256, .f32⟩
  | .hbm, ⟨44, _⟩ => ⟨S8192x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S8192x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call2_cst : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call3_cst : Ref sig .tc := ⟨.hbm, 53, rfl⟩
abbrev main_call3_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

/-- An r × s array of extended reals. -/
abbrev Mat (r s : ℕ) : Type := (⟨2, ![r, s]⟩ : Shape).Idx → EReal

/-- A vector of s extended reals. -/
abbrev Row (s : ℕ) : Type := (⟨1, ![s]⟩ : Shape).Idx → EReal

/-- Entry (i, j) sums A i k · B k j over k. -/
def mm {M K N : ℕ} (A : Mat M K) (B : Mat K N) : Mat M N :=
  fun i => ∑ k : Fin K, A (ix2 (i 0) k) * B (ix2 k (i 1))

/-- Entry j of the vector goes onto column j. -/
def addRow {M N : ℕ} (X : Mat M N) (b : Row N) : Mat M N :=
  fun i => X i + b (ix1 (i 1))

/-- The same with the vector given as a single row. -/
def addRow2 {M N : ℕ} (X : Mat M N) (b : Mat 1 N) : Mat M N :=
  fun i => X i + b (ix2 0 (i 1))

def relu {M N : ℕ} (X : Mat M N) : Mat M N :=
  fun i => max (X i) 0

/-- adj · (x · W) + b. -/
def layer {M K N : ℕ} (adj : Mat M M) (x : Mat M K) (W : Mat K N) (b : Row N) : Mat M N :=
  addRow (mm adj (mm x W)) b

/-- layer, positive part, layer. -/
def branch (x : Mat 8192 512) (adj : Mat 8192 8192) (W0 : Mat 512 512) (b0 : Row 512) (W1 : Mat 512 256) (b1 : Row 256) : Mat 8192 256 :=
  layer adj (relu (layer adj x W0 b0)) W1 b1

-- Indices below n · b are pairs (block, place in the block); sum over the pairs block by block.
theorem sum_blocks {n b : ℕ} (f : Fin (n * b) → EReal) :
    ∑ k : Fin (n * b), f k = ∑ j : Fin n, ∑ k : Fin b, f ⟨j.val * b + k.val, by
      calc j.val * b + k.val < j.val * b + b := Nat.add_lt_add_left k.isLt _
        _ = (j.val + 1) * b := by ring
        _ ≤ n * b := Nat.mul_le_mul_right _ j.isLt⟩ := by
  rw [← (finProdFinEquiv (m := n) (n := b)).sum_comp f, Fintype.sum_prod_type]
  refine Finset.sum_congr rfl fun j _ => Finset.sum_congr rfl fun k _ => ?_
  congr 1
  apply Fin.ext
  show k.val + b * j.val = j.val * b + k.val
  rw [Nat.mul_comm, Nat.add_comm]

end Cert.Spec

end
-- ==== Proof.RefValue.lean ====
import proofs.«124672_j60567628808244_1_alg».proof.Proof.Gen.ReferenceIdeal.Run
import proofs.«124672_j60567628808244_1_alg».proof.Proof.Gen.ReferenceIdeal.Read
import proofs.«124672_j60567628808244_1_alg».proof.Proof.Spec
import Idealize.ShloMosaic.PureOps.Ideal.Laws

noncomputable section

namespace Cert.ReferenceIdeal.RefValue

open Cert.ReferenceIdeal Cert.ReferenceIdeal.Gen Idealize.ShloMosaic Cert.Spec

-- Contracting the left operand's second axis with the right's first reads (i, k) and (k, j): the matrix product.
theorem dot_mm {M K N : ℕ} (D : DotDims ⟨2, ![M, K]⟩ ⟨2, ![K, N]⟩ ⟨2, ![M, N]⟩) (hr : D.contr.rank = 1)
    (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (A : FVec Ideal ⟨2, ![M, K]⟩ .f32) (B : FVec Ideal ⟨2, ![K, N]⟩ .f32) :
    Host.dotGeneral D none A B = mm A B := by
  funext i
  simp only [Host.dotGeneral]
  rw [Ideal.dotGeneral_apply, ← Equiv.sum_comp (ValueIdx.contrEquiv1 D K hr hs).symm]
  unfold mm
  refine Finset.sum_congr rfl fun k _ => ?_
  have hk := ValueIdx.contrEquiv1_symm_val D K hr hs k
  have el : D.lhsIdx i ((ValueIdx.contrEquiv1 D K hr hs).symm k) = ValueIdx.ix2 (i 0) k :=
    funext fun a => Fin.ext (by
      match a with
      | ⟨0, _⟩ => exact l0 _ _
      | ⟨1, _⟩ => exact (l1 _ _).trans hk)
  have er : D.rhsIdx i ((ValueIdx.contrEquiv1 D K hr hs).symm k) = ValueIdx.ix2 k (i 1) :=
    funext fun a => Fin.ext (by
      match a with
      | ⟨0, _⟩ => exact (r0 _ _).trans hk
      | ⟨1, _⟩ => exact r1 _ _)
  rw [el, er]
  rfl

-- Broadcasting twice only repeats the vector along the rows.
theorem add_bias0 (X : FVec Ideal S8192x512 .f32) (b : FVec Ideal S512 .f32) :
    addf X (broadcastInDim S8192x512 ![0, 1] bcast_S1x512_S8192x512_0_1 (broadcastInDim S1x512 ![1] bcast_S512_S1x512_1 b))
      = addRow X b := by
  funext i
  rw [ValueIdx.addf_apply]
  unfold addRow
  have h3 := Read.val_main_v3_apply (F := Ideal) b i
  have h2 := Read.val_main_v2_apply (F := Ideal) b (Read.idx_main_v3 i)
  unfold Read.val_main_v3 Read.val_main_v2 at h3
  unfold Read.val_main_v2 at h2
  rw [h3, h2]
  refine congrArg (fun t => X i + b t) (funext fun a => ?_)
  match a with
  | ⟨0, _⟩ => rfl

theorem add_bias1 (X : FVec Ideal S8192x256 .f32) (b : FVec Ideal S256 .f32) :
    addf X (broadcastInDim S8192x256 ![0, 1] bcast_S1x256_S8192x256_0_1 (broadcastInDim S1x256 ![1] bcast_S256_S1x256_1 b))
      = addRow X b := by
  funext i
  rw [ValueIdx.addf_apply]
  unfold addRow
  have h9 := Read.val_main_v9_apply (F := Ideal) b i
  have h8 := Read.val_main_v8_apply (F := Ideal) b (Read.idx_main_v9 i)
  unfold Read.val_main_v9 Read.val_main_v8 at h9
  unfold Read.val_main_v8 at h8
  rw [h9, h8]
  refine congrArg (fun t => X i + b t) (funext fun a => ?_)
  match a with
  | ⟨0, _⟩ => rfl

-- The broadcast constant is 0 at every entry.
theorem max_zero (X : FVec Ideal S8192x512 .f32) :
    maximumf X (broadcastInDim S8192x512 ![] bcast_S_S8192x512 (constant (F := Ideal) S_ .f32 0x00000000#32))
      = relu X := by
  funext i
  rw [ValueIdx.maximumf_apply]
  unfold relu
  have h0 := Read.val_main_call0_v0_apply (F := Ideal) i
  unfold Read.val_main_call0_v0 Read.val_main_call0_cst at h0
  rw [h0, ValueIdx.constant_apply, Ideal.ofBits_zero_f32]

-- Rewriting each operation by its lemma turns the reference's term into `branch`.
theorem branch_eq (x : FVec Ideal S8192x512 .f32) (adj : FVec Ideal S8192x8192 .f32) (W0 : FVec Ideal S512x512 .f32)
    (b0 : FVec Ideal S512 .f32) (W1 : FVec Ideal S512x256 .f32) (b1 : FVec Ideal S256 .f32) :
    addf (Host.dotGeneral dot_S8192x8192_S8192x256_S8192x256_1_0_0_1_n_n none adj (Host.dotGeneral dot_S8192x512_S512x256_S8192x256_1_0_0_1_n_n none (maximumf (addf (Host.dotGeneral dot_S8192x8192_S8192x512_S8192x512_1_0_0_1_n_n none adj (Host.dotGeneral dot_S8192x512_S512x512_S8192x512_1_0_0_1_n_n none x W0)) (broadcastInDim S8192x512 ![0, 1] bcast_S1x512_S8192x512_0_1 (broadcastInDim S1x512 ![1] bcast_S512_S1x512_1 b0))) (broadcastInDim S8192x512 ![] bcast_S_S8192x512 (constant (F := Ideal) S_ .f32 0x00000000#32))) W1)) (broadcastInDim S8192x256 ![0, 1] bcast_S1x256_S8192x256_0_1 (broadcastInDim S1x256 ![1] bcast_S256_S1x256_1 b1))
      = branch x adj W0 b0 W1 b1 := by
  rw [dot_mm _ rfl rfl Read.lhs_main_v0_0 Read.lhs_main_v0_1 Read.rhs_main_v0_0 Read.rhs_main_v0_1, dot_mm _ rfl rfl Read.lhs_main_v1_0 Read.lhs_main_v1_1 Read.rhs_main_v1_0 Read.rhs_main_v1_1,
    add_bias0, max_zero, dot_mm _ rfl rfl Read.lhs_main_v6_0 Read.lhs_main_v6_1 Read.rhs_main_v6_0 Read.rhs_main_v6_1, dot_mm _ rfl rfl Read.lhs_main_v7_0 Read.lhs_main_v7_1 Read.rhs_main_v7_0 Read.rhs_main_v7_1, add_bias1]
  rfl

end Cert.ReferenceIdeal.RefValue

end
-- ==== Proof.Bits.Dense0.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_o : Rect S1024x512 := Rect.unit (s := S1024x512) ![0, 0] S1024x512.size inb_S1024x512_S1024x512_0_0

/-- The output block after the body: one whole-block store of the product of the two loaded blocks. -/
def out0_2 (x0 : Vec F S1024x512 .f32) (x1 : Vec F S512x512 .f32) : Vec F S1024x512 .f32 :=
  View.canon [⟨r0_o, k0_pay1 (View.ld x0 r0_a) (View.ld x1 r0_b)⟩]

theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r0_o, _⟩] S1024x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  obtain ⟨e0, e1⟩ := before0 V c t
  simp only [e0, e1]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem body_obligation0 (c : Dev nD) : BodyObligation (dat0 (F := F) V c) (defs₀ (F := F)) Variants.none () Set.univ := fun t => by
  rw [bigSep_W0, bigSep_W0]
  exact sound_body0 V c t

end Region

end Cert.Kernel.Gen

end
-- ==== Proof.Bits.Dense1.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1024x512 := Rect.unit (s := S1024x512) ![0, 0] S1024x512.size inb_S1024x512_S1024x512_0_0
abbrev r1_b : Rect S512x512 := Rect.unit (s := S512x512) ![0, 0] S512x512.size inb_S512x512_S512x512_0_0
abbrev r1_o : Rect S1024x512 := Rect.unit (s := S1024x512) ![0, 0] S1024x512.size inb_S1024x512_S1024x512_0_0

/-- The output block after the body: one whole-block store of the product of the two loaded blocks. -/
def out1_2 (x0 : Vec F S1024x512 .f32) (x1 : Vec F S512x512 .f32) : Vec F S1024x512 .f32 :=
  View.canon [⟨r1_o, k1_pay1 (View.ld x0 r1_a) (View.ld x1 r1_b)⟩]

theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r1_o, _⟩] S1024x512.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_2 (c : Dev nD) (t : Fin cfg1.N) : (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ ∀ d, (dat1 V c).before 1 t d = iblk1 V c 1 t := by
  refine ⟨fun d => ?_, fun d => ?_⟩ <;>
    exact ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t))) := by
  unfold bodyAt1
  obtain ⟨e0, e1⟩ := before1 V c t
  simp only [e0, e1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ Ho H0 H1 H2

theorem body_obligation1 (c : Dev nD) : BodyObligation (dat1 (F := F) V c) (defs₀ (F := F)) Variants.none () Set.univ := fun t => by
  rw [bigSep_W1, bigSep_W1]
  exact sound_body1 V c t

end Region

end Cert.Kernel.Gen

end
-- ==== Proof.Bits.Gcn2Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1024x512 .f32
  | 0, h => k2_pay2 (iblk2 V c 0 ⟨0, h⟩) (iblk2 V c 1 ⟨0, h⟩) k2_pay1
  | n + 1, h => k2_pay2 (iblk2 V c 0 ⟨n + 1, h⟩) (iblk2 V c 1 ⟨n + 1, h⟩)
      (if (n + 1) % 4 = 0 then k2_pay1 else acc2 c n (Nat.lt_of_succ_lt h))

def fin2 (c : Dev nD) (t : Fin cfg2.N) : Vec F S1024x512 .f32 :=
  k2_pay3 (acc2 V c t.val t.isLt) (iblk2 V c 2 t)

def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0]
    ∗ (∃ r, prngReg c r)
    ∗ ∃ f : Vec F S1024x512 .f32, ⌜∀ h : t.val ≠ 0, f = acc2 V c (t.val - 1) (by have := t.isLt; omega)⌝
        ∗ owns (c : Thread nD τ) (Memref.whole cc2_scratch0) fullShare f)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 V c t
  Φ t := Φ2 V c t
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = fin2 V c t := by dsimp only [dat2]

end Region

end Cert.Kernel.Gen

end
-- ==== Proof.Bits.Gcn3Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S1024x512 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩)
      (if (n + 1) % 4 = 0 then k3_pay1 else acc3 c n (Nat.lt_of_succ_lt h))

def fin3 (c : Dev nD) (t : Fin cfg3.N) : Vec F S1024x512 .f32 :=
  k3_pay3 (acc3 V c t.val t.isLt) (iblk3 V c 2 t)

def Φ3 (c : Dev nD) (t : Fin (cfg3.N + 1)) : sProp 𝕄 :=
  iprop(Pipeline.scopedRestBut (Ix := Unit) (Name := ℕ) (U := UR sig nD τ) (Lvl := ℕ) (Val := Elt F) spec3 c [cc3_scratch0]
    ∗ (∃ r, prngReg c r)
    ∗ ∃ f : Vec F S1024x512 .f32, ⌜∀ h : t.val ≠ 0, f = acc3 V c (t.val - 1) (by have := t.isLt; omega)⌝
        ∗ owns (c : Thread nD τ) (Memref.whole cc3_scratch0) fullShare f)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => fin3 V c t
  Φ t := Φ3 V c t
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) : (dat3 V c).after 3 t = fin3 V c t := by dsimp only [dat3]

end Region

end Cert.Kernel.Gen

end
-- ==== Proof.Bits.Gcn4Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1024x512 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩)
      (if (n + 1) % 4 = 0 then k4_pay1 else acc4 c n (Nat.lt_of_succ_lt h))

def fin4 (c : Dev nD) (t : Fin cfg4.N) : Vec F S1024x512 .f32 :=
  k4_pay3 (acc4 V c t.val t.isLt) (iblk4 V c 2 t)

def Φ4 (c : Dev nD) (t : Fin (cfg4.N + 1)) : sProp 𝕄 :=
  iprop(Pipeline.scopedRestBut (Ix := Unit) (Name := ℕ) (U := UR sig nD τ) (Lvl := ℕ) (Val := Elt F) spec4 c [cc4_scratch0]
    ∗ (∃ r, prngReg c r)
    ∗ ∃ f : Vec F S1024x512 .f32, ⌜∀ h : t.val ≠ 0, f = acc4 V c (t.val - 1) (by have := t.isLt; omega)⌝
        ∗ owns (c : Thread nD τ) (Memref.whole cc4_scratch0) fullShare f)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => fin4 V c t
  Φ t := Φ4 V c t
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) : (dat4 V c).after 3 t = fin4 V c t := by dsimp only [dat4]

end Region

end Cert.Kernel.Gen

end
-- ==== Proof.Bits.Gcn5Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1024x512 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩)
      (if (n + 1) % 4 = 0 then k5_pay1 else acc5 c n (Nat.lt_of_succ_lt h))

def fin5 (c : Dev nD) (t : Fin cfg5.N) : Vec F S1024x512 .f32 :=
  k5_pay3 (acc5 V c t.val t.isLt) (iblk5 V c 2 t)

def Φ5 (c : Dev nD) (t : Fin (cfg5.N + 1)) : sProp 𝕄 :=
  iprop(Pipeline.scopedRestBut (Ix := Unit) (Name := ℕ) (U := UR sig nD τ) (Lvl := ℕ) (Val := Elt F) spec5 c [cc5_scratch0]
    ∗ (∃ r, prngReg c r)
    ∗ ∃ f : Vec F S1024x512 .f32, ⌜∀ h : t.val ≠ 0, f = acc5 V c (t.val - 1) (by have := t.isLt; omega)⌝
        ∗ owns (c : Thread nD τ) (Memref.whole cc5_scratch0) fullShare f)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => fin5 V c t
  Φ t := Φ5 V c t
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) : (dat5 V c).after 3 t = fin5 V c t := by dsimp only [dat5]

end Region

end Cert.Kernel.Gen

end
-- ==== Proof.Bits.Dense6.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S1024x512 := Rect.unit (s := S1024x512) ![0, 0] S1024x512.size inb_S1024x512_S1024x512_0_0
abbrev r6_b : Rect S512x256 := Rect.unit (s := S512x256) ![0, 0] S512x256.size inb_S512x256_S512x256_0_0
abbrev r6_o : Rect S1024x256 := Rect.unit (s := S1024x256) ![0, 0] S1024x256.size inb_S1024x256_S1024x256_0_0

/-- The output block after the body: one whole-block store of the product of the two loaded blocks. -/
def out6_2 (x0 : Vec F S1024x512 .f32) (x1 : Vec F S512x256 .f32) : Vec F S1024x256 .f32 :=
  View.canon [⟨r6_o, k6_pay1 (View.ld x0 r6_a) (View.ld x1 r6_b)⟩]

theorem sound_kernel6 (c : Dev nD) (E : Set ℕ) (i : grid6.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r6_o, _⟩] S1024x256.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_2 (c : Dev nD) (t : Fin cfg6.N) : (dat6 V c).after 2 t = out6_2 (iblk6 V c 0 t) (iblk6 V c 1 t) := by dsimp only [dat6]

theorem before6 (c : Dev nD) (t : Fin cfg6.N) :
    (∀ d, (dat6 V c).before 0 t d = iblk6 V c 0 t) ∧ ∀ d, (dat6 V c).before 1 t d = iblk6 V c 1 t := by
  refine ⟨fun d => ?_, fun d => ?_⟩ <;>
    exact ((dat6 V c).before_in_eq_fetched _ rfl (fun _ => rfl) (fun _ _ _ => rfl) (fun _ => rfl) t d).trans rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.succ ∗ (dat6 V c).owesAt () t.succ
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t))) := by
  unfold bodyAt6
  obtain ⟨e0, e1⟩ := before6 V c t
  simp only [e0, e1]
  rw [show (dat6 V c).Φ t.succ = (dat6 V c).Φ t.castSucc from rfl,
    show (dat6 V c).owesAt () t.succ = (dat6 V c).owesAt () t.castSucc from rfl,
    show (dat6 V c).after 0 t = iblk6 V c 0 t from rfl, show (dat6 V c).after 1 t = iblk6 V c 1 t from rfl, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe HΦ Ho H0 H1 H2

theorem body_obligation6 (c : Dev nD) : BodyObligation (dat6 (F := F) V c) (defs₀ (F := F)) Variants.none () Set.univ := fun t => by
  rw [bigSep_W6, bigSep_W6]
  exact sound_body6 V c t

end Region

end Cert.Kernel.Gen

end
-- ==== Proof.Bits.Gcn7Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S1024x256 .f32
  | 0, h => k7_pay2 (iblk7 V c 0 ⟨0, h⟩) (iblk7 V c 1 ⟨0, h⟩) k7_pay1
  | n + 1, h => k7_pay2 (iblk7 V c 0 ⟨n + 1, h⟩) (iblk7 V c 1 ⟨n + 1, h⟩)
      (if (n + 1) % 4 = 0 then k7_pay1 else acc7 c n (Nat.lt_of_succ_lt h))

def fin7 (c : Dev nD) (t : Fin cfg7.N) : Vec F S1024x256 .f32 :=
  k7_pay3 (acc7 V c t.val t.isLt) (iblk7 V c 2 t)

def Φ7 (c : Dev nD) (t : Fin (cfg7.N + 1)) : sProp 𝕄 :=
  iprop(Pipeline.scopedRestBut (Ix := Unit) (Name := ℕ) (U := UR sig nD τ) (Lvl := ℕ) (Val := Elt F) spec7 c [cc7_scratch0]
    ∗ (∃ r, prngReg c r)
    ∗ ∃ f : Vec F S1024x256 .f32, ⌜∀ h : t.val ≠ 0, f = acc7 V c (t.val - 1) (by have := t.isLt; omega)⌝
        ∗ owns (c : Thread nD τ) (Memref.whole cc7_scratch0) fullShare f)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => fin7 V c t
  Φ t := Φ7 V c t
  q _ := fullShare
  owed _ := 0

theorem A_eq7 (c : Dev nD) (w : Fin cfg7.W) : (dat7 V c).A w = V c (Pipeline.arrRef spec7 w) := by
  dsimp only [dat7]
theorem after7_3 (c : Dev nD) (t : Fin cfg7.N) : (dat7 V c).after 3 t = fin7 V c t := by dsimp only [dat7]

end Region

end Cert.Kernel.Gen

end
-- ==== Proof.Bits.Dense8.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_a : Rect S1024x512 := Rect.unit (s := S1024x512) ![0, 0] S1024x512.size inb_S1024x512_S1024x512_0_0
abbrev r8_b : Rect S512x256 := Rect.unit (s := S512x256) ![0, 0] S512x256.size inb_S512x256_S512x256_0_0
abbrev r8_o : Rect S1024x256 := Rect.unit (s := S1024x256) ![0, 0] S1024x256.size inb_S1024x256_S1024x256_0_0

/-- The output block after the body: one whole-block store of the product of the two loaded blocks. -/
def out8_2 (x0 : Vec F S1024x512 .f32) (x1 : Vec F S512x256 .f32) : Vec F S1024x256 .f32 :=
  View.canon [⟨r8_o, k8_pay1 (View.ld x0 r8_a) (View.ld x1 r8_b)⟩]

theorem sound_kernel8 (c : Dev nD) (E : Set ℕ) (i : grid8.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r8_o, _⟩] S1024x256.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_2 (c : Dev nD) (t : Fin cfg8.N) : (dat8 V c).after 2 t = out8_2 (iblk8 V c 0 t) (iblk8 V c 1 t) := by dsimp only [dat8]

theorem before8 (c : Dev nD) (t : Fin cfg8.N) :
    (∀ d, (dat8 V c).before 0 t d = iblk8 V c 0 t) ∧ ∀ d, (dat8 V c).before 1 t d = iblk8 V c 1 t := by
  refine ⟨fun d => ?_, fun d => ?_⟩ <;>
    exact ((dat8 V c).before_in_eq_fetched _ rfl (fun _ => rfl) (fun _ _ _ => rfl) (fun _ => rfl) t d).trans rfl

theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ owns (c : Thread nD τ) (st8_0 t) fullShare ((dat8 V c).after 0 t)
        ∗ owns (c : Thread nD τ) (st8_1 t) fullShare ((dat8 V c).after 1 t)
        ∗ owns (c : Thread nD τ) (st8_2 t) fullShare ((dat8 V c).after 2 t))) := by
  unfold bodyAt8
  obtain ⟨e0, e1⟩ := before8 V c t
  simp only [e0, e1]
  rw [show (dat8 V c).Φ t.succ = (dat8 V c).Φ t.castSucc from rfl,
    show (dat8 V c).owesAt () t.succ = (dat8 V c).owesAt () t.castSucc from rfl,
    show (dat8 V c).after 0 t = iblk8 V c 0 t from rfl, show (dat8 V c).after 1 t = iblk8 V c 1 t from rfl, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  iframe H0 H1
  isplitl [H2]; · iexists _; iexact H2
  iintro ⟨H0, H1, H2⟩
  iframe HΦ Ho H0 H1 H2

theorem body_obligation8 (c : Dev nD) : BodyObligation (dat8 (F := F) V c) (defs₀ (F := F)) Variants.none () Set.univ := fun t => by
  rw [bigSep_W8, bigSep_W8]
  exact sound_body8 V c t

end Region

end Cert.Kernel.Gen

end
-- ==== Proof.Bits.Gcn9Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def acc9 (c : Dev nD) : (n : ℕ) → n < cfg9.N → Vec F S1024x256 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩)
      (if (n + 1) % 4 = 0 then k9_pay1 else acc9 c n (Nat.lt_of_succ_lt h))

def fin9 (c : Dev nD) (t : Fin cfg9.N) : Vec F S1024x256 .f32 :=
  k9_pay3 (acc9 V c t.val t.isLt) (iblk9 V c 2 t)

def Φ9 (c : Dev nD) (t : Fin (cfg9.N + 1)) : sProp 𝕄 :=
  iprop(Pipeline.scopedRestBut (Ix := Unit) (Name := ℕ) (U := UR sig nD τ) (Lvl := ℕ) (Val := Elt F) spec9 c [cc9_scratch0]
    ∗ (∃ r, prngReg c r)
    ∗ ∃ f : Vec F S1024x256 .f32, ⌜∀ h : t.val ≠ 0, f = acc9 V c (t.val - 1) (by have := t.isLt; omega)⌝
        ∗ owns (c : Thread nD τ) (Memref.whole cc9_scratch0) fullShare f)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => fin9 V c t
  Φ t := Φ9 V c t
  q _ := fullShare
  owed _ := 0

theorem A_eq9 (c : Dev nD) (w : Fin cfg9.W) : (dat9 V c).A w = V c (Pipeline.arrRef spec9 w) := by
  dsimp only [dat9]
theorem after9_3 (c : Dev nD) (t : Fin cfg9.N) : (dat9 V c).after 3 t = fin9 V c t := by dsimp only [dat9]

end Region

end Cert.Kernel.Gen

end
-- ==== Proof.Bits.Dense10.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_a : Rect S1024x512 := Rect.unit (s := S1024x512) ![0, 0] S1024x512.size inb_S1024x512_S1024x512_0_0
abbrev r10_b : Rect S512x256 := Rect.unit (s := S512x256) ![0, 0] S512x256.size inb_S512x256_S512x256_0_0
abbrev r10_o : Rect S1024x256 := Rect.unit (s := S1024x256) ![0, 0] S1024x256.size inb_S1024x256_S1024x256_0_0

/-- The output block after the body: one whole-block store of the product of the two loaded blocks. -/
def out10_2 (x0 : Vec F S1024x512 .f32) (x1 : Vec F S512x256 .f32) : Vec F S1024x256 .f32 :=
  View.canon [⟨r10_o, k10_pay1 (View.ld x0 r10_a) (View.ld x1 r10_b)⟩]

theorem sound_kernel10 (c : Dev nD) (E : Set ℕ) (i : grid10.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r10_o, _⟩] S1024x256.size (by rfl))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_2 (c : Dev nD) (t : Fin cfg10.N) : (dat10 V c).after 2 t = out10_2 (iblk10 V c 0 t) (iblk10 V c 1 t) := by dsimp only [dat10]

theorem before10 (c : Dev nD) (t : Fin cfg10.N) :
    (∀ d, (dat10 V c).before 0 t d = iblk10 V c 0 t) ∧ ∀ d, (dat10 V c).before 1 t d = iblk10 V c 1 t := by
  refine ⟨fun d => ?_, fun d => ?_⟩ <;>
    exact ((dat10 V c).before_in_eq_fetched _ rfl (fun _ => rfl) (fun _ _ _ => rfl) (fun _ => rfl) t d).trans rfl

theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d)))
    ⊢ wp frame (wpE (defs₀ (F := F)) Variants.none c none) Set.univ (bodyAt10 t) (fun _ =>
      iprop((dat10 V c).Φ t.succ ∗ (dat10 V c).owesAt () t.succ
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t))) := by
  unfold bodyAt10
  obtain ⟨e0, e1⟩ := before10 V c t
  simp only [e0, e1]
  rw [show (dat10 V c).Φ t.succ = (dat10 V c).Φ t.castSucc from rfl,
    show (dat10 V c).owesAt () t.succ = (dat10 V c).owesAt () t.castSucc from rfl,
    show (dat10 V c).after 0 t = iblk10 V c 0 t from rfl, show (dat10 V c).after 1 t = iblk10 V c 1 t from rfl, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  iframe H0 H1
  isplitl [H2]; · iexists _; iexact H2
  iintro ⟨H0, H1, H2⟩
  iframe HΦ Ho H0 H1 H2

theorem body_obligation10 (c : Dev nD) : BodyObligation (dat10 (F := F) V c) (defs₀ (F := F)) Variants.none () Set.univ := fun t => by
  rw [bigSep_W10, bigSep_W10]
  exact sound_body10 V c t

end Region

end Cert.Kernel.Gen

end
-- ==== Proof.Bits.Gcn11Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def acc11 (c : Dev nD) : (n : ℕ) → n < cfg11.N → Vec F S1024x256 .f32
  | 0, h => k11_pay2 (iblk11 V c 0 ⟨0, h⟩) (iblk11 V c 1 ⟨0, h⟩) k11_pay1
  | n + 1, h => k11_pay2 (iblk11 V c 0 ⟨n + 1, h⟩) (iblk11 V c 1 ⟨n + 1, h⟩)
      (if (n + 1) % 4 = 0 then k11_pay1 else acc11 c n (Nat.lt_of_succ_lt h))

def fin11 (c : Dev nD) (t : Fin cfg11.N) : Vec F S1024x256 .f32 :=
  k11_pay3 (acc11 V c t.val t.isLt) (iblk11 V c 2 t)

def Φ11 (c : Dev nD) (t : Fin (cfg11.N + 1)) : sProp 𝕄 :=
  iprop(Pipeline.scopedRestBut (Ix := Unit) (Name := ℕ) (U := UR sig nD τ) (Lvl := ℕ) (Val := Elt F) spec11 c [cc11_scratch0]
    ∗ (∃ r, prngReg c r)
    ∗ ∃ f : Vec F S1024x256 .f32, ⌜∀ h : t.val ≠ 0, f = acc11 V c (t.val - 1) (by have := t.isLt; omega)⌝
        ∗ owns (c : Thread nD τ) (Memref.whole cc11_scratch0) fullShare f)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => fin11 V c t
  Φ t := Φ11 V c t
  q _ := fullShare
  owed _ := 0

theorem A_eq11 (c : Dev nD) (w : Fin cfg11.W) : (dat11 V c).A w = V c (Pipeline.arrRef spec11 w) := by
  dsimp only [dat11]
theorem after11_3 (c : Dev nD) (t : Fin cfg11.N) : (dat11 V c).after 3 t = fin11 V c t := by dsimp only [dat11]

end Region

end Cert.Kernel.Gen

end
-- ==== Proof.Bits.Dense12.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points
import Idealize.ShloMosaic.Lib.Pipeline.FrameBody
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_a : Rect S1024x512 := Rect.unit (s := S1024x512) ![0, 0] S1024x512.size inb_S1024x512_S1024x512_0_0
abbrev r12_b : Rect S512x256 := Rect.unit (s := S512x256) ![0, 0] S512x256.size inb_S512x256_S512x256_0_0
abbrev r12_o : Rect S1024x256 := Rect.unit (s := S1024x256) ![0, 0] S1024x256.size inb_S1024x256_S1024x256_0_0

/-- The output block after the body: one whole-block store of the product of the two loaded blocks. -/
def out12_2 (x0 : Vec F S1024x512 .f32) (x1 : Vec F S512x256 .f32) : Vec F S1024x256 .f32 :=
  View.canon [⟨r12_o, k12_pay1 (View.ld x0 r12_a) (View.ld x1 r12_b)⟩]

theorem sound_kernel12 (c : Dev nD) (E : Set ℕ) (i : grid12.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dense_matmul_kernel i arg1 harg1 arg2 harg2 arg3 harg3) K := by
  simp only [cc12__dense_matmul_kernel_eq_skeleton]; unfold cc12__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r12_o, _⟩] S1024x256.size (by rfl))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem after12_2 (c : Dev nD) (t : Fin cfg12.N) : (dat12 V c).after 2 t = out12_2 (iblk12 V c 0 t) (iblk12 V c 1 t) := by dsimp only [dat12]

theorem before12 (c : Dev nD) (t : Fin cfg12.N) :
    (∀ d, (dat12 V c).before 0 t d = iblk12 V c 0 t) ∧ ∀ d, (dat12 V c).before 1 t d = iblk12 V c 1 t := by
  refine ⟨fun d => ?_, fun d => ?_⟩ <;>
    exact ((dat12 V c).before_in_eq_fetched _ rfl (fun _ => rfl) (fun _ _ _ => rfl) (fun _ => rfl) t d).trans rfl

theorem sound_body12 (c : Dev nD) (t : Fin cfg12.N) :
    iprop((dat12 V c).Φ t.castSucc ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d)))
    ⊢ wp frame (wpE (defs₀ (F := F)) Variants.none c none) Set.univ (bodyAt12 t) (fun _ =>
      iprop((dat12 V c).Φ t.succ ∗ (dat12 V c).owesAt () t.succ
        ∗ owns (c : Thread nD τ) (st12_0 t) fullShare ((dat12 V c).after 0 t)
        ∗ owns (c : Thread nD τ) (st12_1 t) fullShare ((dat12 V c).after 1 t)
        ∗ owns (c : Thread nD τ) (st12_2 t) fullShare ((dat12 V c).after 2 t))) := by
  unfold bodyAt12
  obtain ⟨e0, e1⟩ := before12 V c t
  simp only [e0, e1]
  rw [show (dat12 V c).Φ t.succ = (dat12 V c).Φ t.castSucc from rfl,
    show (dat12 V c).owesAt () t.succ = (dat12 V c).owesAt () t.castSucc from rfl,
    show (dat12 V c).after 0 t = iblk12 V c 0 t from rfl, show (dat12 V c).after 1 t = iblk12 V c 1 t from rfl, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  iframe H0 H1
  isplitl [H2]; · iexists _; iexact H2
  iintro ⟨H0, H1, H2⟩
  iframe HΦ Ho H0 H1 H2

theorem body_obligation12 (c : Dev nD) : BodyObligation (dat12 (F := F) V c) (defs₀ (F := F)) Variants.none () Set.univ := fun t => by
  rw [bigSep_W12, bigSep_W12]
  exact sound_body12 V c t

end Region

end Cert.Kernel.Gen

end
-- ==== Proof.Bits.Gcn13Data.lean ====
import proofs.«124672_j60567628808244_1_alg».proof.Proof.Gen.Kernel.Launch
import proofs.«124672_j60567628808244_1_alg».proof.Proof.Gen.Kernel.Skeleton
import proofs.«124672_j60567628808244_1_alg».proof.Proof.Gen.Kernel.Points

noncomputable section

namespace Cert.Kernel.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def acc13 (c : Dev nD) : (n : ℕ) → n < cfg13.N → Vec F S1024x256 .f32
  | 0, h => k13_pay2 (iblk13 V c 0 ⟨0, h⟩) (iblk13 V c 1 ⟨0, h⟩) k13_pay1
  | n + 1, h => k13_pay2 (iblk13 V c 0 ⟨n + 1, h⟩) (iblk13 V c 1 ⟨n + 1, h⟩)
      (if (n + 1) % 4 = 0 then k13_pay1 else acc13 c n (Nat.lt_of_succ_lt h))

def fin13 (c : Dev nD) (t : Fin cfg13.N) : Vec F S1024x256 .f32 :=
  k13_pay3 (acc13 V c t.val t.isLt) (iblk13 V c 2 t)

def Φ13 (c : Dev nD) (t : Fin (cfg13.N + 1)) : sProp 𝕄 :=
  iprop(Pipeline.scopedRestBut (Ix := Unit) (Name := ℕ) (U := UR sig nD τ) (Lvl := ℕ) (Val := Elt F) spec13 c [cc13_scratch0]
    ∗ (∃ r, prngReg c r)
    ∗ ∃ f : Vec F S1024x256 .f32, ⌜∀ h : t.val ≠ 0, f = acc13 V c (t.val - 1) (by have := t.isLt; omega)⌝
        ∗ owns (c : Thread nD τ) (Memref.whole cc13_scratch0) fullShare f)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => fin13 V c t
  Φ t := Φ13 V c t
  q _ := fullShare
  owed _ := 0

theorem A_eq13 (c : Dev nD) (w : Fin cfg13.W) : (dat13 V c).A w = V c (Pipeline.arrRef spec13 w) := by
  dsimp only [dat13]
theorem after13_3 (c : Dev nD) (t : Fin cfg13.N) : (dat13 V c).after 3 t = fin13 V c t := by dsimp only [dat13]

end Region

end Cert.Kernel.Gen

end
-- ==== Proof.Bits.Pdats.lean ====
import proofs.«124672_j60567628808244_1_alg».proof.Proof.Gen.Kernel.Regions
import proofs.«124672_j60567628808244_1_alg».proof.Proof.Bits.Dense0
import proofs.«124672_j60567628808244_1_alg».proof.Proof.Bits.Dense1
import proofs.«124672_j60567628808244_1_alg».proof.Proof.Bits.Gcn2Data
import proofs.«124672_j60567628808244_1_alg».proof.Proof.Bits.Gcn3Data
import proofs.«124672_j60567628808244_1_alg».proof.Proof.Bits.Gcn4Data
import proofs.«124672_j60567628808244_1_alg».proof.Proof.Bits.Gcn5Data
import proofs.«124672_j60567628808244_1_alg».proof.Proof.Bits.Dense6
import proofs.«124672_j60567628808244_1_alg».proof.Proof.Bits.Gcn7Data
import proofs.«124672_j60567628808244_1_alg».proof.Proof.Bits.Dense8
import proofs.«124672_j60567628808244_1_alg».proof.Proof.Bits.Gcn9Data
import proofs.«124672_j60567628808244_1_alg».proof.Proof.Bits.Dense10
import proofs.«124672_j60567628808244_1_alg».proof.Proof.Bits.Gcn11Data
import proofs.«124672_j60567628808244_1_alg».proof.Proof.Bits.Dense12
import proofs.«124672_j60567628808244_1_alg».proof.Proof.Bits.Gcn13Data
import Idealize.ShloMosaic.Lib.Pipeline.Kit

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- What every core's buffers hold, read at that core's own references. -/
abbrev Ent (F : FTy → Type) : Type := (c : Dev nD) → (b : Ref sig .tc) → Buf (Elt F) ((c : Thread nD τ).loc b)

variable (m : (ℓ : Loc nD τ sig) → Buf (Elt F) ℓ)

-- `Wk`: the buffers after the first k items of the program; `Uk`: the same, read at a core's own references.
abbrev W0 (outs : Outs (F := F)) (c : Dev nD) : Valuation τ sig (Elt F) := V0 m c
abbrev U0 (outs : Outs (F := F)) : Ent F := fun c b => W0 m outs c b

variable (outs : Outs (F := F))

abbrev W1 (c : Dev nD) : Valuation τ sig (Elt F) := V1 m outs c
abbrev U1 : Ent F := fun c b => W1 m outs c b
abbrev W2 (c : Dev nD) : Valuation τ sig (Elt F) := V2 m outs c
abbrev U2 : Ent F := fun c b => W2 m outs c b
abbrev W3 (c : Dev nD) : Valuation τ sig (Elt F) := V3 m outs c
abbrev U3 : Ent F := fun c b => W3 m outs c b
abbrev W4 (c : Dev nD) : Valuation τ sig (Elt F) := V4 m outs c
abbrev U4 : Ent F := fun c b => W4 m outs c b
abbrev W5 (c : Dev nD) : Valuation τ sig (Elt F) := V5 m outs c
abbrev U5 : Ent F := fun c b => W5 m outs c b
abbrev W6 (c : Dev nD) : Valuation τ sig (Elt F) := V6 m outs c
abbrev U6 : Ent F := fun c b => W6 m outs c b
abbrev W7 (c : Dev nD) : Valuation τ sig (Elt F) := V7 m outs c
abbrev U7 : Ent F := fun c b => W7 m outs c b
abbrev W8 (c : Dev nD) : Valuation τ sig (Elt F) := V8 m outs c
abbrev U8 : Ent F := fun c b => W8 m outs c b
abbrev W9 (c : Dev nD) : Valuation τ sig (Elt F) := V9 m outs c
abbrev U9 : Ent F := fun c b => W9 m outs c b
abbrev W10 (c : Dev nD) : Valuation τ sig (Elt F) := V10 m outs c
abbrev U10 : Ent F := fun c b => W10 m outs c b
abbrev W11 (c : Dev nD) : Valuation τ sig (Elt F) := V11 m outs c
abbrev U11 : Ent F := fun c b => W11 m outs c b
abbrev W12 (c : Dev nD) : Valuation τ sig (Elt F) := V12 m outs c
abbrev U12 : Ent F := fun c b => W12 m outs c b
abbrev W13 (c : Dev nD) : Valuation τ sig (Elt F) := V13 m outs c
abbrev U13 : Ent F := fun c b => W13 m outs c b
abbrev W14 (c : Dev nD) : Valuation τ sig (Elt F) := V14 m outs c
abbrev U14 : Ent F := fun c b => W14 m outs c b
abbrev W15 (c : Dev nD) : Valuation τ sig (Elt F) := V15 m outs c
abbrev U15 : Ent F := fun c b => W15 m outs c b
abbrev W16 (c : Dev nD) : Valuation τ sig (Elt F) := V16 m outs c
abbrev U16 : Ent F := fun c b => W16 m outs c b
abbrev W17 (c : Dev nD) : Valuation τ sig (Elt F) := V17 m outs c
abbrev U17 : Ent F := fun c b => W17 m outs c b
abbrev W18 (c : Dev nD) : Valuation τ sig (Elt F) := V18 m outs c
abbrev U18 : Ent F := fun c b => W18 m outs c b
abbrev W19 (c : Dev nD) : Valuation τ sig (Elt F) := V19 m outs c
abbrev U19 : Ent F := fun c b => W19 m outs c b
abbrev W20 (c : Dev nD) : Valuation τ sig (Elt F) := V20 m outs c
abbrev U20 : Ent F := fun c b => W20 m outs c b
abbrev W21 (c : Dev nD) : Valuation τ sig (Elt F) := V21 m outs c
abbrev U21 : Ent F := fun c b => W21 m outs c b
abbrev W22 (c : Dev nD) : Valuation τ sig (Elt F) := V22 m outs c
abbrev U22 : Ent F := fun c b => W22 m outs c b

/-- Region p's data, taken at the buffers as that region finds them. -/
def pdats : (p : Fin 14) → (c : Dev nD) → Dat τ (Elt F) Unit ℕ (UR sig nD τ) ℕ (cfgs p) c
  | ⟨0, _⟩ => dat0 (U0 m outs)
  | ⟨1, _⟩ => dat1 (U1 m outs)
  | ⟨2, _⟩ => dat2 (U3 m outs)
  | ⟨3, _⟩ => dat3 (U5 m outs)
  | ⟨4, _⟩ => dat4 (U7 m outs)
  | ⟨5, _⟩ => dat5 (U9 m outs)
  | ⟨6, _⟩ => dat6 (U10 m outs)
  | ⟨7, _⟩ => dat7 (U12 m outs)
  | ⟨8, _⟩ => dat8 (U13 m outs)
  | ⟨9, _⟩ => dat9 (U15 m outs)
  | ⟨10, _⟩ => dat10 (U16 m outs)
  | ⟨11, _⟩ => dat11 (U18 m outs)
  | ⟨12, _⟩ => dat12 (U19 m outs)
  | ⟨13, _⟩ => dat13 (U21 m outs)

/-- The assumed contents `outs` agree with what each region computes from the buffers it finds. -/
structure OutsOk : Prop where
  h0 : ∀ c : Dev nD, (dat0 (U0 m outs) c).arrAt 2 cfg0.N = outs 1 main_v0 c
  h1 : ∀ c : Dev nD, (dat1 (U1 m outs) c).arrAt 2 cfg1.N = outs 2 main_v1 c
  h2 : ∀ c : Dev nD, (dat2 (U3 m outs) c).arrAt 3 cfg2.N = outs 4 main_v3 c
  h3 : ∀ c : Dev nD, (dat3 (U5 m outs) c).arrAt 3 cfg3.N = outs 6 main_v5 c
  h4 : ∀ c : Dev nD, (dat4 (U7 m outs) c).arrAt 3 cfg4.N = outs 8 main_v7 c
  h5 : ∀ c : Dev nD, (dat5 (U9 m outs) c).arrAt 3 cfg5.N = outs 10 main_v9 c
  h6 : ∀ c : Dev nD, (dat6 (U10 m outs) c).arrAt 2 cfg6.N = outs 11 main_v10 c
  h7 : ∀ c : Dev nD, (dat7 (U12 m outs) c).arrAt 3 cfg7.N = outs 13 main_v12 c
  h8 : ∀ c : Dev nD, (dat8 (U13 m outs) c).arrAt 2 cfg8.N = outs 14 main_v13 c
  h9 : ∀ c : Dev nD, (dat9 (U15 m outs) c).arrAt 3 cfg9.N = outs 16 main_v15 c
  h10 : ∀ c : Dev nD, (dat10 (U16 m outs) c).arrAt 2 cfg10.N = outs 17 main_v16 c
  h11 : ∀ c : Dev nD, (dat11 (U18 m outs) c).arrAt 3 cfg11.N = outs 19 main_v18 c
  h12 : ∀ c : Dev nD, (dat12 (U19 m outs) c).arrAt 2 cfg12.N = outs 20 main_v19 c
  h13 : ∀ c : Dev nD, (dat13 (U21 m outs) c).arrAt 3 cfg13.N = outs 22 main_v21 c

abbrev Lz : GSem nD τ sig → Finset Unit := fun _ => ∅
abbrev lvz : GSem nD τ sig → Unit → ℕ := fun _ _ => 0

abbrev Rr (c : Dev nD) : sProp (MT nD τ sig Unit (Elt F) ℕ (UR sig nD τ) ℕ) :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Gen

end
-- ==== Proof.Bits.Outs.lean ====
import proofs.«124672_j60567628808244_1_alg».proof.Proof.Bits.Pdats

noncomputable section

namespace Cert.Kernel.Gen

open Idealize.ShloMosaic Idealize.ShloMosaic.TcCoe Idealize.SL.Sem
open Idealize.ShloMosaic.Pipeline (Dat)

variable {F : FTy → Type} [FloatOps F]

/-- Contents of every core, as a region's data read them: at the core's own references. -/
abbrev rd (S : Dev nD → Valuation τ sig (Elt F)) : (c : Dev nD) → (b : Ref sig .tc) → Buf (Elt F) ((c : Thread nD τ).loc b) :=
  fun c b => S c b

theorem rd_eq {W S : Dev nD → Valuation τ sig (Elt F)} (h : ∀ c, W c = S c) : rd W = rd S :=
  congrArg rd (funext h)

-- Writing at `a` what a function already written at `a` holds there changes nothing.
theorem upd2 {α : Sort*} [DecidableEq α] {β : α → Sort*} {f g : ∀ a, β a} (h : f = g) (a : α) (x : β a) :
    Function.update f a (Function.update g a x a) = Function.update g a x := by
  rw [h, Function.update_self]

variable (m : (ℓ : Loc nD τ sig) → Buf (Elt F) ℓ) (c : Dev nD)

-- `Sk`: the buffers after k items, computed from the launch memory alone; a region's output is taken from its own data.

def S0 : Valuation τ sig (Elt F) := V0 m c
def S1 : Valuation τ sig (Elt F) :=
  Function.update (S0 m c) main_v0 ((dat0 (rd (S0 m)) c).arrAt 2 cfg0.N)
def S2 : Valuation τ sig (Elt F) :=
  Function.update (S1 m c) main_v1 ((dat1 (rd (S1 m)) c).arrAt 2 cfg1.N)
def S3 : Valuation τ sig (Elt F) := StableHlo.after hostOps2 (S2 m c)
def S4 : Valuation τ sig (Elt F) :=
  Function.update (S3 m c) main_v3 ((dat2 (rd (S3 m)) c).arrAt 3 cfg2.N)
def S5 : Valuation τ sig (Elt F) := StableHlo.after hostOps3 (S4 m c)
def S6 : Valuation τ sig (Elt F) :=
  Function.update (S5 m c) main_v5 ((dat3 (rd (S5 m)) c).arrAt 3 cfg3.N)
def S7 : Valuation τ sig (Elt F) := StableHlo.after hostOps4 (S6 m c)
def S8 : Valuation τ sig (Elt F) :=
  Function.update (S7 m c) main_v7 ((dat4 (rd (S7 m)) c).arrAt 3 cfg4.N)
def S9 : Valuation τ sig (Elt F) := StableHlo.after hostOps5 (S8 m c)
def S10 : Valuation τ sig (Elt F) :=
  Function.update (S9 m c) main_v9 ((dat5 (rd (S9 m)) c).arrAt 3 cfg5.N)
def S11 : Valuation τ sig (Elt F) :=
  Function.update (S10 m c) main_v10 ((dat6 (rd (S10 m)) c).arrAt 2 cfg6.N)
def S12 : Valuation τ sig (Elt F) := StableHlo.after hostOps7 (S11 m c)
def S13 : Valuation τ sig (Elt F) :=
  Function.update (S12 m c) main_v12 ((dat7 (rd (S12 m)) c).arrAt 3 cfg7.N)
def S14 : Valuation τ sig (Elt F) :=
  Function.update (S13 m c) main_v13 ((dat8 (rd (S13 m)) c).arrAt 2 cfg8.N)
def S15 : Valuation τ sig (Elt F) := StableHlo.after hostOps9 (S14 m c)
def S16 : Valuation τ sig (Elt F) :=
  Function.update (S15 m c) main_v15 ((dat9 (rd (S15 m)) c).arrAt 3 cfg9.N)
def S17 : Valuation τ sig (Elt F) :=
  Function.update (S16 m c) main_v16 ((dat10 (rd (S16 m)) c).arrAt 2 cfg10.N)
def S18 : Valuation τ sig (Elt F) := StableHlo.after hostOps11 (S17 m c)
def S19 : Valuation τ sig (Elt F) :=
  Function.update (S18 m c) main_v18 ((dat11 (rd (S18 m)) c).arrAt 3 cfg11.N)
def S20 : Valuation τ sig (Elt F) :=
  Function.update (S19 m c) main_v19 ((dat12 (rd (S19 m)) c).arrAt 2 cfg12.N)
def S21 : Valuation τ sig (Elt F) := StableHlo.after hostOps13 (S20 m c)
def S22 : Valuation τ sig (Elt F) :=
  Function.update (S21 m c) main_v21 ((dat13 (rd (S21 m)) c).arrAt 3 cfg13.N)

/-- `outs J` reads stage J; only the stages where a region ends are ever asked for. -/
def outs : Outs (F := F) := fun J r c =>
  match J with
  | 1 => S1 m c r
  | 2 => S2 m c r
  | 4 => S4 m c r
  | 6 => S6 m c r
  | 8 => S8 m c r
  | 10 => S10 m c r
  | 11 => S11 m c r
  | 13 => S13 m c r
  | 14 => S14 m c r
  | 16 => S16 m c r
  | 17 => S17 m c r
  | 19 => S19 m c r
  | 20 => S20 m c r
  | 22 => S22 m c r
  | _ => S0 m c r

-- With `outs` for the unknowns, `Wk` is `Sk`: one step per item, along the program.

theorem W0_eq : W0 m (outs m) c = S0 m c := rfl
theorem W1_eq : W1 m (outs m) c = S1 m c := upd2 (W0_eq m c) ..
theorem W2_eq : W2 m (outs m) c = S2 m c := upd2 (W1_eq m c) ..
theorem W3_eq : W3 m (outs m) c = S3 m c := congrArg (StableHlo.after hostOps2) (W2_eq m c)
theorem W4_eq : W4 m (outs m) c = S4 m c := upd2 (W3_eq m c) ..
theorem W5_eq : W5 m (outs m) c = S5 m c := congrArg (StableHlo.after hostOps3) (W4_eq m c)
theorem W6_eq : W6 m (outs m) c = S6 m c := upd2 (W5_eq m c) ..
theorem W7_eq : W7 m (outs m) c = S7 m c := congrArg (StableHlo.after hostOps4) (W6_eq m c)
theorem W8_eq : W8 m (outs m) c = S8 m c := upd2 (W7_eq m c) ..
theorem W9_eq : W9 m (outs m) c = S9 m c := congrArg (StableHlo.after hostOps5) (W8_eq m c)
theorem W10_eq : W10 m (outs m) c = S10 m c := upd2 (W9_eq m c) ..
theorem W11_eq : W11 m (outs m) c = S11 m c := upd2 (W10_eq m c) ..
theorem W12_eq : W12 m (outs m) c = S12 m c := congrArg (StableHlo.after hostOps7) (W11_eq m c)
theorem W13_eq : W13 m (outs m) c = S13 m c := upd2 (W12_eq m c) ..
theorem W14_eq : W14 m (outs m) c = S14 m c := upd2 (W13_eq m c) ..
theorem W15_eq : W15 m (outs m) c = S15 m c := congrArg (StableHlo.after hostOps9) (W14_eq m c)
theorem W16_eq : W16 m (outs m) c = S16 m c := upd2 (W15_eq m c) ..
theorem W17_eq : W17 m (outs m) c = S17 m c := upd2 (W16_eq m c) ..
theorem W18_eq : W18 m (outs m) c = S18 m c := congrArg (StableHlo.after hostOps11) (W17_eq m c)
theorem W19_eq : W19 m (outs m) c = S19 m c := upd2 (W18_eq m c) ..
theorem W20_eq : W20 m (outs m) c = S20 m c := upd2 (W19_eq m c) ..
theorem W21_eq : W21 m (outs m) c = S21 m c := congrArg (StableHlo.after hostOps13) (W20_eq m c)
theorem W22_eq : W22 m (outs m) c = S22 m c := upd2 (W21_eq m c) ..

-- Each region's array, computed from the stage before it, is what the stage after it holds there.
theorem outs_h0 : (dat0 (U0 m (outs m)) c).arrAt 2 cfg0.N = outs m 1 main_v0 c :=
  (congrArg (fun V => (dat0 V c).arrAt 2 cfg0.N) (rd_eq (W0_eq m))).trans (Function.update_self (f := S0 m c) ..).symm
theorem outs_h1 : (dat1 (U1 m (outs m)) c).arrAt 2 cfg1.N = outs m 2 main_v1 c :=
  (congrArg (fun V => (dat1 V c).arrAt 2 cfg1.N) (rd_eq (W1_eq m))).trans (Function.update_self (f := S1 m c) ..).symm
theorem outs_h2 : (dat2 (U3 m (outs m)) c).arrAt 3 cfg2.N = outs m 4 main_v3 c :=
  (congrArg (fun V => (dat2 V c).arrAt 3 cfg2.N) (rd_eq (W3_eq m))).trans (Function.update_self (f := S3 m c) ..).symm
theorem outs_h3 : (dat3 (U5 m (outs m)) c).arrAt 3 cfg3.N = outs m 6 main_v5 c :=
  (congrArg (fun V => (dat3 V c).arrAt 3 cfg3.N) (rd_eq (W5_eq m))).trans (Function.update_self (f := S5 m c) ..).symm
theorem outs_h4 : (dat4 (U7 m (outs m)) c).arrAt 3 cfg4.N = outs m 8 main_v7 c :=
  (congrArg (fun V => (dat4 V c).arrAt 3 cfg4.N) (rd_eq (W7_eq m))).trans (Function.update_self (f := S7 m c) ..).symm
theorem outs_h5 : (dat5 (U9 m (outs m)) c).arrAt 3 cfg5.N = outs m 10 main_v9 c :=
  (congrArg (fun V => (dat5 V c).arrAt 3 cfg5.N) (rd_eq (W9_eq m))).trans (Function.update_self (f := S9 m c) ..).symm
theorem outs_h6 : (dat6 (U10 m (outs m)) c).arrAt 2 cfg6.N = outs m 11 main_v10 c :=
  (congrArg (fun V => (dat6 V c).arrAt 2 cfg6.N) (rd_eq (W10_eq m))).trans (Function.update_self (f := S10 m c) ..).symm
theorem outs_h7 : (dat7 (U12 m (outs m)) c).arrAt 3 cfg7.N = outs m 13 main_v12 c :=
  (congrArg (fun V => (dat7 V c).arrAt 3 cfg7.N) (rd_eq (W12_eq m))).trans (Function.update_self (f := S12 m c) ..).symm
theorem outs_h8 : (dat8 (U13 m (outs m)) c).arrAt 2 cfg8.N = outs m 14 main_v13 c :=
  (congrArg (fun V => (dat8 V c).arrAt 2 cfg8.N) (rd_eq (W13_eq m))).trans (Function.update_self (f := S13 m c) ..).symm
theorem outs_h9 : (dat9 (U15 m (outs m)) c).arrAt 3 cfg9.N = outs m 16 main_v15 c :=
  (congrArg (fun V => (dat9 V c).arrAt 3 cfg9.N) (rd_eq (W15_eq m))).trans (Function.update_self (f := S15 m c) ..).symm
theorem outs_h10 : (dat10 (U16 m (outs m)) c).arrAt 2 cfg10.N = outs m 17 main_v16 c :=
  (congrArg (fun V => (dat10 V c).arrAt 2 cfg10.N) (rd_eq (W16_eq m))).trans (Function.update_self (f := S16 m c) ..).symm
theorem outs_h11 : (dat11 (U18 m (outs m)) c).arrAt 3 cfg11.N = outs m 19 main_v18 c :=
  (congrArg (fun V => (dat11 V c).arrAt 3 cfg11.N) (rd_eq (W18_eq m))).trans (Function.update_self (f := S18 m c) ..).symm
theorem outs_h12 : (dat12 (U19 m (outs m)) c).arrAt 2 cfg12.N = outs m 20 main_v19 c :=
  (congrArg (fun V => (dat12 V c).arrAt 2 cfg12.N) (rd_eq (W19_eq m))).trans (Function.update_self (f := S19 m c) ..).symm
theorem outs_h13 : (dat13 (U21 m (outs m)) c).arrAt 3 cfg13.N = outs m 22 main_v21 c :=
  (congrArg (fun V => (dat13 V c).arrAt 3 cfg13.N) (rd_eq (W21_eq m))).trans (Function.update_self (f := S21 m c) ..).symm

theorem outsOk : OutsOk m (outs m) :=
  ⟨outs_h0 m, outs_h1 m, outs_h2 m, outs_h3 m, outs_h4 m, outs_h5 m, outs_h6 m, outs_h7 m, outs_h8 m, outs_h9 m, outs_h10 m, outs_h11 m, outs_h12 m, outs_h13 m⟩

end Cert.Kernel.Gen

end
-- ==== Proof.Bits.SegLib.lean ====
import proofs.«124672_j60567628808244_1_alg».proof.Proof.Bits.Pdats
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (outs : Outs (F := F))

/-- What entry and exit use of every region's data alike; each holds by the definitions, region by region. -/
theorem pd_plain (κ : Fin 14) (c : Dev nD) : (∀ w, (pdats m outs κ c).q w = fullShare) ∧ (∀ t, (pdats m outs κ c).owed t = 0)
    ∧ (pdats m outs κ c).recorded 0 = Set.univ := by
  fin_cases κ <;> exact ⟨fun _ => rfl, fun _ => rfl, rfl⟩

/-- What differs from region to region: the arrays are read off `W`, only window `o` is written, and `W'` is `W` but for what the region leaves in `o`'s array. -/
structure SegOk (κ : Fin 14) (o : Fin (cfgs κ).W) (c : Dev nD) (W W' : Valuation τ sig (Elt F)) : Prop where
  A : ∀ w, (pdats m outs κ c).A w = W (Pipeline.arrRef (cfgs κ).spec w)
  inp : ∀ w, w ≠ o → ((cfgs κ).win w).isOut = false
  out : (pdats m outs κ c).arrAt o (cfgs κ).N = W' (Pipeline.arrRef (cfgs κ).spec o)
  rest : ∀ b : Ref sig .tc, b ∉ [Pipeline.arrRef (cfgs κ).spec o] → W' b = W b

variable {m outs} {κ : Fin 14} {o : Fin (cfgs κ).W}

/-- A region as one item of the run, from what differs between regions: entered with the buffers at `W`, left with them at `W'`. -/
def segOf {W W' : Dev nD → Valuation τ sig (Elt F)} (L : Pipeline.LaunchFacts (nD := nD) (τ := τ) cfgs κ)
    (hbody : ∀ c, Pipeline.BodyObligationLoose (pdats m outs κ c) (defs₀ (F := F)) Variants.none () Set.univ)
    (ok : ∀ c, SegOk m outs κ o c (W c) (W' c))
    (hin : ∀ c, iprop((∃ r, prngReg c r) ∗ Pipeline.prefHeld (pcfgs (F := F) κ).pre c (fun _ => fullShare) (adm κ).1
      ∗ Pipeline.scopedRest (cfgs κ).spec c) ⊢ (pdats m outs κ c).Φ 0)
    (hout : ∀ c, (pdats m outs κ c).Φ (Fin.last (cfgs κ).N)
      ⊢ iprop((∃ r, prngReg c r) ∗ Pipeline.ownSems0 (fun k : PEmpty => k.elim) c ∗ Pipeline.scopedRest (cfgs κ).spec c)) :
    Pipeline.RegionSeg (pcfgs (F := F)) adm (pdats m outs) () defs₀ Variants.none Lz lvz κ where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lz lvz κ fun c => (pd_plain m outs κ c).2.1
  pre c := iprop(StableHlo.held (c : Thread nD τ) (Pipeline.ucRefs τ sig) (W c) ∗ Rr c)
  post c := iprop(StableHlo.held (c : Thread nD τ) (Pipeline.ucRefs τ sig) (W' c) ∗ Rr c)
  X c := iprop(∃ r, prngReg c r)
  Y c := iprop(∃ r, prngReg c r)
  Z c := Pipeline.unscopedRest (Ix := Unit) (Name := ℕ) (U := UR sig nD τ) (Lvl := ℕ) (cfgs κ).spec c (fun b => W c b)
  hentry c := by
    obtain ⟨hq, ho, hr⟩ := pd_plain m outs κ c
    have hsplit := Pipeline.arrays_of_unscopedBufs (p := κ) (pcfgs (F := F)) adm (pdats m outs) L.win L.arr_whole c
      ((pdats m outs κ c).share_full hq) (fun b => W c b) (ok c).A
    rw [Pipeline.unscopedBufs_held] at hsplit
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, ⟨%S, HO⟩⟩, -, -⟩
    ihave ⟨Ha, Hrest⟩ := hsplit $$ Hub
    imodintro
    iframe Ha Hp Hrest
    isplitr; · iempintro
    iexists S; iframe HO
    ipureintro; exact fun _ _ => Or.inl trivial
  hin := hin
  hout := hout
  hexit c := by
    obtain ⟨hq, ho, -⟩ := pd_plain m outs κ c
    have hjoin := Pipeline.unscopedBufs_of_arrays (p := κ) (pcfgs (F := F)) adm L.win L.arr_whole c (pdats m outs) ((pdats m outs κ c).share_full hq)
      (fun b => W c b) (fun b => W' c b) ((pdats m outs κ c).arrAt · (cfgs κ).N)
      (fun w => by
        by_cases e : w = o
        · rw [e]; exact (ok c).out
        · rw [Pipeline.Dat.arrAt_in _ w ((ok c).inp w e), (ok c).A]
          exact ((ok c).rest _ fun hm => e (L.win.arr_inj (List.mem_singleton.mp hm))).symm)
      fun b hb => (ok c).rest b fun hm => hb (Finset.mem_image.mpr ⟨o, Finset.mem_univ _, (List.mem_singleton.mp hm).symm⟩)
    rw [Pipeline.unscopedBufs_held] at hjoin
    unfold Pipeline.Dat.owesAt Pipeline.owesWithin Rr
    rw [ho]
    iintro ⟨Ha, ⟨%S, -, HO⟩, HY, Hrest⟩
    imodintro
    iframe HY
    isplitl [Ha Hrest]
    · iapply hjoin; iframe Ha Hrest
    iexists S; iexact HO

section
variable {gr n : ℕ} {spec : Fin n → Pipeline.WinSpec sig gr} {c : Dev nD}

/-- The invariant is the two parts handed in, in the other order, -/
theorem dense_in (T : sProp 𝕄) : iprop((∃ r, prngReg c r) ∗ T ∗ Pipeline.scopedRest spec c) ⊢ (Pipeline.ΦA spec c : sProp 𝕄) := by
  unfold Pipeline.ΦA
  iintro ⟨Hp, -, Hr⟩
  iframe Hr Hp

/-- and it hands them back. -/
theorem dense_out : (Pipeline.ΦA spec c : sProp 𝕄)
    ⊢ iprop((∃ r, prngReg c r) ∗ Pipeline.ownSems0 (fun k : PEmpty => k.elim) c ∗ Pipeline.scopedRest spec c) := by
  rw [Pipeline.ownSems0_none]; unfold Pipeline.ΦA
  iintro ⟨Hr, Hp⟩
  iframe Hr Hp
  iempintro

variable {s : Ref sig .tc} {P : s.ty.Contents (Elt F) → Prop}

/-- Here the invariant keeps buffer `s` apart from the rest, under a property `P` that asks nothing at the first point, -/
theorem acc_in (hs : (Pipeline.scopedRest spec c : sProp 𝕄) = iprop((∃ f : Buf (Elt F) ((c : Thread nD τ).loc s), ((c : Thread nD τ).loc s) ↦{fullShare} f)
      ∗ Pipeline.scopedRestBut spec c [s])) (hP : ∀ f, P f) (T : sProp 𝕄) :
    iprop((∃ r, prngReg c r) ∗ T ∗ Pipeline.scopedRest spec c)
      ⊢ iprop(Pipeline.scopedRestBut spec c [s] ∗ (∃ r, prngReg c r) ∗ ∃ f, ⌜P f⌝ ∗ owns (c : Thread nD τ) (Memref.whole s) fullShare f) := by
  rw [hs]; simp only [owns_whole]
  iintro ⟨Hp, -, ⟨%f, Hs⟩, Hr⟩
  iframe Hr Hp
  iexists f; iframe Hs
  ipureintro; exact hP f

/-- and `s` rejoins the rest at the end, whatever it holds. -/
theorem acc_out (hs : (Pipeline.scopedRest spec c : sProp 𝕄) = iprop((∃ f : Buf (Elt F) ((c : Thread nD τ).loc s), ((c : Thread nD τ).loc s) ↦{fullShare} f)
      ∗ Pipeline.scopedRestBut spec c [s])) :
    (iprop(Pipeline.scopedRestBut spec c [s] ∗ (∃ r, prngReg c r) ∗ ∃ f, ⌜P f⌝ ∗ owns (c : Thread nD τ) (Memref.whole s) fullShare f) : sProp 𝕄)
      ⊢ iprop((∃ r, prngReg c r) ∗ Pipeline.ownSems0 (fun k : PEmpty => k.elim) c ∗ Pipeline.scopedRest spec c) := by
  rw [Pipeline.ownSems0_none, hs]; simp only [owns_whole]
  iintro ⟨Hr, Hp, ⟨%f, -, Hs⟩⟩
  iframe Hr Hp
  isplitr; · iempintro
  iexists f; iexact Hs

end

end Cert.Kernel.Gen

end
-- ==== Proof.Bits.Seg0.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok0 (hok : OutsOk m outs) (c : Dev nD) : SegOk m outs (0 : Fin 14) 2 c (W0 m outs c) (W1 m outs c) where
  A := A_eq0 _ c
  inp := by decide
  out := (hok.h0 c).trans (Function.update_self (f := W0 m outs c) _ _).symm
  rest := V1_of m outs c

def reg0 (hok : OutsOk m outs) : Pipeline.RegionSeg (pcfgs (F := F)) adm (pdats m outs) () defs₀ Variants.none Lz lvz (0 : Fin 14) :=
  segOf launch0 (fun c => (body_obligation0 (U0 m outs) c).loose) (ok0 m outs hok) (fun _ => dense_in _) fun _ => dense_out

end Cert.Kernel.Gen

end
-- ==== Proof.Bits.Seg1.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok1 (hok : OutsOk m outs) (c : Dev nD) : SegOk m outs (1 : Fin 14) 2 c (W1 m outs c) (W2 m outs c) where
  A := A_eq1 _ c
  inp := by decide
  out := (hok.h1 c).trans (Function.update_self (f := W1 m outs c) _ _).symm
  rest := V2_of m outs c

def reg1 (hok : OutsOk m outs) : Pipeline.RegionSeg (pcfgs (F := F)) adm (pdats m outs) () defs₀ Variants.none Lz lvz (1 : Fin 14) :=
  segOf launch1 (fun c => (body_obligation1 (U1 m outs) c).loose) (ok1 m outs hok) (fun _ => dense_in _) fun _ => dense_out

end Cert.Kernel.Gen

end
-- ==== Proof.LibView.lean ====
import Idealize.ShloMosaic.Lib.Pipeline.Value

namespace Cert

open Idealize.ShloMosaic

/-- General facts about a whole-block load and a last whole-block store, used by every region's body run. -/
theorem zeroOffs : (![0, 0] : Fin 2 → ℕ) = fun _ => 0 := by funext a; fin_cases a <;> rfl

variable {sg : RefSig} {κ : Kind} {sp : Space} {S : Shape} {e : EltTy} {Val : EltTy → Type}

theorem readAt_unit_zero (v : View sg κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld]; exact View.ld_unit_zero h inb _

theorem read_writes_cons_unit_zero [∀ e, Nonempty (Val e)] (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert
-- ==== Proof.Bits.Gcn2Body.lean ====
import proofs.«124672_j60567628808244_1_alg».proof.Proof.Bits.Gcn2Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond2_1 (i : grid2.Coords) : Prop := (Scalar.cmpi .ne (Scalar.extui (Scalar.cmpi .eq (BitVec.ofNat 32 (i 1).val) 0#32)) 0#32) = 1#1
abbrev cond2_2 (i : grid2.Coords) : Prop := k2_cond2 i = 1#1

theorem hcond2_1 : ∀ t : Fin cfg2.N, cond2_1 (grid2.coords t) ↔ t.val % 4 = 0 :=
  (by decide +kernel : ∀ t : Fin grid2.N, cond2_1 (grid2.coords t) ↔ t.val % 4 = 0)
theorem hcond2_2 : ∀ t : Fin cfg2.N, cond2_2 (grid2.coords t) ↔ t.val % 4 = 3 :=
  (by decide +kernel : ∀ t : Fin grid2.N, cond2_2 (grid2.coords t) ↔ t.val % 4 = 3)

/-- One run per kind of point: the accumulator restarts from `a0` and gains the block product; the output is stored only where the second test holds. -/
theorem sound_kernel2 (c : Dev nD) (E : Set ℕ) (i : grid2.Coords) (hx : ¬(cond2_1 i ∧ cond2_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond2_1 i → a0 = k2_pay1) (h1' : ¬cond2_1 i → a0 = xs)
    (h2 : cond2_2 i → o = k2_pay3 (k2_pay2 x0 x1 a0) x2) (h2' : ¬cond2_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k2_pay2 x0 x1 a0)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond2_1 i <;> by_cases hc2 : cond2_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨fun d => ?_, fun d => ?_, fun d => ?_⟩ <;>
    exact ((dat2 V c).before_in_eq_fetched _ rfl (fun _ => rfl) (fun _ _ _ => rfl) (fun _ => rfl) t d).trans rfl

/-- The accumulator's recursion unfolded once, with `f` what the point before left. -/
theorem acc2_eq (c : Dev nD) (t : Fin cfg2.N) (f : Vec F S1024x512 .f32)
    (hf : ∀ h : t.val ≠ 0, f = acc2 V c (t.val - 1) (Nat.lt_of_le_of_lt (Nat.sub_le _ _) t.isLt)) :
    acc2 V c t.val t.isLt = k2_pay2 (iblk2 V c 0 t) (iblk2 V c 1 t) (if t.val % 4 = 0 then k2_pay1 else f) := by
  obtain ⟨n, hn⟩ := t
  cases n with
  | zero => rfl
  | succ n =>
    rw [acc2]
    split
    · rfl
    · rw [hf (Nat.succ_ne_zero n)]; rfl

end Region

theorem idleAt2_3 : ∀ t : Fin cfg2.N, ¬t.val % 4 = 3 → cfg2.idle 3 (grid2.coords t) = true ∧ (cfg2.win 3).flush t = false := by decide +kernel
theorem liveAt2_3 : ∀ t : Fin cfg2.N, t.val % 4 = 3 → cfg2.idle 3 (grid2.coords t) = false := by decide +kernel

section Region
variable (V : (c : Dev nD) → (b : Ref sig .tc) → Buf (Elt F) ((c : Thread nD τ).loc b))

/-- The point's obligation: the invariant hands the accumulator over and takes it back one step later. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  unfold bodyAt2
  obtain ⟨e0, e1, e2⟩ := before2 V c t
  simp only [e0, e1, e2]
  rw [show (dat2 V c).Φ t.castSucc = Φ2 V c t.castSucc from rfl, show (dat2 V c).Φ t.succ = Φ2 V c t.succ from rfl,
    show (dat2 V c).owesAt () t.succ = (dat2 V c).owesAt () t.castSucc from rfl,
    show (dat2 V c).leavesExact 0 t = owns (c : Thread nD τ) (st2_0 t) fullShare (iblk2 V c 0 t) from rfl,
    show (dat2 V c).leavesExact 1 t = owns (c : Thread nD τ) (st2_1 t) fullShare (iblk2 V c 1 t) from rfl,
    show (dat2 V c).leavesExact 2 t = owns (c : Thread nD τ) (st2_2 t) fullShare (iblk2 V c 2 t) from rfl]
  unfold Φ2
  iintro ⟨⟨HR, Hg, ⟨%f, %hf, HS⟩⟩, Ho, ⟨%d0, H0⟩, ⟨%d1, H1⟩, ⟨%d2, H2⟩, ⟨%d3, H3⟩⟩
  have hacc := acc2_eq V c t f hf
  iapply (sound_kernel2 c Set.univ (grid2.coords t)
    (fun h => by have := (hcond2_1 t).mp h.1; have := (hcond2_2 t).mp h.2; omega) _ _ _ _ _ _ _ _ _ _
    (iblk2 V c 0 t) (iblk2 V c 1 t) (iblk2 V c 2 t) ((dat2 V c).before 3 t d3) f
    (if t.val % 4 = 0 then k2_pay1 else f) (if t.val % 4 = 3 then fin2 V c t else (dat2 V c).before 3 t d3) _
    (fun h => if_pos ((hcond2_1 t).mp h)) (fun h => if_neg fun e => h ((hcond2_1 t).mpr e))
    (fun h => by rw [if_pos ((hcond2_2 t).mp h), ← hacc]; rfl) (fun h => if_neg fun e => h ((hcond2_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt2_3 t h3]; iexact H3
  · rw [if_neg h3, Dat.leavesExact_idle _ 3 t (idleAt2_3 t h3).1 (idleAt2_3 t h3).2]; iexists _; iexact H3

theorem body_obligation2 (c : Dev nD) : BodyObligation (dat2 (F := F) V c) (defs₀ (F := F)) Variants.none () Set.univ := fun t => by
  rw [bigSep_W2, bigSep_W2]
  exact sound_body2 V c t

end Region

end Cert.Kernel.Gen

end
-- ==== Proof.Bits.Seg2.lean ====
import proofs.«124672_j60567628808244_1_alg».proof.Proof.Bits.SegLib
import proofs.«124672_j60567628808244_1_alg».proof.Proof.Bits.Gcn2Body

noncomputable section

namespace Cert.Kernel.Gen

open Idealize.ShloMosaic

variable {F : FTy → Type} [FloatOps F] (m : (ℓ : Loc nD τ sig) → Buf (Elt F) ℓ) (outs : Outs (F := F))

theorem ok2 (hok : OutsOk m outs) (c : Dev nD) : SegOk m outs (2 : Fin 14) 3 c (W3 m outs c) (W4 m outs c) where
  A := A_eq2 _ c
  inp := by decide
  out := (hok.h2 c).trans (Function.update_self (f := W3 m outs c) _ _).symm
  rest := V4_of m outs c

def reg2 (hok : OutsOk m outs) : Pipeline.RegionSeg (pcfgs (F := F)) adm (pdats m outs) () defs₀ Variants.none Lz lvz (2 : Fin 14) :=
  segOf launch2 (fun c => (body_obligation2 (U3 m outs) c).loose) (ok2 m outs hok)
    (fun c => acc_in (scopedRest2_split c) (fun _ h => absurd rfl h) _) fun c => acc_out (scopedRest2_split c)

end Cert.Kernel.Gen

end
-- ==== Proof.Bits.Gcn3Body.lean ====
import proofs.«124672_j60567628808244_1_alg».proof.Proof.Bits.Gcn3Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond3_1 (i : grid3.Coords) : Prop := (Scalar.cmpi .ne (Scalar.extui (Scalar.cmpi .eq (BitVec.ofNat 32 (i 1).val) 0#32)) 0#32) = 1#1
abbrev cond3_2 (i : grid3.Coords) : Prop := k3_cond2 i = 1#1

theorem hcond3_1 : ∀ t : Fin cfg3.N, cond3_1 (grid3.coords t) ↔ t.val % 4 = 0 :=
  (by decide +kernel : ∀ t : Fin grid3.N, cond3_1 (grid3.coords t) ↔ t.val % 4 = 0)
theorem hcond3_2 : ∀ t : Fin cfg3.N, cond3_2 (grid3.coords t) ↔ t.val % 4 = 3 :=
  (by decide +kernel : ∀ t : Fin grid3.N, cond3_2 (grid3.coords t) ↔ t.val % 4 = 3)

/-- One run per kind of point: the accumulator restarts from `a0` and gains the block product; the output is stored only where the second test holds. -/
theorem sound_kernel3 (c : Dev nD) (E : Set ℕ) (i : grid3.Coords) (hx : ¬(cond3_1 i ∧ cond3_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond3_1 i → a0 = k3_pay1) (h1' : ¬cond3_1 i → a0 = xs)
    (h2 : cond3_2 i → o = k3_pay3 (k3_pay2 x0 x1 a0) x2) (h2' : ¬cond3_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k3_pay2 x0 x1 a0)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond3_1 i <;> by_cases hc2 : cond3_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun _ => rfl) t d).trans rfl

/-- The accumulator's recursion unfolded once, with `f` what the point before left. -/
theorem acc3_eq (c : Dev nD) (t : Fin cfg3.N) (f : Vec F S1024x512 .f32)
    (hf : ∀ h : t.val ≠ 0, f = acc3 V c (t.val - 1) (Nat.lt_of_le_of_lt (Nat.sub_le _ _) t.isLt)) :
    acc3 V c t.val t.isLt = k3_pay2 (iblk3 V c 0 t) (iblk3 V c 1 t) (if t.val % 4 = 0 then k3_pay1 else f) := by
  obtain ⟨n, hn⟩ := t
  cases n with
  | zero => rfl
  | succ n =>
    rw [acc3]
    split
    · rfl
    · rw [hf (Nat.succ_ne_zero n)]; rfl

end Region

theorem idleAt3_3 : ∀ t : Fin cfg3.N, ¬t.val % 4 = 3 → cfg3.idle 3 (grid3.coords t) = true ∧ (cfg3.win 3).flush t = false := by decide +kernel
theorem liveAt3_3 : ∀ t : Fin cfg3.N, t.val % 4 = 3 → cfg3.idle 3 (grid3.coords t) = false := by decide +kernel

section Region
variable (V : (c : Dev nD) → (b : Ref sig .tc) → Buf (Elt F) ((c : Thread nD τ).loc b))

/-- The point's obligation: the invariant hands the accumulator over and takes it back one step later. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t)) := by
  unfold bodyAt3
  obtain ⟨e0, e1, e2⟩ := before3 V c t
  simp only [e0, e1, e2]
  rw [show (dat3 V c).Φ t.castSucc = Φ3 V c t.castSucc from rfl, show (dat3 V c).Φ t.succ = Φ3 V c t.succ from rfl,
    show (dat3 V c).owesAt () t.succ = (dat3 V c).owesAt () t.castSucc from rfl,
    show (dat3 V c).leavesExact 0 t = owns (c : Thread nD τ) (st3_0 t) fullShare (iblk3 V c 0 t) from rfl,
    show (dat3 V c).leavesExact 1 t = owns (c : Thread nD τ) (st3_1 t) fullShare (iblk3 V c 1 t) from rfl,
    show (dat3 V c).leavesExact 2 t = owns (c : Thread nD τ) (st3_2 t) fullShare (iblk3 V c 2 t) from rfl]
  unfold Φ3
  iintro ⟨⟨HR, Hg, ⟨%f, %hf, HS⟩⟩, Ho, ⟨%d0, H0⟩, ⟨%d1, H1⟩, ⟨%d2, H2⟩, ⟨%d3, H3⟩⟩
  have hacc := acc3_eq V c t f hf
  iapply (sound_kernel3 c Set.univ (grid3.coords t)
    (fun h => by have := (hcond3_1 t).mp h.1; have := (hcond3_2 t).mp h.2; omega) _ _ _ _ _ _ _ _ _ _
    (iblk3 V c 0 t) (iblk3 V c 1 t) (iblk3 V c 2 t) ((dat3 V c).before 3 t d3) f
    (if t.val % 4 = 0 then k3_pay1 else f) (if t.val % 4 = 3 then fin3 V c t else (dat3 V c).before 3 t d3) _
    (fun h => if_pos ((hcond3_1 t).mp h)) (fun h => if_neg fun e => h ((hcond3_1 t).mpr e))
    (fun h => by rw [if_pos ((hcond3_2 t).mp h), ← hacc]; rfl) (fun h => if_neg fun e => h ((hcond3_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt3_3 t h3]; iexact H3
  · rw [if_neg h3, Dat.leavesExact_idle _ 3 t (idleAt3_3 t h3).1 (idleAt3_3 t h3).2]; iexists _; iexact H3

theorem body_obligation3 (c : Dev nD) : BodyObligation (dat3 (F := F) V c) (defs₀ (F := F)) Variants.none () Set.univ := fun t => by
  rw [bigSep_W3, bigSep_W3]
  exact sound_body3 V c t

end Region

end Cert.Kernel.Gen

end
-- ==== Proof.Bits.Seg3.lean ====
import proofs.«124672_j60567628808244_1_alg».proof.Proof.Bits.SegLib
import proofs.«124672_j60567628808244_1_alg».proof.Proof.Bits.Gcn3Body

noncomputable section

namespace Cert.Kernel.Gen

open Idealize.ShloMosaic

variable {F : FTy → Type} [FloatOps F] (m : (ℓ : Loc nD τ sig) → Buf (Elt F) ℓ) (outs : Outs (F := F))

theorem ok3 (hok : OutsOk m outs) (c : Dev nD) : SegOk m outs (3 : Fin 14) 3 c (W5 m outs c) (W6 m outs c) where
  A := A_eq3 _ c
  inp := by decide
  out := (hok.h3 c).trans (Function.update_self (f := W5 m outs c) _ _).symm
  rest := V6_of m outs c

def reg3 (hok : OutsOk m outs) : Pipeline.RegionSeg (pcfgs (F := F)) adm (pdats m outs) () defs₀ Variants.none Lz lvz (3 : Fin 14) :=
  segOf launch3 (fun c => (body_obligation3 (U5 m outs) c).loose) (ok3 m outs hok)
    (fun c => acc_in (scopedRest3_split c) (fun _ h => absurd rfl h) _) fun c => acc_out (scopedRest3_split c)

end Cert.Kernel.Gen

end
-- ==== Proof.Bits.Gcn4Body.lean ====
import proofs.«124672_j60567628808244_1_alg».proof.Proof.Bits.Gcn4Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond4_1 (i : grid4.Coords) : Prop := (Scalar.cmpi .ne (Scalar.extui (Scalar.cmpi .eq (BitVec.ofNat 32 (i 1).val) 0#32)) 0#32) = 1#1
abbrev cond4_2 (i : grid4.Coords) : Prop := k4_cond2 i = 1#1

theorem hcond4_1 : ∀ t : Fin cfg4.N, cond4_1 (grid4.coords t) ↔ t.val % 4 = 0 :=
  (by decide +kernel : ∀ t : Fin grid4.N, cond4_1 (grid4.coords t) ↔ t.val % 4 = 0)
theorem hcond4_2 : ∀ t : Fin cfg4.N, cond4_2 (grid4.coords t) ↔ t.val % 4 = 3 :=
  (by decide +kernel : ∀ t : Fin grid4.N, cond4_2 (grid4.coords t) ↔ t.val % 4 = 3)

/-- One run per kind of point: the accumulator restarts from `a0` and gains the block product; the output is stored only where the second test holds. -/
theorem sound_kernel4 (c : Dev nD) (E : Set ℕ) (i : grid4.Coords) (hx : ¬(cond4_1 i ∧ cond4_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond4_1 i → a0 = k4_pay1) (h1' : ¬cond4_1 i → a0 = xs)
    (h2 : cond4_2 i → o = k4_pay3 (k4_pay2 x0 x1 a0) x2) (h2' : ¬cond4_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k4_pay2 x0 x1 a0)) -∗ K ⟨⟩))
      ⊢ wp frame (wpE (defs₀ (F := F)) Variants.none c none) E (cc4__gcn_matmul_kernel i arg2 harg2 arg3 harg3 arg4 harg4 arg5 harg5 arg6 harg6) K := by
  simp only [cc4__gcn_matmul_kernel_eq_skeleton]; unfold cc4__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond4_1 i <;> by_cases hc2 : cond4_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

/-- The accumulator's recursion unfolded once, with `f` what the point before left. -/
theorem acc4_eq (c : Dev nD) (t : Fin cfg4.N) (f : Vec F S1024x512 .f32)
    (hf : ∀ h : t.val ≠ 0, f = acc4 V c (t.val - 1) (Nat.lt_of_le_of_lt (Nat.sub_le _ _) t.isLt)) :
    acc4 V c t.val t.isLt = k4_pay2 (iblk4 V c 0 t) (iblk4 V c 1 t) (if t.val % 4 = 0 then k4_pay1 else f) := by
  obtain ⟨n, hn⟩ := t
  cases n with
  | zero => rfl
  | succ n =>
    rw [acc4]
    split
    · rfl
    · rw [hf (Nat.succ_ne_zero n)]; rfl

end Region

theorem idleAt4_3 : ∀ t : Fin cfg4.N, ¬t.val % 4 = 3 → cfg4.idle 3 (grid4.coords t) = true ∧ (cfg4.win 3).flush t = false := by decide +kernel
theorem liveAt4_3 : ∀ t : Fin cfg4.N, t.val % 4 = 3 → cfg4.idle 3 (grid4.coords t) = false := by decide +kernel

section Region
variable (V : (c : Dev nD) → (b : Ref sig .tc) → Buf (Elt F) ((c : Thread nD τ).loc b))

/-- The point's obligation: the invariant hands the accumulator over and takes it back one step later. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t)) := by
  unfold bodyAt4
  obtain ⟨e0, e1, e2⟩ := before4 V c t
  simp only [e0, e1, e2]
  rw [show (dat4 V c).Φ t.castSucc = Φ4 V c t.castSucc from rfl, show (dat4 V c).Φ t.succ = Φ4 V c t.succ from rfl,
    show (dat4 V c).owesAt () t.succ = (dat4 V c).owesAt () t.castSucc from rfl,
    show (dat4 V c).leavesExact 0 t = owns (c : Thread nD τ) (st4_0 t) fullShare (iblk4 V c 0 t) from rfl,
    show (dat4 V c).leavesExact 1 t = owns (c : Thread nD τ) (st4_1 t) fullShare (iblk4 V c 1 t) from rfl,
    show (dat4 V c).leavesExact 2 t = owns (c : Thread nD τ) (st4_2 t) fullShare (iblk4 V c 2 t) from rfl]
  unfold Φ4
  iintro ⟨⟨HR, Hg, ⟨%f, %hf, HS⟩⟩, Ho, ⟨%d0, H0⟩, ⟨%d1, H1⟩, ⟨%d2, H2⟩, ⟨%d3, H3⟩⟩
  have hacc := acc4_eq V c t f hf
  iapply (sound_kernel4 c Set.univ (grid4.coords t)
    (fun h => by have := (hcond4_1 t).mp h.1; have := (hcond4_2 t).mp h.2; omega) _ _ _ _ _ _ _ _ _ _
    (iblk4 V c 0 t) (iblk4 V c 1 t) (iblk4 V c 2 t) ((dat4 V c).before 3 t d3) f
    (if t.val % 4 = 0 then k4_pay1 else f) (if t.val % 4 = 3 then fin4 V c t else (dat4 V c).before 3 t d3) _
    (fun h => if_pos ((hcond4_1 t).mp h)) (fun h => if_neg fun e => h ((hcond4_1 t).mpr e))
    (fun h => by rw [if_pos ((hcond4_2 t).mp h), ← hacc]; rfl) (fun h => if_neg fun e => h ((hcond4_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt4_3 t h3]; iexact H3
  · rw [if_neg h3, Dat.leavesExact_idle _ 3 t (idleAt4_3 t h3).1 (idleAt4_3 t h3).2]; iexists _; iexact H3

theorem body_obligation4 (c : Dev nD) : BodyObligation (dat4 (F := F) V c) (defs₀ (F := F)) Variants.none () Set.univ := fun t => by
  rw [bigSep_W4, bigSep_W4]
  exact sound_body4 V c t

end Region

end Cert.Kernel.Gen

end
-- ==== Proof.Bits.Seg4.lean ====
import proofs.«124672_j60567628808244_1_alg».proof.Proof.Bits.SegLib
import proofs.«124672_j60567628808244_1_alg».proof.Proof.Bits.Gcn4Body

noncomputable section

namespace Cert.Kernel.Gen

open Idealize.ShloMosaic

variable {F : FTy → Type} [FloatOps F] (m : (ℓ : Loc nD τ sig) → Buf (Elt F) ℓ) (outs : Outs (F := F))

theorem ok4 (hok : OutsOk m outs) (c : Dev nD) : SegOk m outs (4 : Fin 14) 3 c (W7 m outs c) (W8 m outs c) where
  A := A_eq4 _ c
  inp := by decide
  out := (hok.h4 c).trans (Function.update_self (f := W7 m outs c) _ _).symm
  rest := V8_of m outs c

def reg4 (hok : OutsOk m outs) : Pipeline.RegionSeg (pcfgs (F := F)) adm (pdats m outs) () defs₀ Variants.none Lz lvz (4 : Fin 14) :=
  segOf launch4 (fun c => (body_obligation4 (U7 m outs) c).loose) (ok4 m outs hok)
    (fun c => acc_in (scopedRest4_split c) (fun _ h => absurd rfl h) _) fun c => acc_out (scopedRest4_split c)

end Cert.Kernel.Gen

end
-- ==== Proof.Bits.Gcn5Body.lean ====
import proofs.«124672_j60567628808244_1_alg».proof.Proof.Bits.Gcn5Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond5_1 (i : grid5.Coords) : Prop := (Scalar.cmpi .ne (Scalar.extui (Scalar.cmpi .eq (BitVec.ofNat 32 (i 1).val) 0#32)) 0#32) = 1#1
abbrev cond5_2 (i : grid5.Coords) : Prop := k5_cond2 i = 1#1

theorem hcond5_1 : ∀ t : Fin cfg5.N, cond5_1 (grid5.coords t) ↔ t.val % 4 = 0 :=
  (by decide +kernel : ∀ t : Fin grid5.N, cond5_1 (grid5.coords t) ↔ t.val % 4 = 0)
theorem hcond5_2 : ∀ t : Fin cfg5.N, cond5_2 (grid5.coords t) ↔ t.val % 4 = 3 :=
  (by decide +kernel : ∀ t : Fin grid5.N, cond5_2 (grid5.coords t) ↔ t.val % 4 = 3)

/-- One run per kind of point: the accumulator restarts from `a0` and gains the block product; the output is stored only where the second test holds. -/
theorem sound_kernel5 (c : Dev nD) (E : Set ℕ) (i : grid5.Coords) (hx : ¬(cond5_1 i ∧ cond5_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond5_1 i → a0 = k5_pay1) (h1' : ¬cond5_1 i → a0 = xs)
    (h2 : cond5_2 i → o = k5_pay3 (k5_pay2 x0 x1 a0) x2) (h2' : ¬cond5_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k5_pay2 x0 x1 a0)) -∗ K ⟨⟩))
      ⊢ wp frame (wpE (defs₀ (F := F)) Variants.none c none) E (cc5__gcn_matmul_kernel i arg2 harg2 arg3 harg3 arg4 harg4 arg5 harg5 arg6 harg6) K := by
  simp only [cc5__gcn_matmul_kernel_eq_skeleton]; unfold cc5__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond5_1 i <;> by_cases hc2 : cond5_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The accumulator's recursion unfolded once, with `f` what the point before left. -/
theorem acc5_eq (c : Dev nD) (t : Fin cfg5.N) (f : Vec F S1024x512 .f32)
    (hf : ∀ h : t.val ≠ 0, f = acc5 V c (t.val - 1) (Nat.lt_of_le_of_lt (Nat.sub_le _ _) t.isLt)) :
    acc5 V c t.val t.isLt = k5_pay2 (iblk5 V c 0 t) (iblk5 V c 1 t) (if t.val % 4 = 0 then k5_pay1 else f) := by
  obtain ⟨n, hn⟩ := t
  cases n with
  | zero => rfl
  | succ n =>
    rw [acc5]
    split
    · rfl
    · rw [hf (Nat.succ_ne_zero n)]; rfl

end Region

theorem idleAt5_3 : ∀ t : Fin cfg5.N, ¬t.val % 4 = 3 → cfg5.idle 3 (grid5.coords t) = true ∧ (cfg5.win 3).flush t = false := by decide +kernel
theorem liveAt5_3 : ∀ t : Fin cfg5.N, t.val % 4 = 3 → cfg5.idle 3 (grid5.coords t) = false := by decide +kernel

section Region
variable (V : (c : Dev nD) → (b : Ref sig .tc) → Buf (Elt F) ((c : Thread nD τ).loc b))

/-- The point's obligation: the invariant hands the accumulator over and takes it back one step later. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t)) := by
  unfold bodyAt5
  obtain ⟨e0, e1, e2⟩ := before5 V c t
  simp only [e0, e1, e2]
  rw [show (dat5 V c).Φ t.castSucc = Φ5 V c t.castSucc from rfl, show (dat5 V c).Φ t.succ = Φ5 V c t.succ from rfl,
    show (dat5 V c).owesAt () t.succ = (dat5 V c).owesAt () t.castSucc from rfl,
    show (dat5 V c).leavesExact 0 t = owns (c : Thread nD τ) (st5_0 t) fullShare (iblk5 V c 0 t) from rfl,
    show (dat5 V c).leavesExact 1 t = owns (c : Thread nD τ) (st5_1 t) fullShare (iblk5 V c 1 t) from rfl,
    show (dat5 V c).leavesExact 2 t = owns (c : Thread nD τ) (st5_2 t) fullShare (iblk5 V c 2 t) from rfl]
  unfold Φ5
  iintro ⟨⟨HR, Hg, ⟨%f, %hf, HS⟩⟩, Ho, ⟨%d0, H0⟩, ⟨%d1, H1⟩, ⟨%d2, H2⟩, ⟨%d3, H3⟩⟩
  have hacc := acc5_eq V c t f hf
  iapply (sound_kernel5 c Set.univ (grid5.coords t)
    (fun h => by have := (hcond5_1 t).mp h.1; have := (hcond5_2 t).mp h.2; omega) _ _ _ _ _ _ _ _ _ _
    (iblk5 V c 0 t) (iblk5 V c 1 t) (iblk5 V c 2 t) ((dat5 V c).before 3 t d3) f
    (if t.val % 4 = 0 then k5_pay1 else f) (if t.val % 4 = 3 then fin5 V c t else (dat5 V c).before 3 t d3) _
    (fun h => if_pos ((hcond5_1 t).mp h)) (fun h => if_neg fun e => h ((hcond5_1 t).mpr e))
    (fun h => by rw [if_pos ((hcond5_2 t).mp h), ← hacc]; rfl) (fun h => if_neg fun e => h ((hcond5_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt5_3 t h3]; iexact H3
  · rw [if_neg h3, Dat.leavesExact_idle _ 3 t (idleAt5_3 t h3).1 (idleAt5_3 t h3).2]; iexists _; iexact H3

theorem body_obligation5 (c : Dev nD) : BodyObligation (dat5 (F := F) V c) (defs₀ (F := F)) Variants.none () Set.univ := fun t => by
  rw [bigSep_W5, bigSep_W5]
  exact sound_body5 V c t

end Region

end Cert.Kernel.Gen

end
-- ==== Proof.Bits.Seg5.lean ====
import proofs.«124672_j60567628808244_1_alg».proof.Proof.Bits.SegLib
import proofs.«124672_j60567628808244_1_alg».proof.Proof.Bits.Gcn5Body

noncomputable section

namespace Cert.Kernel.Gen

open Idealize.ShloMosaic

variable {F : FTy → Type} [FloatOps F] (m : (ℓ : Loc nD τ sig) → Buf (Elt F) ℓ) (outs : Outs (F := F))

theorem ok5 (hok : OutsOk m outs) (c : Dev nD) : SegOk m outs (5 : Fin 14) 3 c (W9 m outs c) (W10 m outs c) where
  A := A_eq5 _ c
  inp := by decide
  out := (hok.h5 c).trans (Function.update_self (f := W9 m outs c) _ _).symm
  rest := V10_of m outs c

def reg5 (hok : OutsOk m outs) : Pipeline.RegionSeg (pcfgs (F := F)) adm (pdats m outs) () defs₀ Variants.none Lz lvz (5 : Fin 14) :=
  segOf launch5 (fun c => (body_obligation5 (U9 m outs) c).loose) (ok5 m outs hok)
    (fun c => acc_in (scopedRest5_split c) (fun _ h => absurd rfl h) _) fun c => acc_out (scopedRest5_split c)

end Cert.Kernel.Gen

end
-- ==== Proof.Bits.Seg6.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok6 (hok : OutsOk m outs) (c : Dev nD) : SegOk m outs (6 : Fin 14) 2 c (W10 m outs c) (W11 m outs c) where
  A := A_eq6 _ c
  inp := by decide
  out := (hok.h6 c).trans (Function.update_self (f := W10 m outs c) _ _).symm
  rest := V11_of m outs c

def reg6 (hok : OutsOk m outs) : Pipeline.RegionSeg (pcfgs (F := F)) adm (pdats m outs) () defs₀ Variants.none Lz lvz (6 : Fin 14) :=
  segOf launch6 (fun c => (body_obligation6 (U10 m outs) c).loose) (ok6 m outs hok) (fun _ => dense_in _) fun _ => dense_out

end Cert.Kernel.Gen

end
-- ==== Proof.Bits.Gcn7Body.lean ====
import proofs.«124672_j60567628808244_1_alg».proof.Proof.Bits.Gcn7Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond7_1 (i : grid7.Coords) : Prop := (Scalar.cmpi .ne (Scalar.extui (Scalar.cmpi .eq (BitVec.ofNat 32 (i 1).val) 0#32)) 0#32) = 1#1
abbrev cond7_2 (i : grid7.Coords) : Prop := k7_cond2 i = 1#1

theorem hcond7_1 : ∀ t : Fin cfg7.N, cond7_1 (grid7.coords t) ↔ t.val % 4 = 0 :=
  (by decide +kernel : ∀ t : Fin grid7.N, cond7_1 (grid7.coords t) ↔ t.val % 4 = 0)
theorem hcond7_2 : ∀ t : Fin cfg7.N, cond7_2 (grid7.coords t) ↔ t.val % 4 = 3 :=
  (by decide +kernel : ∀ t : Fin grid7.N, cond7_2 (grid7.coords t) ↔ t.val % 4 = 3)

/-- One run per kind of point: the accumulator restarts from `a0` and gains the block product; the output is stored only where the second test holds. -/
theorem sound_kernel7 (c : Dev nD) (E : Set ℕ) (i : grid7.Coords) (hx : ¬(cond7_1 i ∧ cond7_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond7_1 i → a0 = k7_pay1) (h1' : ¬cond7_1 i → a0 = xs)
    (h2 : cond7_2 i → o = k7_pay3 (k7_pay2 x0 x1 a0) x2) (h2' : ¬cond7_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k7_pay2 x0 x1 a0)) -∗ K ⟨⟩))
      ⊢ wp frame (wpE (defs₀ (F := F)) Variants.none c none) E (cc7__gcn_matmul_kernel i arg2 harg2 arg3 harg3 arg4 harg4 arg5 harg5 arg6 harg6) K := by
  simp only [cc7__gcn_matmul_kernel_eq_skeleton]; unfold cc7__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond7_1 i <;> by_cases hc2 : cond7_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before7 (c : Dev nD) (t : Fin cfg7.N) :
    (∀ d, (dat7 V c).before 0 t d = iblk7 V c 0 t) ∧ (∀ d, (dat7 V c).before 1 t d = iblk7 V c 1 t)
      ∧ ∀ d, (dat7 V c).before 2 t d = iblk7 V c 2 t := by
  refine ⟨fun d => ?_, fun d => ?_, fun d => ?_⟩ <;>
    exact ((dat7 V c).before_in_eq_fetched _ rfl (fun _ => rfl) (fun _ _ _ => rfl) (fun _ => rfl) t d).trans rfl

/-- The accumulator's recursion unfolded once, with `f` what the point before left. -/
theorem acc7_eq (c : Dev nD) (t : Fin cfg7.N) (f : Vec F S1024x256 .f32)
    (hf : ∀ h : t.val ≠ 0, f = acc7 V c (t.val - 1) (Nat.lt_of_le_of_lt (Nat.sub_le _ _) t.isLt)) :
    acc7 V c t.val t.isLt = k7_pay2 (iblk7 V c 0 t) (iblk7 V c 1 t) (if t.val % 4 = 0 then k7_pay1 else f) := by
  obtain ⟨n, hn⟩ := t
  cases n with
  | zero => rfl
  | succ n =>
    rw [acc7]
    split
    · rfl
    · rw [hf (Nat.succ_ne_zero n)]; rfl

end Region

theorem idleAt7_3 : ∀ t : Fin cfg7.N, ¬t.val % 4 = 3 → cfg7.idle 3 (grid7.coords t) = true ∧ (cfg7.win 3).flush t = false := by decide +kernel
theorem liveAt7_3 : ∀ t : Fin cfg7.N, t.val % 4 = 3 → cfg7.idle 3 (grid7.coords t) = false := by decide +kernel

section Region
variable (V : (c : Dev nD) → (b : Ref sig .tc) → Buf (Elt F) ((c : Thread nD τ).loc b))

/-- The point's obligation: the invariant hands the accumulator over and takes it back one step later. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) (fun _ =>
      iprop((dat7 V c).Φ t.succ ∗ (dat7 V c).owesAt () t.succ
        ∗ (dat7 V c).leavesExact 0 t ∗ (dat7 V c).leavesExact 1 t ∗ (dat7 V c).leavesExact 2 t ∗ (dat7 V c).leavesExact 3 t)) := by
  unfold bodyAt7
  obtain ⟨e0, e1, e2⟩ := before7 V c t
  simp only [e0, e1, e2]
  rw [show (dat7 V c).Φ t.castSucc = Φ7 V c t.castSucc from rfl, show (dat7 V c).Φ t.succ = Φ7 V c t.succ from rfl,
    show (dat7 V c).owesAt () t.succ = (dat7 V c).owesAt () t.castSucc from rfl,
    show (dat7 V c).leavesExact 0 t = owns (c : Thread nD τ) (st7_0 t) fullShare (iblk7 V c 0 t) from rfl,
    show (dat7 V c).leavesExact 1 t = owns (c : Thread nD τ) (st7_1 t) fullShare (iblk7 V c 1 t) from rfl,
    show (dat7 V c).leavesExact 2 t = owns (c : Thread nD τ) (st7_2 t) fullShare (iblk7 V c 2 t) from rfl]
  unfold Φ7
  iintro ⟨⟨HR, Hg, ⟨%f, %hf, HS⟩⟩, Ho, ⟨%d0, H0⟩, ⟨%d1, H1⟩, ⟨%d2, H2⟩, ⟨%d3, H3⟩⟩
  have hacc := acc7_eq V c t f hf
  iapply (sound_kernel7 c Set.univ (grid7.coords t)
    (fun h => by have := (hcond7_1 t).mp h.1; have := (hcond7_2 t).mp h.2; omega) _ _ _ _ _ _ _ _ _ _
    (iblk7 V c 0 t) (iblk7 V c 1 t) (iblk7 V c 2 t) ((dat7 V c).before 3 t d3) f
    (if t.val % 4 = 0 then k7_pay1 else f) (if t.val % 4 = 3 then fin7 V c t else (dat7 V c).before 3 t d3) _
    (fun h => if_pos ((hcond7_1 t).mp h)) (fun h => if_neg fun e => h ((hcond7_1 t).mpr e))
    (fun h => by rw [if_pos ((hcond7_2 t).mp h), ← hacc]; rfl) (fun h => if_neg fun e => h ((hcond7_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt7_3 t h3]; iexact H3
  · rw [if_neg h3, Dat.leavesExact_idle _ 3 t (idleAt7_3 t h3).1 (idleAt7_3 t h3).2]; iexists _; iexact H3

theorem body_obligation7 (c : Dev nD) : BodyObligation (dat7 (F := F) V c) (defs₀ (F := F)) Variants.none () Set.univ := fun t => by
  rw [bigSep_W7, bigSep_W7]
  exact sound_body7 V c t

end Region

end Cert.Kernel.Gen

end
-- ==== Proof.Bits.Seg7.lean ====
import proofs.«124672_j60567628808244_1_alg».proof.Proof.Bits.SegLib
import proofs.«124672_j60567628808244_1_alg».proof.Proof.Bits.Gcn7Body

noncomputable section

namespace Cert.Kernel.Gen

open Idealize.ShloMosaic

variable {F : FTy → Type} [FloatOps F] (m : (ℓ : Loc nD τ sig) → Buf (Elt F) ℓ) (outs : Outs (F := F))

theorem ok7 (hok : OutsOk m outs) (c : Dev nD) : SegOk m outs (7 : Fin 14) 3 c (W12 m outs c) (W13 m outs c) where
  A := A_eq7 _ c
  inp := by decide
  out := (hok.h7 c).trans (Function.update_self (f := W12 m outs c) _ _).symm
  rest := V13_of m outs c

def reg7 (hok : OutsOk m outs) : Pipeline.RegionSeg (pcfgs (F := F)) adm (pdats m outs) () defs₀ Variants.none Lz lvz (7 : Fin 14) :=
  segOf launch7 (fun c => (body_obligation7 (U12 m outs) c).loose) (ok7 m outs hok)
    (fun c => acc_in (scopedRest7_split c) (fun _ h => absurd rfl h) _) fun c => acc_out (scopedRest7_split c)

end Cert.Kernel.Gen

end
-- ==== Proof.Bits.Seg8.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok8 (hok : OutsOk m outs) (c : Dev nD) : SegOk m outs (8 : Fin 14) 2 c (W13 m outs c) (W14 m outs c) where
  A := A_eq8 _ c
  inp := by decide
  out := (hok.h8 c).trans (Function.update_self (f := W13 m outs c) _ _).symm
  rest := V14_of m outs c

def reg8 (hok : OutsOk m outs) : Pipeline.RegionSeg (pcfgs (F := F)) adm (pdats m outs) () defs₀ Variants.none Lz lvz (8 : Fin 14) :=
  segOf launch8 (fun c => (body_obligation8 (U13 m outs) c).loose) (ok8 m outs hok) (fun _ => dense_in _) fun _ => dense_out

end Cert.Kernel.Gen

end
-- ==== Proof.Bits.Gcn9Body.lean ====
import proofs.«124672_j60567628808244_1_alg».proof.Proof.Bits.Gcn9Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond9_1 (i : grid9.Coords) : Prop := (Scalar.cmpi .ne (Scalar.extui (Scalar.cmpi .eq (BitVec.ofNat 32 (i 1).val) 0#32)) 0#32) = 1#1
abbrev cond9_2 (i : grid9.Coords) : Prop := k9_cond2 i = 1#1

theorem hcond9_1 : ∀ t : Fin cfg9.N, cond9_1 (grid9.coords t) ↔ t.val % 4 = 0 :=
  (by decide +kernel : ∀ t : Fin grid9.N, cond9_1 (grid9.coords t) ↔ t.val % 4 = 0)
theorem hcond9_2 : ∀ t : Fin cfg9.N, cond9_2 (grid9.coords t) ↔ t.val % 4 = 3 :=
  (by decide +kernel : ∀ t : Fin grid9.N, cond9_2 (grid9.coords t) ↔ t.val % 4 = 3)

/-- One run per kind of point: the accumulator restarts from `a0` and gains the block product; the output is stored only where the second test holds. -/
theorem sound_kernel9 (c : Dev nD) (E : Set ℕ) (i : grid9.Coords) (hx : ¬(cond9_1 i ∧ cond9_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond9_1 i → a0 = k9_pay1) (h1' : ¬cond9_1 i → a0 = xs)
    (h2 : cond9_2 i → o = k9_pay3 (k9_pay2 x0 x1 a0) x2) (h2' : ¬cond9_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k9_pay2 x0 x1 a0)) -∗ K ⟨⟩))
      ⊢ wp frame (wpE (defs₀ (F := F)) Variants.none c none) E (cc9__gcn_matmul_kernel i arg2 harg2 arg3 harg3 arg4 harg4 arg5 harg5 arg6 harg6) K := by
  simp only [cc9__gcn_matmul_kernel_eq_skeleton]; unfold cc9__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond9_1 i <;> by_cases hc2 : cond9_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before9 (c : Dev nD) (t : Fin cfg9.N) :
    (∀ d, (dat9 V c).before 0 t d = iblk9 V c 0 t) ∧ (∀ d, (dat9 V c).before 1 t d = iblk9 V c 1 t)
      ∧ ∀ d, (dat9 V c).before 2 t d = iblk9 V c 2 t := by
  refine ⟨fun d => ?_, fun d => ?_, fun d => ?_⟩ <;>
    exact ((dat9 V c).before_in_eq_fetched _ rfl (fun _ => rfl) (fun _ _ _ => rfl) (fun _ => rfl) t d).trans rfl

/-- The accumulator's recursion unfolded once, with `f` what the point before left. -/
theorem acc9_eq (c : Dev nD) (t : Fin cfg9.N) (f : Vec F S1024x256 .f32)
    (hf : ∀ h : t.val ≠ 0, f = acc9 V c (t.val - 1) (Nat.lt_of_le_of_lt (Nat.sub_le _ _) t.isLt)) :
    acc9 V c t.val t.isLt = k9_pay2 (iblk9 V c 0 t) (iblk9 V c 1 t) (if t.val % 4 = 0 then k9_pay1 else f) := by
  obtain ⟨n, hn⟩ := t
  cases n with
  | zero => rfl
  | succ n =>
    rw [acc9]
    split
    · rfl
    · rw [hf (Nat.succ_ne_zero n)]; rfl

end Region

theorem idleAt9_3 : ∀ t : Fin cfg9.N, ¬t.val % 4 = 3 → cfg9.idle 3 (grid9.coords t) = true ∧ (cfg9.win 3).flush t = false := by decide +kernel
theorem liveAt9_3 : ∀ t : Fin cfg9.N, t.val % 4 = 3 → cfg9.idle 3 (grid9.coords t) = false := by decide +kernel

section Region
variable (V : (c : Dev nD) → (b : Ref sig .tc) → Buf (Elt F) ((c : Thread nD τ).loc b))

/-- The point's obligation: the invariant hands the accumulator over and takes it back one step later. -/
theorem sound_body9 (c : Dev nD) (t : Fin cfg9.N) :
    iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d))
      ∗ (∃ d, owns (c : Thread nD τ) (st9_3 t) fullShare ((dat9 V c).before 3 t d)))
    ⊢ wp frame (wpE (defs₀ (F := F)) Variants.none c none) Set.univ (bodyAt9 t) (fun _ =>
      iprop((dat9 V c).Φ t.succ ∗ (dat9 V c).owesAt () t.succ
        ∗ (dat9 V c).leavesExact 0 t ∗ (dat9 V c).leavesExact 1 t ∗ (dat9 V c).leavesExact 2 t ∗ (dat9 V c).leavesExact 3 t)) := by
  unfold bodyAt9
  obtain ⟨e0, e1, e2⟩ := before9 V c t
  simp only [e0, e1, e2]
  rw [show (dat9 V c).Φ t.castSucc = Φ9 V c t.castSucc from rfl, show (dat9 V c).Φ t.succ = Φ9 V c t.succ from rfl,
    show (dat9 V c).owesAt () t.succ = (dat9 V c).owesAt () t.castSucc from rfl,
    show (dat9 V c).leavesExact 0 t = owns (c : Thread nD τ) (st9_0 t) fullShare (iblk9 V c 0 t) from rfl,
    show (dat9 V c).leavesExact 1 t = owns (c : Thread nD τ) (st9_1 t) fullShare (iblk9 V c 1 t) from rfl,
    show (dat9 V c).leavesExact 2 t = owns (c : Thread nD τ) (st9_2 t) fullShare (iblk9 V c 2 t) from rfl]
  unfold Φ9
  iintro ⟨⟨HR, Hg, ⟨%f, %hf, HS⟩⟩, Ho, ⟨%d0, H0⟩, ⟨%d1, H1⟩, ⟨%d2, H2⟩, ⟨%d3, H3⟩⟩
  have hacc := acc9_eq V c t f hf
  iapply (sound_kernel9 c Set.univ (grid9.coords t)
    (fun h => by have := (hcond9_1 t).mp h.1; have := (hcond9_2 t).mp h.2; omega) _ _ _ _ _ _ _ _ _ _
    (iblk9 V c 0 t) (iblk9 V c 1 t) (iblk9 V c 2 t) ((dat9 V c).before 3 t d3) f
    (if t.val % 4 = 0 then k9_pay1 else f) (if t.val % 4 = 3 then fin9 V c t else (dat9 V c).before 3 t d3) _
    (fun h => if_pos ((hcond9_1 t).mp h)) (fun h => if_neg fun e => h ((hcond9_1 t).mpr e))
    (fun h => by rw [if_pos ((hcond9_2 t).mp h), ← hacc]; rfl) (fun h => if_neg fun e => h ((hcond9_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt9_3 t h3]; iexact H3
  · rw [if_neg h3, Dat.leavesExact_idle _ 3 t (idleAt9_3 t h3).1 (idleAt9_3 t h3).2]; iexists _; iexact H3

theorem body_obligation9 (c : Dev nD) : BodyObligation (dat9 (F := F) V c) (defs₀ (F := F)) Variants.none () Set.univ := fun t => by
  rw [bigSep_W9, bigSep_W9]
  exact sound_body9 V c t

end Region

end Cert.Kernel.Gen

end
-- ==== Proof.Bits.Seg9.lean ====
import proofs.«124672_j60567628808244_1_alg».proof.Proof.Bits.SegLib
import proofs.«124672_j60567628808244_1_alg».proof.Proof.Bits.Gcn9Body

noncomputable section

namespace Cert.Kernel.Gen

open Idealize.ShloMosaic

variable {F : FTy → Type} [FloatOps F] (m : (ℓ : Loc nD τ sig) → Buf (Elt F) ℓ) (outs : Outs (F := F))

theorem ok9 (hok : OutsOk m outs) (c : Dev nD) : SegOk m outs (9 : Fin 14) 3 c (W15 m outs c) (W16 m outs c) where
  A := A_eq9 _ c
  inp := by decide
  out := (hok.h9 c).trans (Function.update_self (f := W15 m outs c) _ _).symm
  rest := V16_of m outs c

def reg9 (hok : OutsOk m outs) : Pipeline.RegionSeg (pcfgs (F := F)) adm (pdats m outs) () defs₀ Variants.none Lz lvz (9 : Fin 14) :=
  segOf launch9 (fun c => (body_obligation9 (U15 m outs) c).loose) (ok9 m outs hok)
    (fun c => acc_in (scopedRest9_split c) (fun _ h => absurd rfl h) _) fun c => acc_out (scopedRest9_split c)

end Cert.Kernel.Gen

end
-- ==== Proof.Bits.Seg10.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok10 (hok : OutsOk m outs) (c : Dev nD) : SegOk m outs (10 : Fin 14) 2 c (W16 m outs c) (W17 m outs c) where
  A := A_eq10 _ c
  inp := by decide
  out := (hok.h10 c).trans (Function.update_self (f := W16 m outs c) _ _).symm
  rest := V17_of m outs c

def reg10 (hok : OutsOk m outs) : Pipeline.RegionSeg (pcfgs (F := F)) adm (pdats m outs) () defs₀ Variants.none Lz lvz (10 : Fin 14) :=
  segOf launch10 (fun c => (body_obligation10 (U16 m outs) c).loose) (ok10 m outs hok) (fun _ => dense_in _) fun _ => dense_out

end Cert.Kernel.Gen

end
-- ==== Proof.Bits.Gcn11Body.lean ====
import proofs.«124672_j60567628808244_1_alg».proof.Proof.Bits.Gcn11Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond11_1 (i : grid11.Coords) : Prop := (Scalar.cmpi .ne (Scalar.extui (Scalar.cmpi .eq (BitVec.ofNat 32 (i 1).val) 0#32)) 0#32) = 1#1
abbrev cond11_2 (i : grid11.Coords) : Prop := k11_cond2 i = 1#1

theorem hcond11_1 : ∀ t : Fin cfg11.N, cond11_1 (grid11.coords t) ↔ t.val % 4 = 0 :=
  (by decide +kernel : ∀ t : Fin grid11.N, cond11_1 (grid11.coords t) ↔ t.val % 4 = 0)
theorem hcond11_2 : ∀ t : Fin cfg11.N, cond11_2 (grid11.coords t) ↔ t.val % 4 = 3 :=
  (by decide +kernel : ∀ t : Fin grid11.N, cond11_2 (grid11.coords t) ↔ t.val % 4 = 3)

/-- One run per kind of point: the accumulator restarts from `a0` and gains the block product; the output is stored only where the second test holds. -/
theorem sound_kernel11 (c : Dev nD) (E : Set ℕ) (i : grid11.Coords) (hx : ¬(cond11_1 i ∧ cond11_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond11_1 i → a0 = k11_pay1) (h1' : ¬cond11_1 i → a0 = xs)
    (h2 : cond11_2 i → o = k11_pay3 (k11_pay2 x0 x1 a0) x2) (h2' : ¬cond11_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k11_pay2 x0 x1 a0)) -∗ K ⟨⟩))
      ⊢ wp frame (wpE (defs₀ (F := F)) Variants.none c none) E (cc11__gcn_matmul_kernel i arg2 harg2 arg3 harg3 arg4 harg4 arg5 harg5 arg6 harg6) K := by
  simp only [cc11__gcn_matmul_kernel_eq_skeleton]; unfold cc11__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond11_1 i <;> by_cases hc2 : cond11_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before11 (c : Dev nD) (t : Fin cfg11.N) :
    (∀ d, (dat11 V c).before 0 t d = iblk11 V c 0 t) ∧ (∀ d, (dat11 V c).before 1 t d = iblk11 V c 1 t)
      ∧ ∀ d, (dat11 V c).before 2 t d = iblk11 V c 2 t := by
  refine ⟨fun d => ?_, fun d => ?_, fun d => ?_⟩ <;>
    exact ((dat11 V c).before_in_eq_fetched _ rfl (fun _ => rfl) (fun _ _ _ => rfl) (fun _ => rfl) t d).trans rfl

/-- The accumulator's recursion unfolded once, with `f` what the point before left. -/
theorem acc11_eq (c : Dev nD) (t : Fin cfg11.N) (f : Vec F S1024x256 .f32)
    (hf : ∀ h : t.val ≠ 0, f = acc11 V c (t.val - 1) (Nat.lt_of_le_of_lt (Nat.sub_le _ _) t.isLt)) :
    acc11 V c t.val t.isLt = k11_pay2 (iblk11 V c 0 t) (iblk11 V c 1 t) (if t.val % 4 = 0 then k11_pay1 else f) := by
  obtain ⟨n, hn⟩ := t
  cases n with
  | zero => rfl
  | succ n =>
    rw [acc11]
    split
    · rfl
    · rw [hf (Nat.succ_ne_zero n)]; rfl

end Region

theorem idleAt11_3 : ∀ t : Fin cfg11.N, ¬t.val % 4 = 3 → cfg11.idle 3 (grid11.coords t) = true ∧ (cfg11.win 3).flush t = false := by decide +kernel
theorem liveAt11_3 : ∀ t : Fin cfg11.N, t.val % 4 = 3 → cfg11.idle 3 (grid11.coords t) = false := by decide +kernel

section Region
variable (V : (c : Dev nD) → (b : Ref sig .tc) → Buf (Elt F) ((c : Thread nD τ).loc b))

/-- The point's obligation: the invariant hands the accumulator over and takes it back one step later. -/
theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d)))
    ⊢ wp frame (wpE (defs₀ (F := F)) Variants.none c none) Set.univ (bodyAt11 t) (fun _ =>
      iprop((dat11 V c).Φ t.succ ∗ (dat11 V c).owesAt () t.succ
        ∗ (dat11 V c).leavesExact 0 t ∗ (dat11 V c).leavesExact 1 t ∗ (dat11 V c).leavesExact 2 t ∗ (dat11 V c).leavesExact 3 t)) := by
  unfold bodyAt11
  obtain ⟨e0, e1, e2⟩ := before11 V c t
  simp only [e0, e1, e2]
  rw [show (dat11 V c).Φ t.castSucc = Φ11 V c t.castSucc from rfl, show (dat11 V c).Φ t.succ = Φ11 V c t.succ from rfl,
    show (dat11 V c).owesAt () t.succ = (dat11 V c).owesAt () t.castSucc from rfl,
    show (dat11 V c).leavesExact 0 t = owns (c : Thread nD τ) (st11_0 t) fullShare (iblk11 V c 0 t) from rfl,
    show (dat11 V c).leavesExact 1 t = owns (c : Thread nD τ) (st11_1 t) fullShare (iblk11 V c 1 t) from rfl,
    show (dat11 V c).leavesExact 2 t = owns (c : Thread nD τ) (st11_2 t) fullShare (iblk11 V c 2 t) from rfl]
  unfold Φ11
  iintro ⟨⟨HR, Hg, ⟨%f, %hf, HS⟩⟩, Ho, ⟨%d0, H0⟩, ⟨%d1, H1⟩, ⟨%d2, H2⟩, ⟨%d3, H3⟩⟩
  have hacc := acc11_eq V c t f hf
  iapply (sound_kernel11 c Set.univ (grid11.coords t)
    (fun h => by have := (hcond11_1 t).mp h.1; have := (hcond11_2 t).mp h.2; omega) _ _ _ _ _ _ _ _ _ _
    (iblk11 V c 0 t) (iblk11 V c 1 t) (iblk11 V c 2 t) ((dat11 V c).before 3 t d3) f
    (if t.val % 4 = 0 then k11_pay1 else f) (if t.val % 4 = 3 then fin11 V c t else (dat11 V c).before 3 t d3) _
    (fun h => if_pos ((hcond11_1 t).mp h)) (fun h => if_neg fun e => h ((hcond11_1 t).mpr e))
    (fun h => by rw [if_pos ((hcond11_2 t).mp h), ← hacc]; rfl) (fun h => if_neg fun e => h ((hcond11_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt11_3 t h3]; iexact H3
  · rw [if_neg h3, Dat.leavesExact_idle _ 3 t (idleAt11_3 t h3).1 (idleAt11_3 t h3).2]; iexists _; iexact H3

theorem body_obligation11 (c : Dev nD) : BodyObligation (dat11 (F := F) V c) (defs₀ (F := F)) Variants.none () Set.univ := fun t => by
  rw [bigSep_W11, bigSep_W11]
  exact sound_body11 V c t

end Region

end Cert.Kernel.Gen

end
-- ==== Proof.Bits.Seg11.lean ====
import proofs.«124672_j60567628808244_1_alg».proof.Proof.Bits.SegLib
import proofs.«124672_j60567628808244_1_alg».proof.Proof.Bits.Gcn11Body

noncomputable section

namespace Cert.Kernel.Gen

open Idealize.ShloMosaic

variable {F : FTy → Type} [FloatOps F] (m : (ℓ : Loc nD τ sig) → Buf (Elt F) ℓ) (outs : Outs (F := F))

theorem ok11 (hok : OutsOk m outs) (c : Dev nD) : SegOk m outs (11 : Fin 14) 3 c (W18 m outs c) (W19 m outs c) where
  A := A_eq11 _ c
  inp := by decide
  out := (hok.h11 c).trans (Function.update_self (f := W18 m outs c) _ _).symm
  rest := V19_of m outs c

def reg11 (hok : OutsOk m outs) : Pipeline.RegionSeg (pcfgs (F := F)) adm (pdats m outs) () defs₀ Variants.none Lz lvz (11 : Fin 14) :=
  segOf launch11 (fun c => (body_obligation11 (U18 m outs) c).loose) (ok11 m outs hok)
    (fun c => acc_in (scopedRest11_split c) (fun _ h => absurd rfl h) _) fun c => acc_out (scopedRest11_split c)

end Cert.Kernel.Gen

end
-- ==== Proof.Bits.Seg12.lean ====
import proofs.«124672_j60567628808244_1_alg».proof.Proof.Bits.SegLib

noncomputable section

namespace Cert.Kernel.Gen

open Idealize.ShloMosaic

variable {F : FTy → Type} [FloatOps F] (m : (ℓ : Loc nD τ sig) → Buf (Elt F) ℓ) (outs : Outs (F := F))

theorem ok12 (hok : OutsOk m outs) (c : Dev nD) : SegOk m outs (12 : Fin 14) 2 c (W19 m outs c) (W20 m outs c) where
  A := A_eq12 _ c
  inp := by decide
  out := (hok.h12 c).trans (Function.update_self (f := W19 m outs c) _ _).symm
  rest := V20_of m outs c

def reg12 (hok : OutsOk m outs) : Pipeline.RegionSeg (pcfgs (F := F)) adm (pdats m outs) () defs₀ Variants.none Lz lvz (12 : Fin 14) :=
  segOf launch12 (fun c => (body_obligation12 (U19 m outs) c).loose) (ok12 m outs hok) (fun _ => dense_in _) fun _ => dense_out

end Cert.Kernel.Gen

end
-- ==== Proof.Bits.Gcn13Body.lean ====
import proofs.«124672_j60567628808244_1_alg».proof.Proof.Bits.Gcn13Data
import proofs.«124672_j60567628808244_1_alg».proof.Proof.LibView
import Idealize.ShloMosaic.Lib.Tactic

noncomputable section

namespace Cert.Kernel.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond13_1 (i : grid13.Coords) : Prop := (Scalar.cmpi .ne (Scalar.extui (Scalar.cmpi .eq (BitVec.ofNat 32 (i 1).val) 0#32)) 0#32) = 1#1
abbrev cond13_2 (i : grid13.Coords) : Prop := k13_cond2 i = 1#1

theorem hcond13_1 : ∀ t : Fin cfg13.N, cond13_1 (grid13.coords t) ↔ t.val % 4 = 0 :=
  (by decide +kernel : ∀ t : Fin grid13.N, cond13_1 (grid13.coords t) ↔ t.val % 4 = 0)
theorem hcond13_2 : ∀ t : Fin cfg13.N, cond13_2 (grid13.coords t) ↔ t.val % 4 = 3 :=
  (by decide +kernel : ∀ t : Fin grid13.N, cond13_2 (grid13.coords t) ↔ t.val % 4 = 3)

/-- One run per kind of point: the accumulator restarts from `a0` and gains the block product; the output is stored only where the second test holds. -/
theorem sound_kernel13 (c : Dev nD) (E : Set ℕ) (i : grid13.Coords) (hx : ¬(cond13_1 i ∧ cond13_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond13_1 i → a0 = k13_pay1) (h1' : ¬cond13_1 i → a0 = xs)
    (h2 : cond13_2 i → o = k13_pay3 (k13_pay2 x0 x1 a0) x2) (h2' : ¬cond13_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k13_pay2 x0 x1 a0)) -∗ K ⟨⟩))
      ⊢ wp frame (wpE (defs₀ (F := F)) Variants.none c none) E (cc13__gcn_matmul_kernel i arg2 harg2 arg3 harg3 arg4 harg4 arg5 harg5 arg6 harg6) K := by
  simp only [cc13__gcn_matmul_kernel_eq_skeleton]; unfold cc13__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond13_1 i <;> by_cases hc2 : cond13_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before13 (c : Dev nD) (t : Fin cfg13.N) :
    (∀ d, (dat13 V c).before 0 t d = iblk13 V c 0 t) ∧ (∀ d, (dat13 V c).before 1 t d = iblk13 V c 1 t)
      ∧ ∀ d, (dat13 V c).before 2 t d = iblk13 V c 2 t := by
  refine ⟨fun d => ?_, fun d => ?_, fun d => ?_⟩ <;>
    exact ((dat13 V c).before_in_eq_fetched _ rfl (fun _ => rfl) (fun _ _ _ => rfl) (fun _ => rfl) t d).trans rfl

/-- The accumulator's recursion unfolded once, with `f` what the point before left. -/
theorem acc13_eq (c : Dev nD) (t : Fin cfg13.N) (f : Vec F S1024x256 .f32)
    (hf : ∀ h : t.val ≠ 0, f = acc13 V c (t.val - 1) (Nat.lt_of_le_of_lt (Nat.sub_le _ _) t.isLt)) :
    acc13 V c t.val t.isLt = k13_pay2 (iblk13 V c 0 t) (iblk13 V c 1 t) (if t.val % 4 = 0 then k13_pay1 else f) := by
  obtain ⟨n, hn⟩ := t
  cases n with
  | zero => rfl
  | succ n =>
    rw [acc13]
    split
    · rfl
    · rw [hf (Nat.succ_ne_zero n)]; rfl

end Region

theorem idleAt13_3 : ∀ t : Fin cfg13.N, ¬t.val % 4 = 3 → cfg13.idle 3 (grid13.coords t) = true ∧ (cfg13.win 3).flush t = false := by decide +kernel
theorem liveAt13_3 : ∀ t : Fin cfg13.N, t.val % 4 = 3 → cfg13.idle 3 (grid13.coords t) = false := by decide +kernel

section Region
variable (V : (c : Dev nD) → (b : Ref sig .tc) → Buf (Elt F) ((c : Thread nD τ).loc b))

/-- The point's obligation: the invariant hands the accumulator over and takes it back one step later. -/
theorem sound_body13 (c : Dev nD) (t : Fin cfg13.N) :
    iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d))
      ∗ (∃ d, owns (c : Thread nD τ) (st13_3 t) fullShare ((dat13 V c).before 3 t d)))
    ⊢ wp frame (wpE (defs₀ (F := F)) Variants.none c none) Set.univ (bodyAt13 t) (fun _ =>
      iprop((dat13 V c).Φ t.succ ∗ (dat13 V c).owesAt () t.succ
        ∗ (dat13 V c).leavesExact 0 t ∗ (dat13 V c).leavesExact 1 t ∗ (dat13 V c).leavesExact 2 t ∗ (dat13 V c).leavesExact 3 t)) := by
  unfold bodyAt13
  obtain ⟨e0, e1, e2⟩ := before13 V c t
  simp only [e0, e1, e2]
  rw [show (dat13 V c).Φ t.castSucc = Φ13 V c t.castSucc from rfl, show (dat13 V c).Φ t.succ = Φ13 V c t.succ from rfl,
    show (dat13 V c).owesAt () t.succ = (dat13 V c).owesAt () t.castSucc from rfl,
    show (dat13 V c).leavesExact 0 t = owns (c : Thread nD τ) (st13_0 t) fullShare (iblk13 V c 0 t) from rfl,
    show (dat13 V c).leavesExact 1 t = owns (c : Thread nD τ) (st13_1 t) fullShare (iblk13 V c 1 t) from rfl,
    show (dat13 V c).leavesExact 2 t = owns (c : Thread nD τ) (st13_2 t) fullShare (iblk13 V c 2 t) from rfl]
  unfold Φ13
  iintro ⟨⟨HR, Hg, ⟨%f, %hf, HS⟩⟩, Ho, ⟨%d0, H0⟩, ⟨%d1, H1⟩, ⟨%d2, H2⟩, ⟨%d3, H3⟩⟩
  have hacc := acc13_eq V c t f hf
  iapply (sound_kernel13 c Set.univ (grid13.coords t)
    (fun h => by have := (hcond13_1 t).mp h.1; have := (hcond13_2 t).mp h.2; omega) _ _ _ _ _ _ _ _ _ _
    (iblk13 V c 0 t) (iblk13 V c 1 t) (iblk13 V c 2 t) ((dat13 V c).before 3 t d3) f
    (if t.val % 4 = 0 then k13_pay1 else f) (if t.val % 4 = 3 then fin13 V c t else (dat13 V c).before 3 t d3) _
    (fun h => if_pos ((hcond13_1 t).mp h)) (fun h => if_neg fun e => h ((hcond13_1 t).mpr e))
    (fun h => by rw [if_pos ((hcond13_2 t).mp h), ← hacc]; rfl) (fun h => if_neg fun e => h ((hcond13_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt13_3 t h3]; iexact H3
  · rw [if_neg h3, Dat.leavesExact_idle _ 3 t (idleAt13_3 t h3).1 (idleAt13_3 t h3).2]; iexists _; iexact H3

theorem body_obligation13 (c : Dev nD) : BodyObligation (dat13 (F := F) V c) (defs₀ (F := F)) Variants.none () Set.univ := fun t => by
  rw [bigSep_W13, bigSep_W13]
  exact sound_body13 V c t

end Region

end Cert.Kernel.Gen

end
-- ==== Proof.Bits.Seg13.lean ====
import proofs.«124672_j60567628808244_1_alg».proof.Proof.Bits.SegLib
import proofs.«124672_j60567628808244_1_alg».proof.Proof.Bits.Gcn13Body

noncomputable section

namespace Cert.Kernel.Gen

open Idealize.ShloMosaic

variable {F : FTy → Type} [FloatOps F] (m : (ℓ : Loc nD τ sig) → Buf (Elt F) ℓ) (outs : Outs (F := F))

theorem ok13 (hok : OutsOk m outs) (c : Dev nD) : SegOk m outs (13 : Fin 14) 3 c (W21 m outs c) (W22 m outs c) where
  A := A_eq13 _ c
  inp := by decide
  out := (hok.h13 c).trans (Function.update_self (f := W21 m outs c) _ _).symm
  rest := V22_of m outs c

def reg13 (hok : OutsOk m outs) : Pipeline.RegionSeg (pcfgs (F := F)) adm (pdats m outs) () defs₀ Variants.none Lz lvz (13 : Fin 14) :=
  segOf launch13 (fun c => (body_obligation13 (U21 m outs) c).loose) (ok13 m outs hok)
    (fun c => acc_in (scopedRest13_split c) (fun _ h => absurd rfl h) _) fun c => acc_out (scopedRest13_split c)

end Cert.Kernel.Gen

end
-- ==== Proof.Bits.Frame.lean ====
import proofs.«124672_j60567628808244_1_alg».proof.Proof.Bits.Outs
import proofs.«124672_j60567628808244_1_alg».proof.Proof.Bits.Seg0
import proofs.«124672_j60567628808244_1_alg».proof.Proof.Bits.Seg1
import proofs.«124672_j60567628808244_1_alg».proof.Proof.Bits.Seg2
import proofs.«124672_j60567628808244_1_alg».proof.Proof.Bits.Seg3
import proofs.«124672_j60567628808244_1_alg».proof.Proof.Bits.Seg4
import proofs.«124672_j60567628808244_1_alg».proof.Proof.Bits.Seg5
import proofs.«124672_j60567628808244_1_alg».proof.Proof.Bits.Seg6
import proofs.«124672_j60567628808244_1_alg».proof.Proof.Bits.Seg7
import proofs.«124672_j60567628808244_1_alg».proof.Proof.Bits.Seg8
import proofs.«124672_j60567628808244_1_alg».proof.Proof.Bits.Seg9
import proofs.«124672_j60567628808244_1_alg».proof.Proof.Bits.Seg10
import proofs.«124672_j60567628808244_1_alg».proof.Proof.Bits.Seg11
import proofs.«124672_j60567628808244_1_alg».proof.Proof.Bits.Seg12
import proofs.«124672_j60567628808244_1_alg».proof.Proof.Bits.Seg13

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's fourteen regions and the steps between them, in order. -/
abbrev sgs := segs m (outs m) Variants.none Lz lvz (fun _ c => Rr (F := F) c) () (pdats m (outs m))
  (reg0 m (outs m) (outsOk m)) (reg1 m (outs m) (outsOk m)) (reg2 m (outs m) (outsOk m)) (reg3 m (outs m) (outsOk m)) (reg4 m (outs m) (outsOk m)) (reg5 m (outs m) (outsOk m)) (reg6 m (outs m) (outsOk m)) (reg7 m (outs m) (outsOk m)) (reg8 m (outs m) (outsOk m)) (reg9 m (outs m) (outsOk m)) (reg10 m (outs m) (outsOk m)) (reg11 m (outs m) (outsOk m)) (reg12 m (outs m) (outsOk m)) (reg13 m (outs m) (outsOk m))

set_option backward.isDefEq.respectTransparency.types false in
/-- The program runs to its end: each region starts from exactly what the item before it left. -/
theorem run_results : θ_run defs (onTc (τ := τ) (main (F := F))) ⟨m, fun _ => 0, ρ⟩ (fun r => ∀ c : Dev nD,
      r.2.mem ((c.tc : Thread nD τ).loc main_v12) = V22 m (outs m) c main_v12
      ∧ r.2.mem ((c.tc : Thread nD τ).loc main_v15) = V22 m (outs m) c main_v15
      ∧ r.2.mem ((c.tc : Thread nD τ).loc main_v18) = V22 m (outs m) c main_v18
      ∧ r.2.mem ((c.tc : Thread nD τ).loc main_v21) = V22 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m (outs m)) () cellOf_inj emb₁ defs₀ Variants.none Lz lvz m ρ main
    (sgs m)
    (fun c Q => by
      rewrite [main_chain c, Seg.run_eq_chain]
      exact .rfl)
    (fun c => by simp only [sgs, segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => s.mem ((c.tc : Thread nD τ).loc main_v12) = V22 m (outs m) c main_v12 ∧ s.mem ((c.tc : Thread nD τ).loc main_v15) = V22 m (outs m) c main_v15 ∧ s.mem ((c.tc : Thread nD τ).loc main_v18) = V22 m (outs m) c main_v18 ∧ s.mem ((c.tc : Thread nD τ).loc main_v21) = V22 m (outs m) c main_v21 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · refine Pipeline.initEach Lz lvz fun c => ?_
    rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V22 m (outs m) c) s') $$ [Hh HSI]
    · isplitl [Hh] <;> iassumption
    icases Hr with ⟨%h, HSI⟩
    imodintro
    isplitr
    · ipureintro
      exact ⟨h _ (mem_uc main_v12 (by decide)),
        h _ (mem_uc main_v15 (by decide)),
        h _ (mem_uc main_v18 (by decide)),
        h _ (mem_uc main_v21 (by decide)),
        (h _ (mem_uc main_arg0 (by decide))).trans (V22_main_arg0 m (outs m) c),
        (h _ (mem_uc main_arg1 (by decide))).trans (V22_main_arg1 m (outs m) c),
        (h _ (mem_uc main_arg2 (by decide))).trans (V22_main_arg2 m (outs m) c),
        (h _ (mem_uc main_arg3 (by decide))).trans (V22_main_arg3 m (outs m) c),
        (h _ (mem_uc main_arg4 (by decide))).trans (V22_main_arg4 m (outs m) c),
        (h _ (mem_uc main_arg5 (by decide))).trans (V22_main_arg5 m (outs m) c),
        (h _ (mem_uc main_arg6 (by decide))).trans (V22_main_arg6 m (outs m) c),
        (h _ (mem_uc main_arg7 (by decide))).trans (V22_main_arg7 m (outs m) c),
        (h _ (mem_uc main_arg8 (by decide))).trans (V22_main_arg8 m (outs m) c)⟩
    · iexact HSI

-- Forgetting the results leaves the statement about the arguments.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2.2.2) (run_results m ρ)

end Cert.Kernel.Gen

end
-- ==== Proof.Dense0.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_o : Rect S1024x512 := Rect.unit (s := S1024x512) ![0, 0] S1024x512.size inb_S1024x512_S1024x512_0_0

/-- The output block after the body: one whole-block store of the product of the two loaded blocks. -/
def out0_2 (x0 : Vec F S1024x512 .f32) (x1 : Vec F S512x512 .f32) : Vec F S1024x512 .f32 :=
  View.canon [⟨r0_o, k0_pay1 (View.ld x0 r0_a) (View.ld x1 r0_b)⟩]

theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r0_o, _⟩] S1024x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  obtain ⟨e0, e1⟩ := before0 V c t
  simp only [e0, e1]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem body_obligation0 (c : Dev nD) : BodyObligation (dat0 (F := F) V c) (defs₀ (F := F)) Variants.none () Set.univ := fun t => by
  rw [bigSep_W0, bigSep_W0]
  exact sound_body0 V c t

end Region

end Cert.KernelIdeal.Gen

end
-- ==== Proof.Dense1.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1024x512 := Rect.unit (s := S1024x512) ![0, 0] S1024x512.size inb_S1024x512_S1024x512_0_0
abbrev r1_b : Rect S512x512 := Rect.unit (s := S512x512) ![0, 0] S512x512.size inb_S512x512_S512x512_0_0
abbrev r1_o : Rect S1024x512 := Rect.unit (s := S1024x512) ![0, 0] S1024x512.size inb_S1024x512_S1024x512_0_0

/-- The output block after the body: one whole-block store of the product of the two loaded blocks. -/
def out1_2 (x0 : Vec F S1024x512 .f32) (x1 : Vec F S512x512 .f32) : Vec F S1024x512 .f32 :=
  View.canon [⟨r1_o, k1_pay1 (View.ld x0 r1_a) (View.ld x1 r1_b)⟩]

theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r1_o, _⟩] S1024x512.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_2 (c : Dev nD) (t : Fin cfg1.N) : (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ ∀ d, (dat1 V c).before 1 t d = iblk1 V c 1 t := by
  refine ⟨fun d => ?_, fun d => ?_⟩ <;>
    exact ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t))) := by
  unfold bodyAt1
  obtain ⟨e0, e1⟩ := before1 V c t
  simp only [e0, e1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ Ho H0 H1 H2

theorem body_obligation1 (c : Dev nD) : BodyObligation (dat1 (F := F) V c) (defs₀ (F := F)) Variants.none () Set.univ := fun t => by
  rw [bigSep_W1, bigSep_W1]
  exact sound_body1 V c t

end Region

end Cert.KernelIdeal.Gen

end
-- ==== Proof.Gcn2Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1024x512 .f32
  | 0, h => k2_pay2 (iblk2 V c 0 ⟨0, h⟩) (iblk2 V c 1 ⟨0, h⟩) k2_pay1
  | n + 1, h => k2_pay2 (iblk2 V c 0 ⟨n + 1, h⟩) (iblk2 V c 1 ⟨n + 1, h⟩)
      (if (n + 1) % 4 = 0 then k2_pay1 else acc2 c n (Nat.lt_of_succ_lt h))

def fin2 (c : Dev nD) (t : Fin cfg2.N) : Vec F S1024x512 .f32 :=
  k2_pay3 (acc2 V c t.val t.isLt) (iblk2 V c 2 t)

def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0]
    ∗ (∃ r, prngReg c r)
    ∗ ∃ f : Vec F S1024x512 .f32, ⌜∀ h : t.val ≠ 0, f = acc2 V c (t.val - 1) (by have := t.isLt; omega)⌝
        ∗ owns (c : Thread nD τ) (Memref.whole cc2_scratch0) fullShare f)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 V c t
  Φ t := Φ2 V c t
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = fin2 V c t := by dsimp only [dat2]

end Region

end Cert.KernelIdeal.Gen

end
-- ==== Proof.Gcn3Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S1024x512 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩)
      (if (n + 1) % 4 = 0 then k3_pay1 else acc3 c n (Nat.lt_of_succ_lt h))

def fin3 (c : Dev nD) (t : Fin cfg3.N) : Vec F S1024x512 .f32 :=
  k3_pay3 (acc3 V c t.val t.isLt) (iblk3 V c 2 t)

def Φ3 (c : Dev nD) (t : Fin (cfg3.N + 1)) : sProp 𝕄 :=
  iprop(Pipeline.scopedRestBut (Ix := Unit) (Name := ℕ) (U := UR sig nD τ) (Lvl := ℕ) (Val := Elt F) spec3 c [cc3_scratch0]
    ∗ (∃ r, prngReg c r)
    ∗ ∃ f : Vec F S1024x512 .f32, ⌜∀ h : t.val ≠ 0, f = acc3 V c (t.val - 1) (by have := t.isLt; omega)⌝
        ∗ owns (c : Thread nD τ) (Memref.whole cc3_scratch0) fullShare f)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => fin3 V c t
  Φ t := Φ3 V c t
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) : (dat3 V c).after 3 t = fin3 V c t := by dsimp only [dat3]

end Region

end Cert.KernelIdeal.Gen

end
-- ==== Proof.Gcn4Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1024x512 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩)
      (if (n + 1) % 4 = 0 then k4_pay1 else acc4 c n (Nat.lt_of_succ_lt h))

def fin4 (c : Dev nD) (t : Fin cfg4.N) : Vec F S1024x512 .f32 :=
  k4_pay3 (acc4 V c t.val t.isLt) (iblk4 V c 2 t)

def Φ4 (c : Dev nD) (t : Fin (cfg4.N + 1)) : sProp 𝕄 :=
  iprop(Pipeline.scopedRestBut (Ix := Unit) (Name := ℕ) (U := UR sig nD τ) (Lvl := ℕ) (Val := Elt F) spec4 c [cc4_scratch0]
    ∗ (∃ r, prngReg c r)
    ∗ ∃ f : Vec F S1024x512 .f32, ⌜∀ h : t.val ≠ 0, f = acc4 V c (t.val - 1) (by have := t.isLt; omega)⌝
        ∗ owns (c : Thread nD τ) (Memref.whole cc4_scratch0) fullShare f)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => fin4 V c t
  Φ t := Φ4 V c t
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) : (dat4 V c).after 3 t = fin4 V c t := by dsimp only [dat4]

end Region

end Cert.KernelIdeal.Gen

end
-- ==== Proof.Gcn5Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1024x512 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩)
      (if (n + 1) % 4 = 0 then k5_pay1 else acc5 c n (Nat.lt_of_succ_lt h))

def fin5 (c : Dev nD) (t : Fin cfg5.N) : Vec F S1024x512 .f32 :=
  k5_pay3 (acc5 V c t.val t.isLt) (iblk5 V c 2 t)

def Φ5 (c : Dev nD) (t : Fin (cfg5.N + 1)) : sProp 𝕄 :=
  iprop(Pipeline.scopedRestBut (Ix := Unit) (Name := ℕ) (U := UR sig nD τ) (Lvl := ℕ) (Val := Elt F) spec5 c [cc5_scratch0]
    ∗ (∃ r, prngReg c r)
    ∗ ∃ f : Vec F S1024x512 .f32, ⌜∀ h : t.val ≠ 0, f = acc5 V c (t.val - 1) (by have := t.isLt; omega)⌝
        ∗ owns (c : Thread nD τ) (Memref.whole cc5_scratch0) fullShare f)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => fin5 V c t
  Φ t := Φ5 V c t
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) : (dat5 V c).after 3 t = fin5 V c t := by dsimp only [dat5]

end Region

end Cert.KernelIdeal.Gen

end
-- ==== Proof.Dense6.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S1024x512 := Rect.unit (s := S1024x512) ![0, 0] S1024x512.size inb_S1024x512_S1024x512_0_0
abbrev r6_b : Rect S512x256 := Rect.unit (s := S512x256) ![0, 0] S512x256.size inb_S512x256_S512x256_0_0
abbrev r6_o : Rect S1024x256 := Rect.unit (s := S1024x256) ![0, 0] S1024x256.size inb_S1024x256_S1024x256_0_0

/-- The output block after the body: one whole-block store of the product of the two loaded blocks. -/
def out6_2 (x0 : Vec F S1024x512 .f32) (x1 : Vec F S512x256 .f32) : Vec F S1024x256 .f32 :=
  View.canon [⟨r6_o, k6_pay1 (View.ld x0 r6_a) (View.ld x1 r6_b)⟩]

theorem sound_kernel6 (c : Dev nD) (E : Set ℕ) (i : grid6.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_matmul_kernel i arg1 harg1 arg2 harg2 arg3 harg3) K := by
  simp only [cc6__dense_matmul_kernel_eq_skeleton]; unfold cc6__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r6_o, _⟩] S1024x256.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_2 (c : Dev nD) (t : Fin cfg6.N) : (dat6 V c).after 2 t = out6_2 (iblk6 V c 0 t) (iblk6 V c 1 t) := by dsimp only [dat6]

theorem before6 (c : Dev nD) (t : Fin cfg6.N) :
    (∀ d, (dat6 V c).before 0 t d = iblk6 V c 0 t) ∧ ∀ d, (dat6 V c).before 1 t d = iblk6 V c 1 t := by
  refine ⟨fun d => ?_, fun d => ?_⟩ <;>
    exact ((dat6 V c).before_in_eq_fetched _ rfl (fun _ => rfl) (fun _ _ _ => rfl) (fun _ => rfl) t d).trans rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.succ ∗ (dat6 V c).owesAt () t.succ
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t))) := by
  unfold bodyAt6
  obtain ⟨e0, e1⟩ := before6 V c t
  simp only [e0, e1]
  rw [show (dat6 V c).Φ t.succ = (dat6 V c).Φ t.castSucc from rfl,
    show (dat6 V c).owesAt () t.succ = (dat6 V c).owesAt () t.castSucc from rfl,
    show (dat6 V c).after 0 t = iblk6 V c 0 t from rfl, show (dat6 V c).after 1 t = iblk6 V c 1 t from rfl, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe HΦ Ho H0 H1 H2

theorem body_obligation6 (c : Dev nD) : BodyObligation (dat6 (F := F) V c) (defs₀ (F := F)) Variants.none () Set.univ := fun t => by
  rw [bigSep_W6, bigSep_W6]
  exact sound_body6 V c t

end Region

end Cert.KernelIdeal.Gen

end
-- ==== Proof.Gcn7Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S1024x256 .f32
  | 0, h => k7_pay2 (iblk7 V c 0 ⟨0, h⟩) (iblk7 V c 1 ⟨0, h⟩) k7_pay1
  | n + 1, h => k7_pay2 (iblk7 V c 0 ⟨n + 1, h⟩) (iblk7 V c 1 ⟨n + 1, h⟩)
      (if (n + 1) % 4 = 0 then k7_pay1 else acc7 c n (Nat.lt_of_succ_lt h))

def fin7 (c : Dev nD) (t : Fin cfg7.N) : Vec F S1024x256 .f32 :=
  k7_pay3 (acc7 V c t.val t.isLt) (iblk7 V c 2 t)

def Φ7 (c : Dev nD) (t : Fin (cfg7.N + 1)) : sProp 𝕄 :=
  iprop(Pipeline.scopedRestBut (Ix := Unit) (Name := ℕ) (U := UR sig nD τ) (Lvl := ℕ) (Val := Elt F) spec7 c [cc7_scratch0]
    ∗ (∃ r, prngReg c r)
    ∗ ∃ f : Vec F S1024x256 .f32, ⌜∀ h : t.val ≠ 0, f = acc7 V c (t.val - 1) (by have := t.isLt; omega)⌝
        ∗ owns (c : Thread nD τ) (Memref.whole cc7_scratch0) fullShare f)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => fin7 V c t
  Φ t := Φ7 V c t
  q _ := fullShare
  owed _ := 0

theorem A_eq7 (c : Dev nD) (w : Fin cfg7.W) : (dat7 V c).A w = V c (Pipeline.arrRef spec7 w) := by
  dsimp only [dat7]
theorem after7_3 (c : Dev nD) (t : Fin cfg7.N) : (dat7 V c).after 3 t = fin7 V c t := by dsimp only [dat7]

end Region

end Cert.KernelIdeal.Gen

end
-- ==== Proof.Dense8.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_a : Rect S1024x512 := Rect.unit (s := S1024x512) ![0, 0] S1024x512.size inb_S1024x512_S1024x512_0_0
abbrev r8_b : Rect S512x256 := Rect.unit (s := S512x256) ![0, 0] S512x256.size inb_S512x256_S512x256_0_0
abbrev r8_o : Rect S1024x256 := Rect.unit (s := S1024x256) ![0, 0] S1024x256.size inb_S1024x256_S1024x256_0_0

/-- The output block after the body: one whole-block store of the product of the two loaded blocks. -/
def out8_2 (x0 : Vec F S1024x512 .f32) (x1 : Vec F S512x256 .f32) : Vec F S1024x256 .f32 :=
  View.canon [⟨r8_o, k8_pay1 (View.ld x0 r8_a) (View.ld x1 r8_b)⟩]

theorem sound_kernel8 (c : Dev nD) (E : Set ℕ) (i : grid8.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__dense_matmul_kernel i arg1 harg1 arg2 harg2 arg3 harg3) K := by
  simp only [cc8__dense_matmul_kernel_eq_skeleton]; unfold cc8__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r8_o, _⟩] S1024x256.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_2 (c : Dev nD) (t : Fin cfg8.N) : (dat8 V c).after 2 t = out8_2 (iblk8 V c 0 t) (iblk8 V c 1 t) := by dsimp only [dat8]

theorem before8 (c : Dev nD) (t : Fin cfg8.N) :
    (∀ d, (dat8 V c).before 0 t d = iblk8 V c 0 t) ∧ ∀ d, (dat8 V c).before 1 t d = iblk8 V c 1 t := by
  refine ⟨fun d => ?_, fun d => ?_⟩ <;>
    exact ((dat8 V c).before_in_eq_fetched _ rfl (fun _ => rfl) (fun _ _ _ => rfl) (fun _ => rfl) t d).trans rfl

theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ owns (c : Thread nD τ) (st8_0 t) fullShare ((dat8 V c).after 0 t)
        ∗ owns (c : Thread nD τ) (st8_1 t) fullShare ((dat8 V c).after 1 t)
        ∗ owns (c : Thread nD τ) (st8_2 t) fullShare ((dat8 V c).after 2 t))) := by
  unfold bodyAt8
  obtain ⟨e0, e1⟩ := before8 V c t
  simp only [e0, e1]
  rw [show (dat8 V c).Φ t.succ = (dat8 V c).Φ t.castSucc from rfl,
    show (dat8 V c).owesAt () t.succ = (dat8 V c).owesAt () t.castSucc from rfl,
    show (dat8 V c).after 0 t = iblk8 V c 0 t from rfl, show (dat8 V c).after 1 t = iblk8 V c 1 t from rfl, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  iframe H0 H1
  isplitl [H2]; · iexists _; iexact H2
  iintro ⟨H0, H1, H2⟩
  iframe HΦ Ho H0 H1 H2

theorem body_obligation8 (c : Dev nD) : BodyObligation (dat8 (F := F) V c) (defs₀ (F := F)) Variants.none () Set.univ := fun t => by
  rw [bigSep_W8, bigSep_W8]
  exact sound_body8 V c t

end Region

end Cert.KernelIdeal.Gen

end
-- ==== Proof.Gcn9Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def acc9 (c : Dev nD) : (n : ℕ) → n < cfg9.N → Vec F S1024x256 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩)
      (if (n + 1) % 4 = 0 then k9_pay1 else acc9 c n (Nat.lt_of_succ_lt h))

def fin9 (c : Dev nD) (t : Fin cfg9.N) : Vec F S1024x256 .f32 :=
  k9_pay3 (acc9 V c t.val t.isLt) (iblk9 V c 2 t)

def Φ9 (c : Dev nD) (t : Fin (cfg9.N + 1)) : sProp 𝕄 :=
  iprop(Pipeline.scopedRestBut (Ix := Unit) (Name := ℕ) (U := UR sig nD τ) (Lvl := ℕ) (Val := Elt F) spec9 c [cc9_scratch0]
    ∗ (∃ r, prngReg c r)
    ∗ ∃ f : Vec F S1024x256 .f32, ⌜∀ h : t.val ≠ 0, f = acc9 V c (t.val - 1) (by have := t.isLt; omega)⌝
        ∗ owns (c : Thread nD τ) (Memref.whole cc9_scratch0) fullShare f)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => fin9 V c t
  Φ t := Φ9 V c t
  q _ := fullShare
  owed _ := 0

theorem A_eq9 (c : Dev nD) (w : Fin cfg9.W) : (dat9 V c).A w = V c (Pipeline.arrRef spec9 w) := by
  dsimp only [dat9]
theorem after9_3 (c : Dev nD) (t : Fin cfg9.N) : (dat9 V c).after 3 t = fin9 V c t := by dsimp only [dat9]

end Region

end Cert.KernelIdeal.Gen

end
-- ==== Proof.Dense10.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_a : Rect S1024x512 := Rect.unit (s := S1024x512) ![0, 0] S1024x512.size inb_S1024x512_S1024x512_0_0
abbrev r10_b : Rect S512x256 := Rect.unit (s := S512x256) ![0, 0] S512x256.size inb_S512x256_S512x256_0_0
abbrev r10_o : Rect S1024x256 := Rect.unit (s := S1024x256) ![0, 0] S1024x256.size inb_S1024x256_S1024x256_0_0

/-- The output block after the body: one whole-block store of the product of the two loaded blocks. -/
def out10_2 (x0 : Vec F S1024x512 .f32) (x1 : Vec F S512x256 .f32) : Vec F S1024x256 .f32 :=
  View.canon [⟨r10_o, k10_pay1 (View.ld x0 r10_a) (View.ld x1 r10_b)⟩]

theorem sound_kernel10 (c : Dev nD) (E : Set ℕ) (i : grid10.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__dense_matmul_kernel i arg1 harg1 arg2 harg2 arg3 harg3) K := by
  simp only [cc10__dense_matmul_kernel_eq_skeleton]; unfold cc10__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r10_o, _⟩] S1024x256.size (by rfl))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_2 (c : Dev nD) (t : Fin cfg10.N) : (dat10 V c).after 2 t = out10_2 (iblk10 V c 0 t) (iblk10 V c 1 t) := by dsimp only [dat10]

theorem before10 (c : Dev nD) (t : Fin cfg10.N) :
    (∀ d, (dat10 V c).before 0 t d = iblk10 V c 0 t) ∧ ∀ d, (dat10 V c).before 1 t d = iblk10 V c 1 t := by
  refine ⟨fun d => ?_, fun d => ?_⟩ <;>
    exact ((dat10 V c).before_in_eq_fetched _ rfl (fun _ => rfl) (fun _ _ _ => rfl) (fun _ => rfl) t d).trans rfl

theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d)))
    ⊢ wp frame (wpE (defs₀ (F := F)) Variants.none c none) Set.univ (bodyAt10 t) (fun _ =>
      iprop((dat10 V c).Φ t.succ ∗ (dat10 V c).owesAt () t.succ
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t))) := by
  unfold bodyAt10
  obtain ⟨e0, e1⟩ := before10 V c t
  simp only [e0, e1]
  rw [show (dat10 V c).Φ t.succ = (dat10 V c).Φ t.castSucc from rfl,
    show (dat10 V c).owesAt () t.succ = (dat10 V c).owesAt () t.castSucc from rfl,
    show (dat10 V c).after 0 t = iblk10 V c 0 t from rfl, show (dat10 V c).after 1 t = iblk10 V c 1 t from rfl, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  iframe H0 H1
  isplitl [H2]; · iexists _; iexact H2
  iintro ⟨H0, H1, H2⟩
  iframe HΦ Ho H0 H1 H2

theorem body_obligation10 (c : Dev nD) : BodyObligation (dat10 (F := F) V c) (defs₀ (F := F)) Variants.none () Set.univ := fun t => by
  rw [bigSep_W10, bigSep_W10]
  exact sound_body10 V c t

end Region

end Cert.KernelIdeal.Gen

end
-- ==== Proof.Gcn11Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def acc11 (c : Dev nD) : (n : ℕ) → n < cfg11.N → Vec F S1024x256 .f32
  | 0, h => k11_pay2 (iblk11 V c 0 ⟨0, h⟩) (iblk11 V c 1 ⟨0, h⟩) k11_pay1
  | n + 1, h => k11_pay2 (iblk11 V c 0 ⟨n + 1, h⟩) (iblk11 V c 1 ⟨n + 1, h⟩)
      (if (n + 1) % 4 = 0 then k11_pay1 else acc11 c n (Nat.lt_of_succ_lt h))

def fin11 (c : Dev nD) (t : Fin cfg11.N) : Vec F S1024x256 .f32 :=
  k11_pay3 (acc11 V c t.val t.isLt) (iblk11 V c 2 t)

def Φ11 (c : Dev nD) (t : Fin (cfg11.N + 1)) : sProp 𝕄 :=
  iprop(Pipeline.scopedRestBut (Ix := Unit) (Name := ℕ) (U := UR sig nD τ) (Lvl := ℕ) (Val := Elt F) spec11 c [cc11_scratch0]
    ∗ (∃ r, prngReg c r)
    ∗ ∃ f : Vec F S1024x256 .f32, ⌜∀ h : t.val ≠ 0, f = acc11 V c (t.val - 1) (by have := t.isLt; omega)⌝
        ∗ owns (c : Thread nD τ) (Memref.whole cc11_scratch0) fullShare f)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => fin11 V c t
  Φ t := Φ11 V c t
  q _ := fullShare
  owed _ := 0

theorem A_eq11 (c : Dev nD) (w : Fin cfg11.W) : (dat11 V c).A w = V c (Pipeline.arrRef spec11 w) := by
  dsimp only [dat11]
theorem after11_3 (c : Dev nD) (t : Fin cfg11.N) : (dat11 V c).after 3 t = fin11 V c t := by dsimp only [dat11]

end Region

end Cert.KernelIdeal.Gen

end
-- ==== Proof.Dense12.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points
import Idealize.ShloMosaic.Lib.Pipeline.FrameBody
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_a : Rect S1024x512 := Rect.unit (s := S1024x512) ![0, 0] S1024x512.size inb_S1024x512_S1024x512_0_0
abbrev r12_b : Rect S512x256 := Rect.unit (s := S512x256) ![0, 0] S512x256.size inb_S512x256_S512x256_0_0
abbrev r12_o : Rect S1024x256 := Rect.unit (s := S1024x256) ![0, 0] S1024x256.size inb_S1024x256_S1024x256_0_0

/-- The output block after the body: one whole-block store of the product of the two loaded blocks. -/
def out12_2 (x0 : Vec F S1024x512 .f32) (x1 : Vec F S512x256 .f32) : Vec F S1024x256 .f32 :=
  View.canon [⟨r12_o, k12_pay1 (View.ld x0 r12_a) (View.ld x1 r12_b)⟩]

theorem sound_kernel12 (c : Dev nD) (E : Set ℕ) (i : grid12.Coords) (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dense_matmul_kernel i arg1 harg1 arg2 harg2 arg3 harg3) K := by
  simp only [cc12__dense_matmul_kernel_eq_skeleton]; unfold cc12__dense_matmul_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r12_o, _⟩] S1024x256.size (by rfl))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem after12_2 (c : Dev nD) (t : Fin cfg12.N) : (dat12 V c).after 2 t = out12_2 (iblk12 V c 0 t) (iblk12 V c 1 t) := by dsimp only [dat12]

theorem before12 (c : Dev nD) (t : Fin cfg12.N) :
    (∀ d, (dat12 V c).before 0 t d = iblk12 V c 0 t) ∧ ∀ d, (dat12 V c).before 1 t d = iblk12 V c 1 t := by
  refine ⟨fun d => ?_, fun d => ?_⟩ <;>
    exact ((dat12 V c).before_in_eq_fetched _ rfl (fun _ => rfl) (fun _ _ _ => rfl) (fun _ => rfl) t d).trans rfl

theorem sound_body12 (c : Dev nD) (t : Fin cfg12.N) :
    iprop((dat12 V c).Φ t.castSucc ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d)))
    ⊢ wp frame (wpE (defs₀ (F := F)) Variants.none c none) Set.univ (bodyAt12 t) (fun _ =>
      iprop((dat12 V c).Φ t.succ ∗ (dat12 V c).owesAt () t.succ
        ∗ owns (c : Thread nD τ) (st12_0 t) fullShare ((dat12 V c).after 0 t)
        ∗ owns (c : Thread nD τ) (st12_1 t) fullShare ((dat12 V c).after 1 t)
        ∗ owns (c : Thread nD τ) (st12_2 t) fullShare ((dat12 V c).after 2 t))) := by
  unfold bodyAt12
  obtain ⟨e0, e1⟩ := before12 V c t
  simp only [e0, e1]
  rw [show (dat12 V c).Φ t.succ = (dat12 V c).Φ t.castSucc from rfl,
    show (dat12 V c).owesAt () t.succ = (dat12 V c).owesAt () t.castSucc from rfl,
    show (dat12 V c).after 0 t = iblk12 V c 0 t from rfl, show (dat12 V c).after 1 t = iblk12 V c 1 t from rfl, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  iframe H0 H1
  isplitl [H2]; · iexists _; iexact H2
  iintro ⟨H0, H1, H2⟩
  iframe HΦ Ho H0 H1 H2

theorem body_obligation12 (c : Dev nD) : BodyObligation (dat12 (F := F) V c) (defs₀ (F := F)) Variants.none () Set.univ := fun t => by
  rw [bigSep_W12, bigSep_W12]
  exact sound_body12 V c t

end Region

end Cert.KernelIdeal.Gen

end
-- ==== Proof.Gcn13Data.lean ====
import proofs.«124672_j60567628808244_1_alg».proof.Proof.Gen.KernelIdeal.Launch
import proofs.«124672_j60567628808244_1_alg».proof.Proof.Gen.KernelIdeal.Skeleton
import proofs.«124672_j60567628808244_1_alg».proof.Proof.Gen.KernelIdeal.Points

noncomputable section

namespace Cert.KernelIdeal.Gen

open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def acc13 (c : Dev nD) : (n : ℕ) → n < cfg13.N → Vec F S1024x256 .f32
  | 0, h => k13_pay2 (iblk13 V c 0 ⟨0, h⟩) (iblk13 V c 1 ⟨0, h⟩) k13_pay1
  | n + 1, h => k13_pay2 (iblk13 V c 0 ⟨n + 1, h⟩) (iblk13 V c 1 ⟨n + 1, h⟩)
      (if (n + 1) % 4 = 0 then k13_pay1 else acc13 c n (Nat.lt_of_succ_lt h))

def fin13 (c : Dev nD) (t : Fin cfg13.N) : Vec F S1024x256 .f32 :=
  k13_pay3 (acc13 V c t.val t.isLt) (iblk13 V c 2 t)

def Φ13 (c : Dev nD) (t : Fin (cfg13.N + 1)) : sProp 𝕄 :=
  iprop(Pipeline.scopedRestBut (Ix := Unit) (Name := ℕ) (U := UR sig nD τ) (Lvl := ℕ) (Val := Elt F) spec13 c [cc13_scratch0]
    ∗ (∃ r, prngReg c r)
    ∗ ∃ f : Vec F S1024x256 .f32, ⌜∀ h : t.val ≠ 0, f = acc13 V c (t.val - 1) (by have := t.isLt; omega)⌝
        ∗ owns (c : Thread nD τ) (Memref.whole cc13_scratch0) fullShare f)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => fin13 V c t
  Φ t := Φ13 V c t
  q _ := fullShare
  owed _ := 0

theorem A_eq13 (c : Dev nD) (w : Fin cfg13.W) : (dat13 V c).A w = V c (Pipeline.arrRef spec13 w) := by
  dsimp only [dat13]
theorem after13_3 (c : Dev nD) (t : Fin cfg13.N) : (dat13 V c).after 3 t = fin13 V c t := by dsimp only [dat13]

end Region

end Cert.KernelIdeal.Gen

end
-- ==== Proof.Pdats.lean ====
import proofs.«124672_j60567628808244_1_alg».proof.Proof.Gen.KernelIdeal.Regions
import proofs.«124672_j60567628808244_1_alg».proof.Proof.Dense0
import proofs.«124672_j60567628808244_1_alg».proof.Proof.Dense1
import proofs.«124672_j60567628808244_1_alg».proof.Proof.Gcn2Data
import proofs.«124672_j60567628808244_1_alg».proof.Proof.Gcn3Data
import proofs.«124672_j60567628808244_1_alg».proof.Proof.Gcn4Data
import proofs.«124672_j60567628808244_1_alg».proof.Proof.Gcn5Data
import proofs.«124672_j60567628808244_1_alg».proof.Proof.Dense6
import proofs.«124672_j60567628808244_1_alg».proof.Proof.Gcn7Data
import proofs.«124672_j60567628808244_1_alg».proof.Proof.Dense8
import proofs.«124672_j60567628808244_1_alg».proof.Proof.Gcn9Data
import proofs.«124672_j60567628808244_1_alg».proof.Proof.Dense10
import proofs.«124672_j60567628808244_1_alg».proof.Proof.Gcn11Data
import proofs.«124672_j60567628808244_1_alg».proof.Proof.Dense12
import proofs.«124672_j60567628808244_1_alg».proof.Proof.Gcn13Data
import Idealize.ShloMosaic.Lib.Pipeline.Kit

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- What every core's buffers hold, read at that core's own references. -/
abbrev Ent (F : FTy → Type) : Type := (c : Dev nD) → (b : Ref sig .tc) → Buf (Elt F) ((c : Thread nD τ).loc b)

variable (m : (ℓ : Loc nD τ sig) → Buf (Elt F) ℓ)

-- `Wk`: the buffers after the first k items of the program; `Uk`: the same, read at a core's own references.
abbrev W0 (outs : Outs (F := F)) (c : Dev nD) : Valuation τ sig (Elt F) := V0 m c
abbrev U0 (outs : Outs (F := F)) : Ent F := fun c b => W0 m outs c b

variable (outs : Outs (F := F))

abbrev W1 (c : Dev nD) : Valuation τ sig (Elt F) := V1 m outs c
abbrev U1 : Ent F := fun c b => W1 m outs c b
abbrev W2 (c : Dev nD) : Valuation τ sig (Elt F) := V2 m outs c
abbrev U2 : Ent F := fun c b => W2 m outs c b
abbrev W3 (c : Dev nD) : Valuation τ sig (Elt F) := V3 m outs c
abbrev U3 : Ent F := fun c b => W3 m outs c b
abbrev W4 (c : Dev nD) : Valuation τ sig (Elt F) := V4 m outs c
abbrev U4 : Ent F := fun c b => W4 m outs c b
abbrev W5 (c : Dev nD) : Valuation τ sig (Elt F) := V5 m outs c
abbrev U5 : Ent F := fun c b => W5 m outs c b
abbrev W6 (c : Dev nD) : Valuation τ sig (Elt F) := V6 m outs c
abbrev U6 : Ent F := fun c b => W6 m outs c b
abbrev W7 (c : Dev nD) : Valuation τ sig (Elt F) := V7 m outs c
abbrev U7 : Ent F := fun c b => W7 m outs c b
abbrev W8 (c : Dev nD) : Valuation τ sig (Elt F) := V8 m outs c
abbrev U8 : Ent F := fun c b => W8 m outs c b
abbrev W9 (c : Dev nD) : Valuation τ sig (Elt F) := V9 m outs c
abbrev U9 : Ent F := fun c b => W9 m outs c b
abbrev W10 (c : Dev nD) : Valuation τ sig (Elt F) := V10 m outs c
abbrev U10 : Ent F := fun c b => W10 m outs c b
abbrev W11 (c : Dev nD) : Valuation τ sig (Elt F) := V11 m outs c
abbrev U11 : Ent F := fun c b => W11 m outs c b
abbrev W12 (c : Dev nD) : Valuation τ sig (Elt F) := V12 m outs c
abbrev U12 : Ent F := fun c b => W12 m outs c b
abbrev W13 (c : Dev nD) : Valuation τ sig (Elt F) := V13 m outs c
abbrev U13 : Ent F := fun c b => W13 m outs c b
abbrev W14 (c : Dev nD) : Valuation τ sig (Elt F) := V14 m outs c
abbrev U14 : Ent F := fun c b => W14 m outs c b
abbrev W15 (c : Dev nD) : Valuation τ sig (Elt F) := V15 m outs c
abbrev U15 : Ent F := fun c b => W15 m outs c b
abbrev W16 (c : Dev nD) : Valuation τ sig (Elt F) := V16 m outs c
abbrev U16 : Ent F := fun c b => W16 m outs c b
abbrev W17 (c : Dev nD) : Valuation τ sig (Elt F) := V17 m outs c
abbrev U17 : Ent F := fun c b => W17 m outs c b
abbrev W18 (c : Dev nD) : Valuation τ sig (Elt F) := V18 m outs c
abbrev U18 : Ent F := fun c b => W18 m outs c b
abbrev W19 (c : Dev nD) : Valuation τ sig (Elt F) := V19 m outs c
abbrev U19 : Ent F := fun c b => W19 m outs c b
abbrev W20 (c : Dev nD) : Valuation τ sig (Elt F) := V20 m outs c
abbrev U20 : Ent F := fun c b => W20 m outs c b
abbrev W21 (c : Dev nD) : Valuation τ sig (Elt F) := V21 m outs c
abbrev U21 : Ent F := fun c b => W21 m outs c b
abbrev W22 (c : Dev nD) : Valuation τ sig (Elt F) := V22 m outs c
abbrev U22 : Ent F := fun c b => W22 m outs c b

/-- Region p's data, taken at the buffers as that region finds them. -/
def pdats : (p : Fin 14) → (c : Dev nD) → Dat τ (Elt F) Unit ℕ (UR sig nD τ) ℕ (cfgs p) c
  | ⟨0, _⟩ => dat0 (U0 m outs)
  | ⟨1, _⟩ => dat1 (U1 m outs)
  | ⟨2, _⟩ => dat2 (U3 m outs)
  | ⟨3, _⟩ => dat3 (U5 m outs)
  | ⟨4, _⟩ => dat4 (U7 m outs)
  | ⟨5, _⟩ => dat5 (U9 m outs)
  | ⟨6, _⟩ => dat6 (U10 m outs)
  | ⟨7, _⟩ => dat7 (U12 m outs)
  | ⟨8, _⟩ => dat8 (U13 m outs)
  | ⟨9, _⟩ => dat9 (U15 m outs)
  | ⟨10, _⟩ => dat10 (U16 m outs)
  | ⟨11, _⟩ => dat11 (U18 m outs)
  | ⟨12, _⟩ => dat12 (U19 m outs)
  | ⟨13, _⟩ => dat13 (U21 m outs)

/-- The assumed contents `outs` agree with what each region computes from the buffers it finds. -/
structure OutsOk : Prop where
  h0 : ∀ c : Dev nD, (dat0 (U0 m outs) c).arrAt 2 cfg0.N = outs 1 main_v0 c
  h1 : ∀ c : Dev nD, (dat1 (U1 m outs) c).arrAt 2 cfg1.N = outs 2 main_v1 c
  h2 : ∀ c : Dev nD, (dat2 (U3 m outs) c).arrAt 3 cfg2.N = outs 4 main_v3 c
  h3 : ∀ c : Dev nD, (dat3 (U5 m outs) c).arrAt 3 cfg3.N = outs 6 main_v5 c
  h4 : ∀ c : Dev nD, (dat4 (U7 m outs) c).arrAt 3 cfg4.N = outs 8 main_v7 c
  h5 : ∀ c : Dev nD, (dat5 (U9 m outs) c).arrAt 3 cfg5.N = outs 10 main_v9 c
  h6 : ∀ c : Dev nD, (dat6 (U10 m outs) c).arrAt 2 cfg6.N = outs 11 main_v10 c
  h7 : ∀ c : Dev nD, (dat7 (U12 m outs) c).arrAt 3 cfg7.N = outs 13 main_v12 c
  h8 : ∀ c : Dev nD, (dat8 (U13 m outs) c).arrAt 2 cfg8.N = outs 14 main_v13 c
  h9 : ∀ c : Dev nD, (dat9 (U15 m outs) c).arrAt 3 cfg9.N = outs 16 main_v15 c
  h10 : ∀ c : Dev nD, (dat10 (U16 m outs) c).arrAt 2 cfg10.N = outs 17 main_v16 c
  h11 : ∀ c : Dev nD, (dat11 (U18 m outs) c).arrAt 3 cfg11.N = outs 19 main_v18 c
  h12 : ∀ c : Dev nD, (dat12 (U19 m outs) c).arrAt 2 cfg12.N = outs 20 main_v19 c
  h13 : ∀ c : Dev nD, (dat13 (U21 m outs) c).arrAt 3 cfg13.N = outs 22 main_v21 c

abbrev Lz : GSem nD τ sig → Finset Unit := fun _ => ∅
abbrev lvz : GSem nD τ sig → Unit → ℕ := fun _ _ => 0

abbrev Rr (c : Dev nD) : sProp (MT nD τ sig Unit (Elt F) ℕ (UR sig nD τ) ℕ) :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Gen

end
-- ==== Proof.Outs.lean ====
import proofs.«124672_j60567628808244_1_alg».proof.Proof.Pdats

noncomputable section

namespace Cert.KernelIdeal.Gen

open Idealize.ShloMosaic Idealize.ShloMosaic.TcCoe Idealize.SL.Sem
open Idealize.ShloMosaic.Pipeline (Dat)

variable {F : FTy → Type} [FloatOps F]

/-- Contents of every core, as a region's data read them: at the core's own references. -/
abbrev rd (S : Dev nD → Valuation τ sig (Elt F)) : (c : Dev nD) → (b : Ref sig .tc) → Buf (Elt F) ((c : Thread nD τ).loc b) :=
  fun c b => S c b

theorem rd_eq {W S : Dev nD → Valuation τ sig (Elt F)} (h : ∀ c, W c = S c) : rd W = rd S :=
  congrArg rd (funext h)

-- Writing at `a` what a function already written at `a` holds there changes nothing.
theorem upd2 {α : Sort*} [DecidableEq α] {β : α → Sort*} {f g : ∀ a, β a} (h : f = g) (a : α) (x : β a) :
    Function.update f a (Function.update g a x a) = Function.update g a x := by
  rw [h, Function.update_self]

variable (m : (ℓ : Loc nD τ sig) → Buf (Elt F) ℓ) (c : Dev nD)

-- `Sk`: the buffers after k items, computed from the launch memory alone; a region's output is taken from its own data.

def S0 : Valuation τ sig (Elt F) := V0 m c
def S1 : Valuation τ sig (Elt F) :=
  Function.update (S0 m c) main_v0 ((dat0 (rd (S0 m)) c).arrAt 2 cfg0.N)
def S2 : Valuation τ sig (Elt F) :=
  Function.update (S1 m c) main_v1 ((dat1 (rd (S1 m)) c).arrAt 2 cfg1.N)
def S3 : Valuation τ sig (Elt F) := StableHlo.after hostOps2 (S2 m c)
def S4 : Valuation τ sig (Elt F) :=
  Function.update (S3 m c) main_v3 ((dat2 (rd (S3 m)) c).arrAt 3 cfg2.N)
def S5 : Valuation τ sig (Elt F) := StableHlo.after hostOps3 (S4 m c)
def S6 : Valuation τ sig (Elt F) :=
  Function.update (S5 m c) main_v5 ((dat3 (rd (S5 m)) c).arrAt 3 cfg3.N)
def S7 : Valuation τ sig (Elt F) := StableHlo.after hostOps4 (S6 m c)
def S8 : Valuation τ sig (Elt F) :=
  Function.update (S7 m c) main_v7 ((dat4 (rd (S7 m)) c).arrAt 3 cfg4.N)
def S9 : Valuation τ sig (Elt F) := StableHlo.after hostOps5 (S8 m c)
def S10 : Valuation τ sig (Elt F) :=
  Function.update (S9 m c) main_v9 ((dat5 (rd (S9 m)) c).arrAt 3 cfg5.N)
def S11 : Valuation τ sig (Elt F) :=
  Function.update (S10 m c) main_v10 ((dat6 (rd (S10 m)) c).arrAt 2 cfg6.N)
def S12 : Valuation τ sig (Elt F) := StableHlo.after hostOps7 (S11 m c)
def S13 : Valuation τ sig (Elt F) :=
  Function.update (S12 m c) main_v12 ((dat7 (rd (S12 m)) c).arrAt 3 cfg7.N)
def S14 : Valuation τ sig (Elt F) :=
  Function.update (S13 m c) main_v13 ((dat8 (rd (S13 m)) c).arrAt 2 cfg8.N)
def S15 : Valuation τ sig (Elt F) := StableHlo.after hostOps9 (S14 m c)
def S16 : Valuation τ sig (Elt F) :=
  Function.update (S15 m c) main_v15 ((dat9 (rd (S15 m)) c).arrAt 3 cfg9.N)
def S17 : Valuation τ sig (Elt F) :=
  Function.update (S16 m c) main_v16 ((dat10 (rd (S16 m)) c).arrAt 2 cfg10.N)
def S18 : Valuation τ sig (Elt F) := StableHlo.after hostOps11 (S17 m c)
def S19 : Valuation τ sig (Elt F) :=
  Function.update (S18 m c) main_v18 ((dat11 (rd (S18 m)) c).arrAt 3 cfg11.N)
def S20 : Valuation τ sig (Elt F) :=
  Function.update (S19 m c) main_v19 ((dat12 (rd (S19 m)) c).arrAt 2 cfg12.N)
def S21 : Valuation τ sig (Elt F) := StableHlo.after hostOps13 (S20 m c)
def S22 : Valuation τ sig (Elt F) :=
  Function.update (S21 m c) main_v21 ((dat13 (rd (S21 m)) c).arrAt 3 cfg13.N)

/-- `outs J` reads stage J; only the stages where a region ends are ever asked for. -/
def outs : Outs (F := F) := fun J r c =>
  match J with
  | 1 => S1 m c r
  | 2 => S2 m c r
  | 4 => S4 m c r
  | 6 => S6 m c r
  | 8 => S8 m c r
  | 10 => S10 m c r
  | 11 => S11 m c r
  | 13 => S13 m c r
  | 14 => S14 m c r
  | 16 => S16 m c r
  | 17 => S17 m c r
  | 19 => S19 m c r
  | 20 => S20 m c r
  | 22 => S22 m c r
  | _ => S0 m c r

-- With `outs` for the unknowns, `Wk` is `Sk`: one step per item, along the program.

theorem W0_eq : W0 m (outs m) c = S0 m c := rfl
theorem W1_eq : W1 m (outs m) c = S1 m c := upd2 (W0_eq m c) ..
theorem W2_eq : W2 m (outs m) c = S2 m c := upd2 (W1_eq m c) ..
theorem W3_eq : W3 m (outs m) c = S3 m c := congrArg (StableHlo.after hostOps2) (W2_eq m c)
theorem W4_eq : W4 m (outs m) c = S4 m c := upd2 (W3_eq m c) ..
theorem W5_eq : W5 m (outs m) c = S5 m c := congrArg (StableHlo.after hostOps3) (W4_eq m c)
theorem W6_eq : W6 m (outs m) c = S6 m c := upd2 (W5_eq m c) ..
theorem W7_eq : W7 m (outs m) c = S7 m c := congrArg (StableHlo.after hostOps4) (W6_eq m c)
theorem W8_eq : W8 m (outs m) c = S8 m c := upd2 (W7_eq m c) ..
theorem W9_eq : W9 m (outs m) c = S9 m c := congrArg (StableHlo.after hostOps5) (W8_eq m c)
theorem W10_eq : W10 m (outs m) c = S10 m c := upd2 (W9_eq m c) ..
theorem W11_eq : W11 m (outs m) c = S11 m c := upd2 (W10_eq m c) ..
theorem W12_eq : W12 m (outs m) c = S12 m c := congrArg (StableHlo.after hostOps7) (W11_eq m c)
theorem W13_eq : W13 m (outs m) c = S13 m c := upd2 (W12_eq m c) ..
theorem W14_eq : W14 m (outs m) c = S14 m c := upd2 (W13_eq m c) ..
theorem W15_eq : W15 m (outs m) c = S15 m c := congrArg (StableHlo.after hostOps9) (W14_eq m c)
theorem W16_eq : W16 m (outs m) c = S16 m c := upd2 (W15_eq m c) ..
theorem W17_eq : W17 m (outs m) c = S17 m c := upd2 (W16_eq m c) ..
theorem W18_eq : W18 m (outs m) c = S18 m c := congrArg (StableHlo.after hostOps11) (W17_eq m c)
theorem W19_eq : W19 m (outs m) c = S19 m c := upd2 (W18_eq m c) ..
theorem W20_eq : W20 m (outs m) c = S20 m c := upd2 (W19_eq m c) ..
theorem W21_eq : W21 m (outs m) c = S21 m c := congrArg (StableHlo.after hostOps13) (W20_eq m c)
theorem W22_eq : W22 m (outs m) c = S22 m c := upd2 (W21_eq m c) ..

-- Each region's array, computed from the stage before it, is what the stage after it holds there.
theorem outs_h0 : (dat0 (U0 m (outs m)) c).arrAt 2 cfg0.N = outs m 1 main_v0 c :=
  (congrArg (fun V => (dat0 V c).arrAt 2 cfg0.N) (rd_eq (W0_eq m))).trans (Function.update_self (f := S0 m c) ..).symm
theorem outs_h1 : (dat1 (U1 m (outs m)) c).arrAt 2 cfg1.N = outs m 2 main_v1 c :=
  (congrArg (fun V => (dat1 V c).arrAt 2 cfg1.N) (rd_eq (W1_eq m))).trans (Function.update_self (f := S1 m c) ..).symm
theorem outs_h2 : (dat2 (U3 m (outs m)) c).arrAt 3 cfg2.N = outs m 4 main_v3 c :=
  (congrArg (fun V => (dat2 V c).arrAt 3 cfg2.N) (rd_eq (W3_eq m))).trans (Function.update_self (f := S3 m c) ..).symm
theorem outs_h3 : (dat3 (U5 m (outs m)) c).arrAt 3 cfg3.N = outs m 6 main_v5 c :=
  (congrArg (fun V => (dat3 V c).arrAt 3 cfg3.N) (rd_eq (W5_eq m))).trans (Function.update_self (f := S5 m c) ..).symm
theorem outs_h4 : (dat4 (U7 m (outs m)) c).arrAt 3 cfg4.N = outs m 8 main_v7 c :=
  (congrArg (fun V => (dat4 V c).arrAt 3 cfg4.N) (rd_eq (W7_eq m))).trans (Function.update_self (f := S7 m c) ..).symm
theorem outs_h5 : (dat5 (U9 m (outs m)) c).arrAt 3 cfg5.N = outs m 10 main_v9 c :=
  (congrArg (fun V => (dat5 V c).arrAt 3 cfg5.N) (rd_eq (W9_eq m))).trans (Function.update_self (f := S9 m c) ..).symm
theorem outs_h6 : (dat6 (U10 m (outs m)) c).arrAt 2 cfg6.N = outs m 11 main_v10 c :=
  (congrArg (fun V => (dat6 V c).arrAt 2 cfg6.N) (rd_eq (W10_eq m))).trans (Function.update_self (f := S10 m c) ..).symm
theorem outs_h7 : (dat7 (U12 m (outs m)) c).arrAt 3 cfg7.N = outs m 13 main_v12 c :=
  (congrArg (fun V => (dat7 V c).arrAt 3 cfg7.N) (rd_eq (W12_eq m))).trans (Function.update_self (f := S12 m c) ..).symm
theorem outs_h8 : (dat8 (U13 m (outs m)) c).arrAt 2 cfg8.N = outs m 14 main_v13 c :=
  (congrArg (fun V => (dat8 V c).arrAt 2 cfg8.N) (rd_eq (W13_eq m))).trans (Function.update_self (f := S13 m c) ..).symm
theorem outs_h9 : (dat9 (U15 m (outs m)) c).arrAt 3 cfg9.N = outs m 16 main_v15 c :=
  (congrArg (fun V => (dat9 V c).arrAt 3 cfg9.N) (rd_eq (W15_eq m))).trans (Function.update_self (f := S15 m c) ..).symm
theorem outs_h10 : (dat10 (U16 m (outs m)) c).arrAt 2 cfg10.N = outs m 17 main_v16 c :=
  (congrArg (fun V => (dat10 V c).arrAt 2 cfg10.N) (rd_eq (W16_eq m))).trans (Function.update_self (f := S16 m c) ..).symm
theorem outs_h11 : (dat11 (U18 m (outs m)) c).arrAt 3 cfg11.N = outs m 19 main_v18 c :=
  (congrArg (fun V => (dat11 V c).arrAt 3 cfg11.N) (rd_eq (W18_eq m))).trans (Function.update_self (f := S18 m c) ..).symm
theorem outs_h12 : (dat12 (U19 m (outs m)) c).arrAt 2 cfg12.N = outs m 20 main_v19 c :=
  (congrArg (fun V => (dat12 V c).arrAt 2 cfg12.N) (rd_eq (W19_eq m))).trans (Function.update_self (f := S19 m c) ..).symm
theorem outs_h13 : (dat13 (U21 m (outs m)) c).arrAt 3 cfg13.N = outs m 22 main_v21 c :=
  (congrArg (fun V => (dat13 V c).arrAt 3 cfg13.N) (rd_eq (W21_eq m))).trans (Function.update_self (f := S21 m c) ..).symm

theorem outsOk : OutsOk m (outs m) :=
  ⟨outs_h0 m, outs_h1 m, outs_h2 m, outs_h3 m, outs_h4 m, outs_h5 m, outs_h6 m, outs_h7 m, outs_h8 m, outs_h9 m, outs_h10 m, outs_h11 m, outs_h12 m, outs_h13 m⟩

end Cert.KernelIdeal.Gen

end
-- ==== Proof.SegLib.lean ====
import proofs.«124672_j60567628808244_1_alg».proof.Proof.Pdats
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (outs : Outs (F := F))

/-- What entry and exit use of every region's data alike; each holds by the definitions, region by region. -/
theorem pd_plain (κ : Fin 14) (c : Dev nD) : (∀ w, (pdats m outs κ c).q w = fullShare) ∧ (∀ t, (pdats m outs κ c).owed t = 0)
    ∧ (pdats m outs κ c).recorded 0 = Set.univ := by
  fin_cases κ <;> exact ⟨fun _ => rfl, fun _ => rfl, rfl⟩

/-- What differs from region to region: the arrays are read off `W`, only window `o` is written, and `W'` is `W` but for what the region leaves in `o`'s array. -/
structure SegOk (κ : Fin 14) (o : Fin (cfgs κ).W) (c : Dev nD) (W W' : Valuation τ sig (Elt F)) : Prop where
  A : ∀ w, (pdats m outs κ c).A w = W (Pipeline.arrRef (cfgs κ).spec w)
  inp : ∀ w, w ≠ o → ((cfgs κ).win w).isOut = false
  out : (pdats m outs κ c).arrAt o (cfgs κ).N = W' (Pipeline.arrRef (cfgs κ).spec o)
  rest : ∀ b : Ref sig .tc, b ∉ [Pipeline.arrRef (cfgs κ).spec o] → W' b = W b

variable {m outs} {κ : Fin 14} {o : Fin (cfgs κ).W}

/-- A region as one item of the run, from what differs between regions: entered with the buffers at `W`, left with them at `W'`. -/
def segOf {W W' : Dev nD → Valuation τ sig (Elt F)} (L : Pipeline.LaunchFacts (nD := nD) (τ := τ) cfgs κ)
    (hbody : ∀ c, Pipeline.BodyObligationLoose (pdats m outs κ c) (defs₀ (F := F)) Variants.none () Set.univ)
    (ok : ∀ c, SegOk m outs κ o c (W c) (W' c))
    (hin : ∀ c, iprop((∃ r, prngReg c r) ∗ Pipeline.prefHeld (pcfgs (F := F) κ).pre c (fun _ => fullShare) (adm κ).1
      ∗ Pipeline.scopedRest (cfgs κ).spec c) ⊢ (pdats m outs κ c).Φ 0)
    (hout : ∀ c, (pdats m outs κ c).Φ (Fin.last (cfgs κ).N)
      ⊢ iprop((∃ r, prngReg c r) ∗ Pipeline.ownSems0 (fun k : PEmpty => k.elim) c ∗ Pipeline.scopedRest (cfgs κ).spec c)) :
    Pipeline.RegionSeg (pcfgs (F := F)) adm (pdats m outs) () defs₀ Variants.none Lz lvz κ where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lz lvz κ fun c => (pd_plain m outs κ c).2.1
  pre c := iprop(StableHlo.held (c : Thread nD τ) (Pipeline.ucRefs τ sig) (W c) ∗ Rr c)
  post c := iprop(StableHlo.held (c : Thread nD τ) (Pipeline.ucRefs τ sig) (W' c) ∗ Rr c)
  X c := iprop(∃ r, prngReg c r)
  Y c := iprop(∃ r, prngReg c r)
  Z c := Pipeline.unscopedRest (Ix := Unit) (Name := ℕ) (U := UR sig nD τ) (Lvl := ℕ) (cfgs κ).spec c (fun b => W c b)
  hentry c := by
    obtain ⟨hq, ho, hr⟩ := pd_plain m outs κ c
    have hsplit := Pipeline.arrays_of_unscopedBufs (p := κ) (pcfgs (F := F)) adm (pdats m outs) L.win L.arr_whole c
      ((pdats m outs κ c).share_full hq) (fun b => W c b) (ok c).A
    rw [Pipeline.unscopedBufs_held] at hsplit
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, ⟨%S, HO⟩⟩, -, -⟩
    ihave ⟨Ha, Hrest⟩ := hsplit $$ Hub
    imodintro
    iframe Ha Hp Hrest
    isplitr; · iempintro
    iexists S; iframe HO
    ipureintro; exact fun _ _ => Or.inl trivial
  hin := hin
  hout := hout
  hexit c := by
    obtain ⟨hq, ho, -⟩ := pd_plain m outs κ c
    have hjoin := Pipeline.unscopedBufs_of_arrays (p := κ) (pcfgs (F := F)) adm L.win L.arr_whole c (pdats m outs) ((pdats m outs κ c).share_full hq)
      (fun b => W c b) (fun b => W' c b) ((pdats m outs κ c).arrAt · (cfgs κ).N)
      (fun w => by
        by_cases e : w = o
        · rw [e]; exact (ok c).out
        · rw [Pipeline.Dat.arrAt_in _ w ((ok c).inp w e), (ok c).A]
          exact ((ok c).rest _ fun hm => e (L.win.arr_inj (List.mem_singleton.mp hm))).symm)
      fun b hb => (ok c).rest b fun hm => hb (Finset.mem_image.mpr ⟨o, Finset.mem_univ _, (List.mem_singleton.mp hm).symm⟩)
    rw [Pipeline.unscopedBufs_held] at hjoin
    unfold Pipeline.Dat.owesAt Pipeline.owesWithin Rr
    rw [ho]
    iintro ⟨Ha, ⟨%S, -, HO⟩, HY, Hrest⟩
    imodintro
    iframe HY
    isplitl [Ha Hrest]
    · iapply hjoin; iframe Ha Hrest
    iexists S; iexact HO

section
variable {gr n : ℕ} {spec : Fin n → Pipeline.WinSpec sig gr} {c : Dev nD}

/-- The invariant is the two parts handed in, in the other order, -/
theorem dense_in (T : sProp 𝕄) : iprop((∃ r, prngReg c r) ∗ T ∗ Pipeline.scopedRest spec c) ⊢ (Pipeline.ΦA spec c : sProp 𝕄) := by
  unfold Pipeline.ΦA
  iintro ⟨Hp, -, Hr⟩
  iframe Hr Hp

/-- and it hands them back. -/
theorem dense_out : (Pipeline.ΦA spec c : sProp 𝕄)
    ⊢ iprop((∃ r, prngReg c r) ∗ Pipeline.ownSems0 (fun k : PEmpty => k.elim) c ∗ Pipeline.scopedRest spec c) := by
  rw [Pipeline.ownSems0_none]; unfold Pipeline.ΦA
  iintro ⟨Hr, Hp⟩
  iframe Hr Hp
  iempintro

variable {s : Ref sig .tc} {P : s.ty.Contents (Elt F) → Prop}

/-- Here the invariant keeps buffer `s` apart from the rest, under a property `P` that asks nothing at the first point, -/
theorem acc_in (hs : (Pipeline.scopedRest spec c : sProp 𝕄) = iprop((∃ f : Buf (Elt F) ((c : Thread nD τ).loc s), ((c : Thread nD τ).loc s) ↦{fullShare} f)
      ∗ Pipeline.scopedRestBut spec c [s])) (hP : ∀ f, P f) (T : sProp 𝕄) :
    iprop((∃ r, prngReg c r) ∗ T ∗ Pipeline.scopedRest spec c)
      ⊢ iprop(Pipeline.scopedRestBut spec c [s] ∗ (∃ r, prngReg c r) ∗ ∃ f, ⌜P f⌝ ∗ owns (c : Thread nD τ) (Memref.whole s) fullShare f) := by
  rw [hs]; simp only [owns_whole]
  iintro ⟨Hp, -, ⟨%f, Hs⟩, Hr⟩
  iframe Hr Hp
  iexists f; iframe Hs
  ipureintro; exact hP f

/-- and `s` rejoins the rest at the end, whatever it holds. -/
theorem acc_out (hs : (Pipeline.scopedRest spec c : sProp 𝕄) = iprop((∃ f : Buf (Elt F) ((c : Thread nD τ).loc s), ((c : Thread nD τ).loc s) ↦{fullShare} f)
      ∗ Pipeline.scopedRestBut spec c [s])) :
    (iprop(Pipeline.scopedRestBut spec c [s] ∗ (∃ r, prngReg c r) ∗ ∃ f, ⌜P f⌝ ∗ owns (c : Thread nD τ) (Memref.whole s) fullShare f) : sProp 𝕄)
      ⊢ iprop((∃ r, prngReg c r) ∗ Pipeline.ownSems0 (fun k : PEmpty => k.elim) c ∗ Pipeline.scopedRest spec c) := by
  rw [Pipeline.ownSems0_none, hs]; simp only [owns_whole]
  iintro ⟨Hr, Hp, ⟨%f, -, Hs⟩⟩
  iframe Hr Hp
  isplitr; · iempintro
  iexists f; iexact Hs

end

end Cert.KernelIdeal.Gen

end
-- ==== Proof.Seg0.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok0 (hok : OutsOk m outs) (c : Dev nD) : SegOk m outs (0 : Fin 14) 2 c (W0 m outs c) (W1 m outs c) where
  A := A_eq0 _ c
  inp := by decide
  out := (hok.h0 c).trans (Function.update_self (f := W0 m outs c) _ _).symm
  rest := V1_of m outs c

def reg0 (hok : OutsOk m outs) : Pipeline.RegionSeg (pcfgs (F := F)) adm (pdats m outs) () defs₀ Variants.none Lz lvz (0 : Fin 14) :=
  segOf launch0 (fun c => (body_obligation0 (U0 m outs) c).loose) (ok0 m outs hok) (fun _ => dense_in _) fun _ => dense_out

end Cert.KernelIdeal.Gen

end
-- ==== Proof.Seg1.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok1 (hok : OutsOk m outs) (c : Dev nD) : SegOk m outs (1 : Fin 14) 2 c (W1 m outs c) (W2 m outs c) where
  A := A_eq1 _ c
  inp := by decide
  out := (hok.h1 c).trans (Function.update_self (f := W1 m outs c) _ _).symm
  rest := V2_of m outs c

def reg1 (hok : OutsOk m outs) : Pipeline.RegionSeg (pcfgs (F := F)) adm (pdats m outs) () defs₀ Variants.none Lz lvz (1 : Fin 14) :=
  segOf launch1 (fun c => (body_obligation1 (U1 m outs) c).loose) (ok1 m outs hok) (fun _ => dense_in _) fun _ => dense_out

end Cert.KernelIdeal.Gen

end
-- ==== Proof.Gcn2Body.lean ====
import proofs.«124672_j60567628808244_1_alg».proof.Proof.Gcn2Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond2_1 (i : grid2.Coords) : Prop := (Scalar.cmpi .ne (Scalar.extui (Scalar.cmpi .eq (BitVec.ofNat 32 (i 1).val) 0#32)) 0#32) = 1#1
abbrev cond2_2 (i : grid2.Coords) : Prop := k2_cond2 i = 1#1

theorem hcond2_1 : ∀ t : Fin cfg2.N, cond2_1 (grid2.coords t) ↔ t.val % 4 = 0 :=
  (by decide +kernel : ∀ t : Fin grid2.N, cond2_1 (grid2.coords t) ↔ t.val % 4 = 0)
theorem hcond2_2 : ∀ t : Fin cfg2.N, cond2_2 (grid2.coords t) ↔ t.val % 4 = 3 :=
  (by decide +kernel : ∀ t : Fin grid2.N, cond2_2 (grid2.coords t) ↔ t.val % 4 = 3)

/-- One run per kind of point: the accumulator restarts from `a0` and gains the block product; the output is stored only where the second test holds. -/
theorem sound_kernel2 (c : Dev nD) (E : Set ℕ) (i : grid2.Coords) (hx : ¬(cond2_1 i ∧ cond2_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond2_1 i → a0 = k2_pay1) (h1' : ¬cond2_1 i → a0 = xs)
    (h2 : cond2_2 i → o = k2_pay3 (k2_pay2 x0 x1 a0) x2) (h2' : ¬cond2_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k2_pay2 x0 x1 a0)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond2_1 i <;> by_cases hc2 : cond2_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨fun d => ?_, fun d => ?_, fun d => ?_⟩ <;>
    exact ((dat2 V c).before_in_eq_fetched _ rfl (fun _ => rfl) (fun _ _ _ => rfl) (fun _ => rfl) t d).trans rfl

/-- The accumulator's recursion unfolded once, with `f` what the point before left. -/
theorem acc2_eq (c : Dev nD) (t : Fin cfg2.N) (f : Vec F S1024x512 .f32)
    (hf : ∀ h : t.val ≠ 0, f = acc2 V c (t.val - 1) (Nat.lt_of_le_of_lt (Nat.sub_le _ _) t.isLt)) :
    acc2 V c t.val t.isLt = k2_pay2 (iblk2 V c 0 t) (iblk2 V c 1 t) (if t.val % 4 = 0 then k2_pay1 else f) := by
  obtain ⟨n, hn⟩ := t
  cases n with
  | zero => rfl
  | succ n =>
    rw [acc2]
    split
    · rfl
    · rw [hf (Nat.succ_ne_zero n)]; rfl

end Region

theorem idleAt2_3 : ∀ t : Fin cfg2.N, ¬t.val % 4 = 3 → cfg2.idle 3 (grid2.coords t) = true ∧ (cfg2.win 3).flush t = false := by decide +kernel
theorem liveAt2_3 : ∀ t : Fin cfg2.N, t.val % 4 = 3 → cfg2.idle 3 (grid2.coords t) = false := by decide +kernel

section Region
variable (V : (c : Dev nD) → (b : Ref sig .tc) → Buf (Elt F) ((c : Thread nD τ).loc b))

/-- The point's obligation: the invariant hands the accumulator over and takes it back one step later. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  unfold bodyAt2
  obtain ⟨e0, e1, e2⟩ := before2 V c t
  simp only [e0, e1, e2]
  rw [show (dat2 V c).Φ t.castSucc = Φ2 V c t.castSucc from rfl, show (dat2 V c).Φ t.succ = Φ2 V c t.succ from rfl,
    show (dat2 V c).owesAt () t.succ = (dat2 V c).owesAt () t.castSucc from rfl,
    show (dat2 V c).leavesExact 0 t = owns (c : Thread nD τ) (st2_0 t) fullShare (iblk2 V c 0 t) from rfl,
    show (dat2 V c).leavesExact 1 t = owns (c : Thread nD τ) (st2_1 t) fullShare (iblk2 V c 1 t) from rfl,
    show (dat2 V c).leavesExact 2 t = owns (c : Thread nD τ) (st2_2 t) fullShare (iblk2 V c 2 t) from rfl]
  unfold Φ2
  iintro ⟨⟨HR, Hg, ⟨%f, %hf, HS⟩⟩, Ho, ⟨%d0, H0⟩, ⟨%d1, H1⟩, ⟨%d2, H2⟩, ⟨%d3, H3⟩⟩
  have hacc := acc2_eq V c t f hf
  iapply (sound_kernel2 c Set.univ (grid2.coords t)
    (fun h => by have := (hcond2_1 t).mp h.1; have := (hcond2_2 t).mp h.2; omega) _ _ _ _ _ _ _ _ _ _
    (iblk2 V c 0 t) (iblk2 V c 1 t) (iblk2 V c 2 t) ((dat2 V c).before 3 t d3) f
    (if t.val % 4 = 0 then k2_pay1 else f) (if t.val % 4 = 3 then fin2 V c t else (dat2 V c).before 3 t d3) _
    (fun h => if_pos ((hcond2_1 t).mp h)) (fun h => if_neg fun e => h ((hcond2_1 t).mpr e))
    (fun h => by rw [if_pos ((hcond2_2 t).mp h), ← hacc]; rfl) (fun h => if_neg fun e => h ((hcond2_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt2_3 t h3]; iexact H3
  · rw [if_neg h3, Dat.leavesExact_idle _ 3 t (idleAt2_3 t h3).1 (idleAt2_3 t h3).2]; iexists _; iexact H3

theorem body_obligation2 (c : Dev nD) : BodyObligation (dat2 (F := F) V c) (defs₀ (F := F)) Variants.none () Set.univ := fun t => by
  rw [bigSep_W2, bigSep_W2]
  exact sound_body2 V c t

end Region

end Cert.KernelIdeal.Gen

end
-- ==== Proof.Seg2.lean ====
import proofs.«124672_j60567628808244_1_alg».proof.Proof.SegLib
import proofs.«124672_j60567628808244_1_alg».proof.Proof.Gcn2Body

noncomputable section

namespace Cert.KernelIdeal.Gen

open Idealize.ShloMosaic

variable {F : FTy → Type} [FloatOps F] (m : (ℓ : Loc nD τ sig) → Buf (Elt F) ℓ) (outs : Outs (F := F))

theorem ok2 (hok : OutsOk m outs) (c : Dev nD) : SegOk m outs (2 : Fin 14) 3 c (W3 m outs c) (W4 m outs c) where
  A := A_eq2 _ c
  inp := by decide
  out := (hok.h2 c).trans (Function.update_self (f := W3 m outs c) _ _).symm
  rest := V4_of m outs c

def reg2 (hok : OutsOk m outs) : Pipeline.RegionSeg (pcfgs (F := F)) adm (pdats m outs) () defs₀ Variants.none Lz lvz (2 : Fin 14) :=
  segOf launch2 (fun c => (body_obligation2 (U3 m outs) c).loose) (ok2 m outs hok)
    (fun c => acc_in (scopedRest2_split c) (fun _ h => absurd rfl h) _) fun c => acc_out (scopedRest2_split c)

end Cert.KernelIdeal.Gen

end
-- ==== Proof.Gcn3Body.lean ====
import proofs.«124672_j60567628808244_1_alg».proof.Proof.Gcn3Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond3_1 (i : grid3.Coords) : Prop := (Scalar.cmpi .ne (Scalar.extui (Scalar.cmpi .eq (BitVec.ofNat 32 (i 1).val) 0#32)) 0#32) = 1#1
abbrev cond3_2 (i : grid3.Coords) : Prop := k3_cond2 i = 1#1

theorem hcond3_1 : ∀ t : Fin cfg3.N, cond3_1 (grid3.coords t) ↔ t.val % 4 = 0 :=
  (by decide +kernel : ∀ t : Fin grid3.N, cond3_1 (grid3.coords t) ↔ t.val % 4 = 0)
theorem hcond3_2 : ∀ t : Fin cfg3.N, cond3_2 (grid3.coords t) ↔ t.val % 4 = 3 :=
  (by decide +kernel : ∀ t : Fin grid3.N, cond3_2 (grid3.coords t) ↔ t.val % 4 = 3)

/-- One run per kind of point: the accumulator restarts from `a0` and gains the block product; the output is stored only where the second test holds. -/
theorem sound_kernel3 (c : Dev nD) (E : Set ℕ) (i : grid3.Coords) (hx : ¬(cond3_1 i ∧ cond3_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond3_1 i → a0 = k3_pay1) (h1' : ¬cond3_1 i → a0 = xs)
    (h2 : cond3_2 i → o = k3_pay3 (k3_pay2 x0 x1 a0) x2) (h2' : ¬cond3_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k3_pay2 x0 x1 a0)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond3_1 i <;> by_cases hc2 : cond3_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before3 (c : Dev nD) (t : Fin cfg3.N) :
    (∀ d, (dat3 V c).before 0 t d = iblk3 V c 0 t) ∧ (∀ d, (dat3 V c).before 1 t d = iblk3 V c 1 t)
      ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun _ => rfl) t d).trans rfl

/-- The accumulator's recursion unfolded once, with `f` what the point before left. -/
theorem acc3_eq (c : Dev nD) (t : Fin cfg3.N) (f : Vec F S1024x512 .f32)
    (hf : ∀ h : t.val ≠ 0, f = acc3 V c (t.val - 1) (Nat.lt_of_le_of_lt (Nat.sub_le _ _) t.isLt)) :
    acc3 V c t.val t.isLt = k3_pay2 (iblk3 V c 0 t) (iblk3 V c 1 t) (if t.val % 4 = 0 then k3_pay1 else f) := by
  obtain ⟨n, hn⟩ := t
  cases n with
  | zero => rfl
  | succ n =>
    rw [acc3]
    split
    · rfl
    · rw [hf (Nat.succ_ne_zero n)]; rfl

end Region

theorem idleAt3_3 : ∀ t : Fin cfg3.N, ¬t.val % 4 = 3 → cfg3.idle 3 (grid3.coords t) = true ∧ (cfg3.win 3).flush t = false := by decide +kernel
theorem liveAt3_3 : ∀ t : Fin cfg3.N, t.val % 4 = 3 → cfg3.idle 3 (grid3.coords t) = false := by decide +kernel

section Region
variable (V : (c : Dev nD) → (b : Ref sig .tc) → Buf (Elt F) ((c : Thread nD τ).loc b))

/-- The point's obligation: the invariant hands the accumulator over and takes it back one step later. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t)) := by
  unfold bodyAt3
  obtain ⟨e0, e1, e2⟩ := before3 V c t
  simp only [e0, e1, e2]
  rw [show (dat3 V c).Φ t.castSucc = Φ3 V c t.castSucc from rfl, show (dat3 V c).Φ t.succ = Φ3 V c t.succ from rfl,
    show (dat3 V c).owesAt () t.succ = (dat3 V c).owesAt () t.castSucc from rfl,
    show (dat3 V c).leavesExact 0 t = owns (c : Thread nD τ) (st3_0 t) fullShare (iblk3 V c 0 t) from rfl,
    show (dat3 V c).leavesExact 1 t = owns (c : Thread nD τ) (st3_1 t) fullShare (iblk3 V c 1 t) from rfl,
    show (dat3 V c).leavesExact 2 t = owns (c : Thread nD τ) (st3_2 t) fullShare (iblk3 V c 2 t) from rfl]
  unfold Φ3
  iintro ⟨⟨HR, Hg, ⟨%f, %hf, HS⟩⟩, Ho, ⟨%d0, H0⟩, ⟨%d1, H1⟩, ⟨%d2, H2⟩, ⟨%d3, H3⟩⟩
  have hacc := acc3_eq V c t f hf
  iapply (sound_kernel3 c Set.univ (grid3.coords t)
    (fun h => by have := (hcond3_1 t).mp h.1; have := (hcond3_2 t).mp h.2; omega) _ _ _ _ _ _ _ _ _ _
    (iblk3 V c 0 t) (iblk3 V c 1 t) (iblk3 V c 2 t) ((dat3 V c).before 3 t d3) f
    (if t.val % 4 = 0 then k3_pay1 else f) (if t.val % 4 = 3 then fin3 V c t else (dat3 V c).before 3 t d3) _
    (fun h => if_pos ((hcond3_1 t).mp h)) (fun h => if_neg fun e => h ((hcond3_1 t).mpr e))
    (fun h => by rw [if_pos ((hcond3_2 t).mp h), ← hacc]; rfl) (fun h => if_neg fun e => h ((hcond3_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt3_3 t h3]; iexact H3
  · rw [if_neg h3, Dat.leavesExact_idle _ 3 t (idleAt3_3 t h3).1 (idleAt3_3 t h3).2]; iexists _; iexact H3

theorem body_obligation3 (c : Dev nD) : BodyObligation (dat3 (F := F) V c) (defs₀ (F := F)) Variants.none () Set.univ := fun t => by
  rw [bigSep_W3, bigSep_W3]
  exact sound_body3 V c t

end Region

end Cert.KernelIdeal.Gen

end
-- ==== Proof.Seg3.lean ====
import proofs.«124672_j60567628808244_1_alg».proof.Proof.SegLib
import proofs.«124672_j60567628808244_1_alg».proof.Proof.Gcn3Body

noncomputable section

namespace Cert.KernelIdeal.Gen

open Idealize.ShloMosaic

variable {F : FTy → Type} [FloatOps F] (m : (ℓ : Loc nD τ sig) → Buf (Elt F) ℓ) (outs : Outs (F := F))

theorem ok3 (hok : OutsOk m outs) (c : Dev nD) : SegOk m outs (3 : Fin 14) 3 c (W5 m outs c) (W6 m outs c) where
  A := A_eq3 _ c
  inp := by decide
  out := (hok.h3 c).trans (Function.update_self (f := W5 m outs c) _ _).symm
  rest := V6_of m outs c

def reg3 (hok : OutsOk m outs) : Pipeline.RegionSeg (pcfgs (F := F)) adm (pdats m outs) () defs₀ Variants.none Lz lvz (3 : Fin 14) :=
  segOf launch3 (fun c => (body_obligation3 (U5 m outs) c).loose) (ok3 m outs hok)
    (fun c => acc_in (scopedRest3_split c) (fun _ h => absurd rfl h) _) fun c => acc_out (scopedRest3_split c)

end Cert.KernelIdeal.Gen

end
-- ==== Proof.Gcn4Body.lean ====
import proofs.«124672_j60567628808244_1_alg».proof.Proof.Gcn4Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond4_1 (i : grid4.Coords) : Prop := (Scalar.cmpi .ne (Scalar.extui (Scalar.cmpi .eq (BitVec.ofNat 32 (i 1).val) 0#32)) 0#32) = 1#1
abbrev cond4_2 (i : grid4.Coords) : Prop := k4_cond2 i = 1#1

theorem hcond4_1 : ∀ t : Fin cfg4.N, cond4_1 (grid4.coords t) ↔ t.val % 4 = 0 :=
  (by decide +kernel : ∀ t : Fin grid4.N, cond4_1 (grid4.coords t) ↔ t.val % 4 = 0)
theorem hcond4_2 : ∀ t : Fin cfg4.N, cond4_2 (grid4.coords t) ↔ t.val % 4 = 3 :=
  (by decide +kernel : ∀ t : Fin grid4.N, cond4_2 (grid4.coords t) ↔ t.val % 4 = 3)

/-- One run per kind of point: the accumulator restarts from `a0` and gains the block product; the output is stored only where the second test holds. -/
theorem sound_kernel4 (c : Dev nD) (E : Set ℕ) (i : grid4.Coords) (hx : ¬(cond4_1 i ∧ cond4_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond4_1 i → a0 = k4_pay1) (h1' : ¬cond4_1 i → a0 = xs)
    (h2 : cond4_2 i → o = k4_pay3 (k4_pay2 x0 x1 a0) x2) (h2' : ¬cond4_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k4_pay2 x0 x1 a0)) -∗ K ⟨⟩))
      ⊢ wp frame (wpE (defs₀ (F := F)) Variants.none c none) E (cc4__gcn_matmul_kernel i arg2 harg2 arg3 harg3 arg4 harg4 arg5 harg5 arg6 harg6) K := by
  simp only [cc4__gcn_matmul_kernel_eq_skeleton]; unfold cc4__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond4_1 i <;> by_cases hc2 : cond4_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

/-- The accumulator's recursion unfolded once, with `f` what the point before left. -/
theorem acc4_eq (c : Dev nD) (t : Fin cfg4.N) (f : Vec F S1024x512 .f32)
    (hf : ∀ h : t.val ≠ 0, f = acc4 V c (t.val - 1) (Nat.lt_of_le_of_lt (Nat.sub_le _ _) t.isLt)) :
    acc4 V c t.val t.isLt = k4_pay2 (iblk4 V c 0 t) (iblk4 V c 1 t) (if t.val % 4 = 0 then k4_pay1 else f) := by
  obtain ⟨n, hn⟩ := t
  cases n with
  | zero => rfl
  | succ n =>
    rw [acc4]
    split
    · rfl
    · rw [hf (Nat.succ_ne_zero n)]; rfl

end Region

theorem idleAt4_3 : ∀ t : Fin cfg4.N, ¬t.val % 4 = 3 → cfg4.idle 3 (grid4.coords t) = true ∧ (cfg4.win 3).flush t = false := by decide +kernel
theorem liveAt4_3 : ∀ t : Fin cfg4.N, t.val % 4 = 3 → cfg4.idle 3 (grid4.coords t) = false := by decide +kernel

section Region
variable (V : (c : Dev nD) → (b : Ref sig .tc) → Buf (Elt F) ((c : Thread nD τ).loc b))

/-- The point's obligation: the invariant hands the accumulator over and takes it back one step later. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t)) := by
  unfold bodyAt4
  obtain ⟨e0, e1, e2⟩ := before4 V c t
  simp only [e0, e1, e2]
  rw [show (dat4 V c).Φ t.castSucc = Φ4 V c t.castSucc from rfl, show (dat4 V c).Φ t.succ = Φ4 V c t.succ from rfl,
    show (dat4 V c).owesAt () t.succ = (dat4 V c).owesAt () t.castSucc from rfl,
    show (dat4 V c).leavesExact 0 t = owns (c : Thread nD τ) (st4_0 t) fullShare (iblk4 V c 0 t) from rfl,
    show (dat4 V c).leavesExact 1 t = owns (c : Thread nD τ) (st4_1 t) fullShare (iblk4 V c 1 t) from rfl,
    show (dat4 V c).leavesExact 2 t = owns (c : Thread nD τ) (st4_2 t) fullShare (iblk4 V c 2 t) from rfl]
  unfold Φ4
  iintro ⟨⟨HR, Hg, ⟨%f, %hf, HS⟩⟩, Ho, ⟨%d0, H0⟩, ⟨%d1, H1⟩, ⟨%d2, H2⟩, ⟨%d3, H3⟩⟩
  have hacc := acc4_eq V c t f hf
  iapply (sound_kernel4 c Set.univ (grid4.coords t)
    (fun h => by have := (hcond4_1 t).mp h.1; have := (hcond4_2 t).mp h.2; omega) _ _ _ _ _ _ _ _ _ _
    (iblk4 V c 0 t) (iblk4 V c 1 t) (iblk4 V c 2 t) ((dat4 V c).before 3 t d3) f
    (if t.val % 4 = 0 then k4_pay1 else f) (if t.val % 4 = 3 then fin4 V c t else (dat4 V c).before 3 t d3) _
    (fun h => if_pos ((hcond4_1 t).mp h)) (fun h => if_neg fun e => h ((hcond4_1 t).mpr e))
    (fun h => by rw [if_pos ((hcond4_2 t).mp h), ← hacc]; rfl) (fun h => if_neg fun e => h ((hcond4_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt4_3 t h3]; iexact H3
  · rw [if_neg h3, Dat.leavesExact_idle _ 3 t (idleAt4_3 t h3).1 (idleAt4_3 t h3).2]; iexists _; iexact H3

theorem body_obligation4 (c : Dev nD) : BodyObligation (dat4 (F := F) V c) (defs₀ (F := F)) Variants.none () Set.univ := fun t => by
  rw [bigSep_W4, bigSep_W4]
  exact sound_body4 V c t

end Region

end Cert.KernelIdeal.Gen

end
-- ==== Proof.Seg4.lean ====
import proofs.«124672_j60567628808244_1_alg».proof.Proof.SegLib
import proofs.«124672_j60567628808244_1_alg».proof.Proof.Gcn4Body

noncomputable section

namespace Cert.KernelIdeal.Gen

open Idealize.ShloMosaic

variable {F : FTy → Type} [FloatOps F] (m : (ℓ : Loc nD τ sig) → Buf (Elt F) ℓ) (outs : Outs (F := F))

theorem ok4 (hok : OutsOk m outs) (c : Dev nD) : SegOk m outs (4 : Fin 14) 3 c (W7 m outs c) (W8 m outs c) where
  A := A_eq4 _ c
  inp := by decide
  out := (hok.h4 c).trans (Function.update_self (f := W7 m outs c) _ _).symm
  rest := V8_of m outs c

def reg4 (hok : OutsOk m outs) : Pipeline.RegionSeg (pcfgs (F := F)) adm (pdats m outs) () defs₀ Variants.none Lz lvz (4 : Fin 14) :=
  segOf launch4 (fun c => (body_obligation4 (U7 m outs) c).loose) (ok4 m outs hok)
    (fun c => acc_in (scopedRest4_split c) (fun _ h => absurd rfl h) _) fun c => acc_out (scopedRest4_split c)

end Cert.KernelIdeal.Gen

end
-- ==== Proof.Gcn5Body.lean ====
import proofs.«124672_j60567628808244_1_alg».proof.Proof.Gcn5Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond5_1 (i : grid5.Coords) : Prop := (Scalar.cmpi .ne (Scalar.extui (Scalar.cmpi .eq (BitVec.ofNat 32 (i 1).val) 0#32)) 0#32) = 1#1
abbrev cond5_2 (i : grid5.Coords) : Prop := k5_cond2 i = 1#1

theorem hcond5_1 : ∀ t : Fin cfg5.N, cond5_1 (grid5.coords t) ↔ t.val % 4 = 0 :=
  (by decide +kernel : ∀ t : Fin grid5.N, cond5_1 (grid5.coords t) ↔ t.val % 4 = 0)
theorem hcond5_2 : ∀ t : Fin cfg5.N, cond5_2 (grid5.coords t) ↔ t.val % 4 = 3 :=
  (by decide +kernel : ∀ t : Fin grid5.N, cond5_2 (grid5.coords t) ↔ t.val % 4 = 3)

/-- One run per kind of point: the accumulator restarts from `a0` and gains the block product; the output is stored only where the second test holds. -/
theorem sound_kernel5 (c : Dev nD) (E : Set ℕ) (i : grid5.Coords) (hx : ¬(cond5_1 i ∧ cond5_2 i))
    (arg2 : Memref sig .tc .vmem S1024x2048 .f32) (harg2 : arg2.IsWhole) (arg3 : Memref sig .tc .vmem S2048x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole)
    (x0 : Vec F S1024x2048 .f32) (x1 : Vec F S2048x512 .f32) (x2 : Vec F S1x512 .f32) (xo xs a0 o : Vec F S1024x512 .f32) (K : PUnit → sProp 𝕄)
    (h1 : cond5_1 i → a0 = k5_pay1) (h1' : ¬cond5_1 i → a0 = xs)
    (h2 : cond5_2 i → o = k5_pay3 (k5_pay2 x0 x1 a0) x2) (h2' : ¬cond5_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k5_pay2 x0 x1 a0)) -∗ K ⟨⟩))
      ⊢ wp frame (wpE (defs₀ (F := F)) Variants.none c none) E (cc5__gcn_matmul_kernel i arg2 harg2 arg3 harg3 arg4 harg4 arg5 harg5 arg6 harg6) K := by
  simp only [cc5__gcn_matmul_kernel_eq_skeleton]; unfold cc5__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond5_1 i <;> by_cases hc2 : cond5_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x512) _ _ zeroOffs, View.readCov_unit_zero (S := S1024x512) _ zeroOffs,
            readAt_unit_zero (S := S1024x2048) _ _ zeroOffs, readAt_unit_zero (S := S2048x512) _ _ zeroOffs,
            readAt_unit_zero (S := S1024x512) _ _ zeroOffs, readAt_unit_zero (S := S1x512) _ _ zeroOffs]
    iexists _; isplitr
    swap; · iexact Hs
    ipureintro
    sl_unfold_run_names
    rw [read_writes_cons_unit_zero (S := S1024x512) _ _ zeroOffs, readAt_unit_zero (S := S1024x2048) _ _ zeroOffs,
      readAt_unit_zero (S := S2048x512) _ _ zeroOffs]
    first
      | rw [View.readCov_unit_zero (S := S1024x512) _ zeroOffs]
      | rw [readAt_unit_zero (S := S1024x512) _ _ zeroOffs]

section Region
variable (V : (c : Dev nD) → (b : Ref sig .tc) → Buf (Elt F) ((c : Thread nD τ).loc b))

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The accumulator's recursion unfolded once, with `f` what the point before left. -/
theorem acc5_eq (c : Dev nD) (t : Fin cfg5.N) (f : Vec F S1024x512 .f32)
    (hf : ∀ h : t.val ≠ 0, f = acc5 V c (t.val - 1) (Nat.lt_of_le_of_lt (Nat.sub_le _ _) t.isLt)) :
    acc5 V c t.val t.isLt = k5_pay2 (iblk5 V c 0 t) (iblk5 V c 1 t) (if t.val % 4 = 0 then k5_pay1 else f) := by
  obtain ⟨n, hn⟩ := t
  cases n with
  | zero => rfl
  | succ n =>
    rw [acc5]
    split
    · rfl
    · rw [hf (Nat.succ_ne_zero n)]; rfl

end Region

theorem idleAt5_3 : ∀ t : Fin cfg5.N, ¬t.val % 4 = 3 → cfg5.idle 3 (grid5.coords t) = true ∧ (cfg5.win 3).flush t = false := by decide +kernel
theorem liveAt5_3 : ∀ t : Fin cfg5.N, t.val % 4 = 3 → cfg5.idle 3 (grid5.coords t) = false := by decide +kernel

section Region
variable (V : (c : Dev nD) → (b : Ref sig .tc) → Buf (Elt F) ((c : Thread nD τ).loc b))

/-- The point's obligation: the invariant hands the accumulator over and takes it back one step later. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t)) := by
  unfold bodyAt5
  obtain ⟨e0, e1, e2⟩ := before5 V c t
  simp only [e0, e1, e2]
  rw [show (dat5 V c).Φ t.castSucc = Φ5 V c t.castSucc from rfl, show (dat5 V c).Φ t.succ = Φ5 V c t.succ from rfl,
    show (dat5 V c).owesAt () t.succ = (dat5 V c).owesAt () t.castSucc from rfl,
    show (dat5 V c).leavesExact 0 t = owns (c : Thread nD τ) (st5_0 t) fullShare (iblk5 V c 0 t) from rfl,
    show (dat5 V c).leavesExact 1 t = owns (c : Thread nD τ) (st5_1 t) fullShare (iblk5 V c 1 t) from rfl,
    show (dat5 V c).leavesExact 2 t = owns (c : Thread nD τ) (st5_2 t) fullShare (iblk5 V c 2 t) from rfl]
  unfold Φ5
  iintro ⟨⟨HR, Hg, ⟨%f, %hf, HS⟩⟩, Ho, ⟨%d0, H0⟩, ⟨%d1, H1⟩, ⟨%d2, H2⟩, ⟨%d3, H3⟩⟩
  have hacc := acc5_eq V c t f hf
  iapply (sound_kernel5 c Set.univ (grid5.coords t)
    (fun h => by have := (hcond5_1 t).mp h.1; have := (hcond5_2 t).mp h.2; omega) _ _ _ _ _ _ _ _ _ _
    (iblk5 V c 0 t) (iblk5 V c 1 t) (iblk5 V c 2 t) ((dat5 V c).before 3 t d3) f
    (if t.val % 4 = 0 then k5_pay1 else f) (if t.val % 4 = 3 then fin5 V c t else (dat5 V c).before 3 t d3) _
    (fun h => if_pos ((hcond5_1 t).mp h)) (fun h => if_neg fun e => h ((hcond5_1 t).mpr e))
    (fun h => by rw [if_pos ((hcond5_2 t).mp h), ← hacc]; rfl) (fun h => if_neg fun e => h ((hcond5_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt5_3 t h3]; iexact H3
  · rw [if_neg h3, Dat.leavesExact_idle _ 3 t (idleAt5_3 t h3).1 (idleAt5_3 t h3).2]; iexists _; iexact H3

theorem body_obligation5 (c : Dev nD) : BodyObligation (dat5 (F := F) V c) (defs₀ (F := F)) Variants.none () Set.univ := fun t => by
  rw [bigSep_W5, bigSep_W5]
  exact sound_body5 V c t

end Region

end Cert.KernelIdeal.Gen

end
-- ==== Proof.Seg5.lean ====
import proofs.«124672_j60567628808244_1_alg».proof.Proof.SegLib
import proofs.«124672_j60567628808244_1_alg».proof.Proof.Gcn5Body

noncomputable section

namespace Cert.KernelIdeal.Gen

open Idealize.ShloMosaic

variable {F : FTy → Type} [FloatOps F] (m : (ℓ : Loc nD τ sig) → Buf (Elt F) ℓ) (outs : Outs (F := F))

theorem ok5 (hok : OutsOk m outs) (c : Dev nD) : SegOk m outs (5 : Fin 14) 3 c (W9 m outs c) (W10 m outs c) where
  A := A_eq5 _ c
  inp := by decide
  out := (hok.h5 c).trans (Function.update_self (f := W9 m outs c) _ _).symm
  rest := V10_of m outs c

def reg5 (hok : OutsOk m outs) : Pipeline.RegionSeg (pcfgs (F := F)) adm (pdats m outs) () defs₀ Variants.none Lz lvz (5 : Fin 14) :=
  segOf launch5 (fun c => (body_obligation5 (U9 m outs) c).loose) (ok5 m outs hok)
    (fun c => acc_in (scopedRest5_split c) (fun _ h => absurd rfl h) _) fun c => acc_out (scopedRest5_split c)

end Cert.KernelIdeal.Gen

end
-- ==== Proof.Seg6.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok6 (hok : OutsOk m outs) (c : Dev nD) : SegOk m outs (6 : Fin 14) 2 c (W10 m outs c) (W11 m outs c) where
  A := A_eq6 _ c
  inp := by decide
  out := (hok.h6 c).trans (Function.update_self (f := W10 m outs c) _ _).symm
  rest := V11_of m outs c

def reg6 (hok : OutsOk m outs) : Pipeline.RegionSeg (pcfgs (F := F)) adm (pdats m outs) () defs₀ Variants.none Lz lvz (6 : Fin 14) :=
  segOf launch6 (fun c => (body_obligation6 (U10 m outs) c).loose) (ok6 m outs hok) (fun _ => dense_in _) fun _ => dense_out

end Cert.KernelIdeal.Gen

end
-- ==== Proof.Gcn7Body.lean ====
import proofs.«124672_j60567628808244_1_alg».proof.Proof.Gcn7Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond7_1 (i : grid7.Coords) : Prop := (Scalar.cmpi .ne (Scalar.extui (Scalar.cmpi .eq (BitVec.ofNat 32 (i 1).val) 0#32)) 0#32) = 1#1
abbrev cond7_2 (i : grid7.Coords) : Prop := k7_cond2 i = 1#1

theorem hcond7_1 : ∀ t : Fin cfg7.N, cond7_1 (grid7.coords t) ↔ t.val % 4 = 0 :=
  (by decide +kernel : ∀ t : Fin grid7.N, cond7_1 (grid7.coords t) ↔ t.val % 4 = 0)
theorem hcond7_2 : ∀ t : Fin cfg7.N, cond7_2 (grid7.coords t) ↔ t.val % 4 = 3 :=
  (by decide +kernel : ∀ t : Fin grid7.N, cond7_2 (grid7.coords t) ↔ t.val % 4 = 3)

/-- One run per kind of point: the accumulator restarts from `a0` and gains the block product; the output is stored only where the second test holds. -/
theorem sound_kernel7 (c : Dev nD) (E : Set ℕ) (i : grid7.Coords) (hx : ¬(cond7_1 i ∧ cond7_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond7_1 i → a0 = k7_pay1) (h1' : ¬cond7_1 i → a0 = xs)
    (h2 : cond7_2 i → o = k7_pay3 (k7_pay2 x0 x1 a0) x2) (h2' : ¬cond7_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k7_pay2 x0 x1 a0)) -∗ K ⟨⟩))
      ⊢ wp frame (wpE (defs₀ (F := F)) Variants.none c none) E (cc7__gcn_matmul_kernel i arg2 harg2 arg3 harg3 arg4 harg4 arg5 harg5 arg6 harg6) K := by
  simp only [cc7__gcn_matmul_kernel_eq_skeleton]; unfold cc7__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond7_1 i <;> by_cases hc2 : cond7_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before7 (c : Dev nD) (t : Fin cfg7.N) :
    (∀ d, (dat7 V c).before 0 t d = iblk7 V c 0 t) ∧ (∀ d, (dat7 V c).before 1 t d = iblk7 V c 1 t)
      ∧ ∀ d, (dat7 V c).before 2 t d = iblk7 V c 2 t := by
  refine ⟨fun d => ?_, fun d => ?_, fun d => ?_⟩ <;>
    exact ((dat7 V c).before_in_eq_fetched _ rfl (fun _ => rfl) (fun _ _ _ => rfl) (fun _ => rfl) t d).trans rfl

/-- The accumulator's recursion unfolded once, with `f` what the point before left. -/
theorem acc7_eq (c : Dev nD) (t : Fin cfg7.N) (f : Vec F S1024x256 .f32)
    (hf : ∀ h : t.val ≠ 0, f = acc7 V c (t.val - 1) (Nat.lt_of_le_of_lt (Nat.sub_le _ _) t.isLt)) :
    acc7 V c t.val t.isLt = k7_pay2 (iblk7 V c 0 t) (iblk7 V c 1 t) (if t.val % 4 = 0 then k7_pay1 else f) := by
  obtain ⟨n, hn⟩ := t
  cases n with
  | zero => rfl
  | succ n =>
    rw [acc7]
    split
    · rfl
    · rw [hf (Nat.succ_ne_zero n)]; rfl

end Region

theorem idleAt7_3 : ∀ t : Fin cfg7.N, ¬t.val % 4 = 3 → cfg7.idle 3 (grid7.coords t) = true ∧ (cfg7.win 3).flush t = false := by decide +kernel
theorem liveAt7_3 : ∀ t : Fin cfg7.N, t.val % 4 = 3 → cfg7.idle 3 (grid7.coords t) = false := by decide +kernel

section Region
variable (V : (c : Dev nD) → (b : Ref sig .tc) → Buf (Elt F) ((c : Thread nD τ).loc b))

/-- The point's obligation: the invariant hands the accumulator over and takes it back one step later. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) (fun _ =>
      iprop((dat7 V c).Φ t.succ ∗ (dat7 V c).owesAt () t.succ
        ∗ (dat7 V c).leavesExact 0 t ∗ (dat7 V c).leavesExact 1 t ∗ (dat7 V c).leavesExact 2 t ∗ (dat7 V c).leavesExact 3 t)) := by
  unfold bodyAt7
  obtain ⟨e0, e1, e2⟩ := before7 V c t
  simp only [e0, e1, e2]
  rw [show (dat7 V c).Φ t.castSucc = Φ7 V c t.castSucc from rfl, show (dat7 V c).Φ t.succ = Φ7 V c t.succ from rfl,
    show (dat7 V c).owesAt () t.succ = (dat7 V c).owesAt () t.castSucc from rfl,
    show (dat7 V c).leavesExact 0 t = owns (c : Thread nD τ) (st7_0 t) fullShare (iblk7 V c 0 t) from rfl,
    show (dat7 V c).leavesExact 1 t = owns (c : Thread nD τ) (st7_1 t) fullShare (iblk7 V c 1 t) from rfl,
    show (dat7 V c).leavesExact 2 t = owns (c : Thread nD τ) (st7_2 t) fullShare (iblk7 V c 2 t) from rfl]
  unfold Φ7
  iintro ⟨⟨HR, Hg, ⟨%f, %hf, HS⟩⟩, Ho, ⟨%d0, H0⟩, ⟨%d1, H1⟩, ⟨%d2, H2⟩, ⟨%d3, H3⟩⟩
  have hacc := acc7_eq V c t f hf
  iapply (sound_kernel7 c Set.univ (grid7.coords t)
    (fun h => by have := (hcond7_1 t).mp h.1; have := (hcond7_2 t).mp h.2; omega) _ _ _ _ _ _ _ _ _ _
    (iblk7 V c 0 t) (iblk7 V c 1 t) (iblk7 V c 2 t) ((dat7 V c).before 3 t d3) f
    (if t.val % 4 = 0 then k7_pay1 else f) (if t.val % 4 = 3 then fin7 V c t else (dat7 V c).before 3 t d3) _
    (fun h => if_pos ((hcond7_1 t).mp h)) (fun h => if_neg fun e => h ((hcond7_1 t).mpr e))
    (fun h => by rw [if_pos ((hcond7_2 t).mp h), ← hacc]; rfl) (fun h => if_neg fun e => h ((hcond7_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt7_3 t h3]; iexact H3
  · rw [if_neg h3, Dat.leavesExact_idle _ 3 t (idleAt7_3 t h3).1 (idleAt7_3 t h3).2]; iexists _; iexact H3

theorem body_obligation7 (c : Dev nD) : BodyObligation (dat7 (F := F) V c) (defs₀ (F := F)) Variants.none () Set.univ := fun t => by
  rw [bigSep_W7, bigSep_W7]
  exact sound_body7 V c t

end Region

end Cert.KernelIdeal.Gen

end
-- ==== Proof.Seg7.lean ====
import proofs.«124672_j60567628808244_1_alg».proof.Proof.SegLib
import proofs.«124672_j60567628808244_1_alg».proof.Proof.Gcn7Body

noncomputable section

namespace Cert.KernelIdeal.Gen

open Idealize.ShloMosaic

variable {F : FTy → Type} [FloatOps F] (m : (ℓ : Loc nD τ sig) → Buf (Elt F) ℓ) (outs : Outs (F := F))

theorem ok7 (hok : OutsOk m outs) (c : Dev nD) : SegOk m outs (7 : Fin 14) 3 c (W12 m outs c) (W13 m outs c) where
  A := A_eq7 _ c
  inp := by decide
  out := (hok.h7 c).trans (Function.update_self (f := W12 m outs c) _ _).symm
  rest := V13_of m outs c

def reg7 (hok : OutsOk m outs) : Pipeline.RegionSeg (pcfgs (F := F)) adm (pdats m outs) () defs₀ Variants.none Lz lvz (7 : Fin 14) :=
  segOf launch7 (fun c => (body_obligation7 (U12 m outs) c).loose) (ok7 m outs hok)
    (fun c => acc_in (scopedRest7_split c) (fun _ h => absurd rfl h) _) fun c => acc_out (scopedRest7_split c)

end Cert.KernelIdeal.Gen

end
-- ==== Proof.Seg8.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok8 (hok : OutsOk m outs) (c : Dev nD) : SegOk m outs (8 : Fin 14) 2 c (W13 m outs c) (W14 m outs c) where
  A := A_eq8 _ c
  inp := by decide
  out := (hok.h8 c).trans (Function.update_self (f := W13 m outs c) _ _).symm
  rest := V14_of m outs c

def reg8 (hok : OutsOk m outs) : Pipeline.RegionSeg (pcfgs (F := F)) adm (pdats m outs) () defs₀ Variants.none Lz lvz (8 : Fin 14) :=
  segOf launch8 (fun c => (body_obligation8 (U13 m outs) c).loose) (ok8 m outs hok) (fun _ => dense_in _) fun _ => dense_out

end Cert.KernelIdeal.Gen

end
-- ==== Proof.Gcn9Body.lean ====
import proofs.«124672_j60567628808244_1_alg».proof.Proof.Gcn9Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond9_1 (i : grid9.Coords) : Prop := (Scalar.cmpi .ne (Scalar.extui (Scalar.cmpi .eq (BitVec.ofNat 32 (i 1).val) 0#32)) 0#32) = 1#1
abbrev cond9_2 (i : grid9.Coords) : Prop := k9_cond2 i = 1#1

theorem hcond9_1 : ∀ t : Fin cfg9.N, cond9_1 (grid9.coords t) ↔ t.val % 4 = 0 :=
  (by decide +kernel : ∀ t : Fin grid9.N, cond9_1 (grid9.coords t) ↔ t.val % 4 = 0)
theorem hcond9_2 : ∀ t : Fin cfg9.N, cond9_2 (grid9.coords t) ↔ t.val % 4 = 3 :=
  (by decide +kernel : ∀ t : Fin grid9.N, cond9_2 (grid9.coords t) ↔ t.val % 4 = 3)

/-- One run per kind of point: the accumulator restarts from `a0` and gains the block product; the output is stored only where the second test holds. -/
theorem sound_kernel9 (c : Dev nD) (E : Set ℕ) (i : grid9.Coords) (hx : ¬(cond9_1 i ∧ cond9_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond9_1 i → a0 = k9_pay1) (h1' : ¬cond9_1 i → a0 = xs)
    (h2 : cond9_2 i → o = k9_pay3 (k9_pay2 x0 x1 a0) x2) (h2' : ¬cond9_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k9_pay2 x0 x1 a0)) -∗ K ⟨⟩))
      ⊢ wp frame (wpE (defs₀ (F := F)) Variants.none c none) E (cc9__gcn_matmul_kernel i arg2 harg2 arg3 harg3 arg4 harg4 arg5 harg5 arg6 harg6) K := by
  simp only [cc9__gcn_matmul_kernel_eq_skeleton]; unfold cc9__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond9_1 i <;> by_cases hc2 : cond9_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before9 (c : Dev nD) (t : Fin cfg9.N) :
    (∀ d, (dat9 V c).before 0 t d = iblk9 V c 0 t) ∧ (∀ d, (dat9 V c).before 1 t d = iblk9 V c 1 t)
      ∧ ∀ d, (dat9 V c).before 2 t d = iblk9 V c 2 t := by
  refine ⟨fun d => ?_, fun d => ?_, fun d => ?_⟩ <;>
    exact ((dat9 V c).before_in_eq_fetched _ rfl (fun _ => rfl) (fun _ _ _ => rfl) (fun _ => rfl) t d).trans rfl

/-- The accumulator's recursion unfolded once, with `f` what the point before left. -/
theorem acc9_eq (c : Dev nD) (t : Fin cfg9.N) (f : Vec F S1024x256 .f32)
    (hf : ∀ h : t.val ≠ 0, f = acc9 V c (t.val - 1) (Nat.lt_of_le_of_lt (Nat.sub_le _ _) t.isLt)) :
    acc9 V c t.val t.isLt = k9_pay2 (iblk9 V c 0 t) (iblk9 V c 1 t) (if t.val % 4 = 0 then k9_pay1 else f) := by
  obtain ⟨n, hn⟩ := t
  cases n with
  | zero => rfl
  | succ n =>
    rw [acc9]
    split
    · rfl
    · rw [hf (Nat.succ_ne_zero n)]; rfl

end Region

theorem idleAt9_3 : ∀ t : Fin cfg9.N, ¬t.val % 4 = 3 → cfg9.idle 3 (grid9.coords t) = true ∧ (cfg9.win 3).flush t = false := by decide +kernel
theorem liveAt9_3 : ∀ t : Fin cfg9.N, t.val % 4 = 3 → cfg9.idle 3 (grid9.coords t) = false := by decide +kernel

section Region
variable (V : (c : Dev nD) → (b : Ref sig .tc) → Buf (Elt F) ((c : Thread nD τ).loc b))

/-- The point's obligation: the invariant hands the accumulator over and takes it back one step later. -/
theorem sound_body9 (c : Dev nD) (t : Fin cfg9.N) :
    iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d))
      ∗ (∃ d, owns (c : Thread nD τ) (st9_3 t) fullShare ((dat9 V c).before 3 t d)))
    ⊢ wp frame (wpE (defs₀ (F := F)) Variants.none c none) Set.univ (bodyAt9 t) (fun _ =>
      iprop((dat9 V c).Φ t.succ ∗ (dat9 V c).owesAt () t.succ
        ∗ (dat9 V c).leavesExact 0 t ∗ (dat9 V c).leavesExact 1 t ∗ (dat9 V c).leavesExact 2 t ∗ (dat9 V c).leavesExact 3 t)) := by
  unfold bodyAt9
  obtain ⟨e0, e1, e2⟩ := before9 V c t
  simp only [e0, e1, e2]
  rw [show (dat9 V c).Φ t.castSucc = Φ9 V c t.castSucc from rfl, show (dat9 V c).Φ t.succ = Φ9 V c t.succ from rfl,
    show (dat9 V c).owesAt () t.succ = (dat9 V c).owesAt () t.castSucc from rfl,
    show (dat9 V c).leavesExact 0 t = owns (c : Thread nD τ) (st9_0 t) fullShare (iblk9 V c 0 t) from rfl,
    show (dat9 V c).leavesExact 1 t = owns (c : Thread nD τ) (st9_1 t) fullShare (iblk9 V c 1 t) from rfl,
    show (dat9 V c).leavesExact 2 t = owns (c : Thread nD τ) (st9_2 t) fullShare (iblk9 V c 2 t) from rfl]
  unfold Φ9
  iintro ⟨⟨HR, Hg, ⟨%f, %hf, HS⟩⟩, Ho, ⟨%d0, H0⟩, ⟨%d1, H1⟩, ⟨%d2, H2⟩, ⟨%d3, H3⟩⟩
  have hacc := acc9_eq V c t f hf
  iapply (sound_kernel9 c Set.univ (grid9.coords t)
    (fun h => by have := (hcond9_1 t).mp h.1; have := (hcond9_2 t).mp h.2; omega) _ _ _ _ _ _ _ _ _ _
    (iblk9 V c 0 t) (iblk9 V c 1 t) (iblk9 V c 2 t) ((dat9 V c).before 3 t d3) f
    (if t.val % 4 = 0 then k9_pay1 else f) (if t.val % 4 = 3 then fin9 V c t else (dat9 V c).before 3 t d3) _
    (fun h => if_pos ((hcond9_1 t).mp h)) (fun h => if_neg fun e => h ((hcond9_1 t).mpr e))
    (fun h => by rw [if_pos ((hcond9_2 t).mp h), ← hacc]; rfl) (fun h => if_neg fun e => h ((hcond9_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt9_3 t h3]; iexact H3
  · rw [if_neg h3, Dat.leavesExact_idle _ 3 t (idleAt9_3 t h3).1 (idleAt9_3 t h3).2]; iexists _; iexact H3

theorem body_obligation9 (c : Dev nD) : BodyObligation (dat9 (F := F) V c) (defs₀ (F := F)) Variants.none () Set.univ := fun t => by
  rw [bigSep_W9, bigSep_W9]
  exact sound_body9 V c t

end Region

end Cert.KernelIdeal.Gen

end
-- ==== Proof.Seg9.lean ====
import proofs.«124672_j60567628808244_1_alg».proof.Proof.SegLib
import proofs.«124672_j60567628808244_1_alg».proof.Proof.Gcn9Body

noncomputable section

namespace Cert.KernelIdeal.Gen

open Idealize.ShloMosaic

variable {F : FTy → Type} [FloatOps F] (m : (ℓ : Loc nD τ sig) → Buf (Elt F) ℓ) (outs : Outs (F := F))

theorem ok9 (hok : OutsOk m outs) (c : Dev nD) : SegOk m outs (9 : Fin 14) 3 c (W15 m outs c) (W16 m outs c) where
  A := A_eq9 _ c
  inp := by decide
  out := (hok.h9 c).trans (Function.update_self (f := W15 m outs c) _ _).symm
  rest := V16_of m outs c

def reg9 (hok : OutsOk m outs) : Pipeline.RegionSeg (pcfgs (F := F)) adm (pdats m outs) () defs₀ Variants.none Lz lvz (9 : Fin 14) :=
  segOf launch9 (fun c => (body_obligation9 (U15 m outs) c).loose) (ok9 m outs hok)
    (fun c => acc_in (scopedRest9_split c) (fun _ h => absurd rfl h) _) fun c => acc_out (scopedRest9_split c)

end Cert.KernelIdeal.Gen

end
-- ==== Proof.Seg10.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok10 (hok : OutsOk m outs) (c : Dev nD) : SegOk m outs (10 : Fin 14) 2 c (W16 m outs c) (W17 m outs c) where
  A := A_eq10 _ c
  inp := by decide
  out := (hok.h10 c).trans (Function.update_self (f := W16 m outs c) _ _).symm
  rest := V17_of m outs c

def reg10 (hok : OutsOk m outs) : Pipeline.RegionSeg (pcfgs (F := F)) adm (pdats m outs) () defs₀ Variants.none Lz lvz (10 : Fin 14) :=
  segOf launch10 (fun c => (body_obligation10 (U16 m outs) c).loose) (ok10 m outs hok) (fun _ => dense_in _) fun _ => dense_out

end Cert.KernelIdeal.Gen

end
-- ==== Proof.Gcn11Body.lean ====
import proofs.«124672_j60567628808244_1_alg».proof.Proof.Gcn11Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond11_1 (i : grid11.Coords) : Prop := (Scalar.cmpi .ne (Scalar.extui (Scalar.cmpi .eq (BitVec.ofNat 32 (i 1).val) 0#32)) 0#32) = 1#1
abbrev cond11_2 (i : grid11.Coords) : Prop := k11_cond2 i = 1#1

theorem hcond11_1 : ∀ t : Fin cfg11.N, cond11_1 (grid11.coords t) ↔ t.val % 4 = 0 :=
  (by decide +kernel : ∀ t : Fin grid11.N, cond11_1 (grid11.coords t) ↔ t.val % 4 = 0)
theorem hcond11_2 : ∀ t : Fin cfg11.N, cond11_2 (grid11.coords t) ↔ t.val % 4 = 3 :=
  (by decide +kernel : ∀ t : Fin grid11.N, cond11_2 (grid11.coords t) ↔ t.val % 4 = 3)

/-- One run per kind of point: the accumulator restarts from `a0` and gains the block product; the output is stored only where the second test holds. -/
theorem sound_kernel11 (c : Dev nD) (E : Set ℕ) (i : grid11.Coords) (hx : ¬(cond11_1 i ∧ cond11_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond11_1 i → a0 = k11_pay1) (h1' : ¬cond11_1 i → a0 = xs)
    (h2 : cond11_2 i → o = k11_pay3 (k11_pay2 x0 x1 a0) x2) (h2' : ¬cond11_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k11_pay2 x0 x1 a0)) -∗ K ⟨⟩))
      ⊢ wp frame (wpE (defs₀ (F := F)) Variants.none c none) E (cc11__gcn_matmul_kernel i arg2 harg2 arg3 harg3 arg4 harg4 arg5 harg5 arg6 harg6) K := by
  simp only [cc11__gcn_matmul_kernel_eq_skeleton]; unfold cc11__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond11_1 i <;> by_cases hc2 : cond11_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before11 (c : Dev nD) (t : Fin cfg11.N) :
    (∀ d, (dat11 V c).before 0 t d = iblk11 V c 0 t) ∧ (∀ d, (dat11 V c).before 1 t d = iblk11 V c 1 t)
      ∧ ∀ d, (dat11 V c).before 2 t d = iblk11 V c 2 t := by
  refine ⟨fun d => ?_, fun d => ?_, fun d => ?_⟩ <;>
    exact ((dat11 V c).before_in_eq_fetched _ rfl (fun _ => rfl) (fun _ _ _ => rfl) (fun _ => rfl) t d).trans rfl

/-- The accumulator's recursion unfolded once, with `f` what the point before left. -/
theorem acc11_eq (c : Dev nD) (t : Fin cfg11.N) (f : Vec F S1024x256 .f32)
    (hf : ∀ h : t.val ≠ 0, f = acc11 V c (t.val - 1) (Nat.lt_of_le_of_lt (Nat.sub_le _ _) t.isLt)) :
    acc11 V c t.val t.isLt = k11_pay2 (iblk11 V c 0 t) (iblk11 V c 1 t) (if t.val % 4 = 0 then k11_pay1 else f) := by
  obtain ⟨n, hn⟩ := t
  cases n with
  | zero => rfl
  | succ n =>
    rw [acc11]
    split
    · rfl
    · rw [hf (Nat.succ_ne_zero n)]; rfl

end Region

theorem idleAt11_3 : ∀ t : Fin cfg11.N, ¬t.val % 4 = 3 → cfg11.idle 3 (grid11.coords t) = true ∧ (cfg11.win 3).flush t = false := by decide +kernel
theorem liveAt11_3 : ∀ t : Fin cfg11.N, t.val % 4 = 3 → cfg11.idle 3 (grid11.coords t) = false := by decide +kernel

section Region
variable (V : (c : Dev nD) → (b : Ref sig .tc) → Buf (Elt F) ((c : Thread nD τ).loc b))

/-- The point's obligation: the invariant hands the accumulator over and takes it back one step later. -/
theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d)))
    ⊢ wp frame (wpE (defs₀ (F := F)) Variants.none c none) Set.univ (bodyAt11 t) (fun _ =>
      iprop((dat11 V c).Φ t.succ ∗ (dat11 V c).owesAt () t.succ
        ∗ (dat11 V c).leavesExact 0 t ∗ (dat11 V c).leavesExact 1 t ∗ (dat11 V c).leavesExact 2 t ∗ (dat11 V c).leavesExact 3 t)) := by
  unfold bodyAt11
  obtain ⟨e0, e1, e2⟩ := before11 V c t
  simp only [e0, e1, e2]
  rw [show (dat11 V c).Φ t.castSucc = Φ11 V c t.castSucc from rfl, show (dat11 V c).Φ t.succ = Φ11 V c t.succ from rfl,
    show (dat11 V c).owesAt () t.succ = (dat11 V c).owesAt () t.castSucc from rfl,
    show (dat11 V c).leavesExact 0 t = owns (c : Thread nD τ) (st11_0 t) fullShare (iblk11 V c 0 t) from rfl,
    show (dat11 V c).leavesExact 1 t = owns (c : Thread nD τ) (st11_1 t) fullShare (iblk11 V c 1 t) from rfl,
    show (dat11 V c).leavesExact 2 t = owns (c : Thread nD τ) (st11_2 t) fullShare (iblk11 V c 2 t) from rfl]
  unfold Φ11
  iintro ⟨⟨HR, Hg, ⟨%f, %hf, HS⟩⟩, Ho, ⟨%d0, H0⟩, ⟨%d1, H1⟩, ⟨%d2, H2⟩, ⟨%d3, H3⟩⟩
  have hacc := acc11_eq V c t f hf
  iapply (sound_kernel11 c Set.univ (grid11.coords t)
    (fun h => by have := (hcond11_1 t).mp h.1; have := (hcond11_2 t).mp h.2; omega) _ _ _ _ _ _ _ _ _ _
    (iblk11 V c 0 t) (iblk11 V c 1 t) (iblk11 V c 2 t) ((dat11 V c).before 3 t d3) f
    (if t.val % 4 = 0 then k11_pay1 else f) (if t.val % 4 = 3 then fin11 V c t else (dat11 V c).before 3 t d3) _
    (fun h => if_pos ((hcond11_1 t).mp h)) (fun h => if_neg fun e => h ((hcond11_1 t).mpr e))
    (fun h => by rw [if_pos ((hcond11_2 t).mp h), ← hacc]; rfl) (fun h => if_neg fun e => h ((hcond11_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt11_3 t h3]; iexact H3
  · rw [if_neg h3, Dat.leavesExact_idle _ 3 t (idleAt11_3 t h3).1 (idleAt11_3 t h3).2]; iexists _; iexact H3

theorem body_obligation11 (c : Dev nD) : BodyObligation (dat11 (F := F) V c) (defs₀ (F := F)) Variants.none () Set.univ := fun t => by
  rw [bigSep_W11, bigSep_W11]
  exact sound_body11 V c t

end Region

end Cert.KernelIdeal.Gen

end
-- ==== Proof.Seg11.lean ====
import proofs.«124672_j60567628808244_1_alg».proof.Proof.SegLib
import proofs.«124672_j60567628808244_1_alg».proof.Proof.Gcn11Body

noncomputable section

namespace Cert.KernelIdeal.Gen

open Idealize.ShloMosaic

variable {F : FTy → Type} [FloatOps F] (m : (ℓ : Loc nD τ sig) → Buf (Elt F) ℓ) (outs : Outs (F := F))

theorem ok11 (hok : OutsOk m outs) (c : Dev nD) : SegOk m outs (11 : Fin 14) 3 c (W18 m outs c) (W19 m outs c) where
  A := A_eq11 _ c
  inp := by decide
  out := (hok.h11 c).trans (Function.update_self (f := W18 m outs c) _ _).symm
  rest := V19_of m outs c

def reg11 (hok : OutsOk m outs) : Pipeline.RegionSeg (pcfgs (F := F)) adm (pdats m outs) () defs₀ Variants.none Lz lvz (11 : Fin 14) :=
  segOf launch11 (fun c => (body_obligation11 (U18 m outs) c).loose) (ok11 m outs hok)
    (fun c => acc_in (scopedRest11_split c) (fun _ h => absurd rfl h) _) fun c => acc_out (scopedRest11_split c)

end Cert.KernelIdeal.Gen

end
-- ==== Proof.Seg12.lean ====
import proofs.«124672_j60567628808244_1_alg».proof.Proof.SegLib

noncomputable section

namespace Cert.KernelIdeal.Gen

open Idealize.ShloMosaic

variable {F : FTy → Type} [FloatOps F] (m : (ℓ : Loc nD τ sig) → Buf (Elt F) ℓ) (outs : Outs (F := F))

theorem ok12 (hok : OutsOk m outs) (c : Dev nD) : SegOk m outs (12 : Fin 14) 2 c (W19 m outs c) (W20 m outs c) where
  A := A_eq12 _ c
  inp := by decide
  out := (hok.h12 c).trans (Function.update_self (f := W19 m outs c) _ _).symm
  rest := V20_of m outs c

def reg12 (hok : OutsOk m outs) : Pipeline.RegionSeg (pcfgs (F := F)) adm (pdats m outs) () defs₀ Variants.none Lz lvz (12 : Fin 14) :=
  segOf launch12 (fun c => (body_obligation12 (U19 m outs) c).loose) (ok12 m outs hok) (fun _ => dense_in _) fun _ => dense_out

end Cert.KernelIdeal.Gen

end
-- ==== Proof.Gcn13Body.lean ====
import proofs.«124672_j60567628808244_1_alg».proof.Proof.Gcn13Data
import proofs.«124672_j60567628808244_1_alg».proof.Proof.LibView
import Idealize.ShloMosaic.Lib.Tactic

noncomputable section

namespace Cert.KernelIdeal.Gen

open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

abbrev cond13_1 (i : grid13.Coords) : Prop := (Scalar.cmpi .ne (Scalar.extui (Scalar.cmpi .eq (BitVec.ofNat 32 (i 1).val) 0#32)) 0#32) = 1#1
abbrev cond13_2 (i : grid13.Coords) : Prop := k13_cond2 i = 1#1

theorem hcond13_1 : ∀ t : Fin cfg13.N, cond13_1 (grid13.coords t) ↔ t.val % 4 = 0 :=
  (by decide +kernel : ∀ t : Fin grid13.N, cond13_1 (grid13.coords t) ↔ t.val % 4 = 0)
theorem hcond13_2 : ∀ t : Fin cfg13.N, cond13_2 (grid13.coords t) ↔ t.val % 4 = 3 :=
  (by decide +kernel : ∀ t : Fin grid13.N, cond13_2 (grid13.coords t) ↔ t.val % 4 = 3)

/-- One run per kind of point: the accumulator restarts from `a0` and gains the block product; the output is stored only where the second test holds. -/
theorem sound_kernel13 (c : Dev nD) (E : Set ℕ) (i : grid13.Coords) (hx : ¬(cond13_1 i ∧ cond13_2 i))
    (arg2 : Memref sig .tc .vmem S1024x2048 .f32) (harg2 : arg2.IsWhole) (arg3 : Memref sig .tc .vmem S2048x256 .f32) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .f32) (x1 : Vec F S2048x256 .f32) (x2 : Vec F S1x256 .f32) (xo xs a0 o : Vec F S1024x256 .f32) (K : PUnit → sProp 𝕄)
    (h1 : cond13_1 i → a0 = k13_pay1) (h1' : ¬cond13_1 i → a0 = xs)
    (h2 : cond13_2 i → o = k13_pay3 (k13_pay2 x0 x1 a0) x2) (h2' : ¬cond13_2 i → o = xo) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (k13_pay2 x0 x1 a0)) -∗ K ⟨⟩))
      ⊢ wp frame (wpE (defs₀ (F := F)) Variants.none c none) E (cc13__gcn_matmul_kernel i arg2 harg2 arg3 harg3 arg4 harg4 arg5 harg5 arg6 harg6) K := by
  simp only [cc13__gcn_matmul_kernel_eq_skeleton]; unfold cc13__gcn_matmul_kernel_skel owns
  iintro ⟨⟨%f0, %hf0, H0⟩, ⟨%f1, %hf1, H1⟩, ⟨%f2, %hf2, H2⟩, ⟨%fo, %hfo, Ho⟩, ⟨%fs, %hfs, Hs⟩, Hk⟩
  subst hf0 hf1 hf2 hfo hfs
  by_cases hc1 : cond13_1 i <;> by_cases hc2 : cond13_2 i
  · exact absurd ⟨hc1, hc2⟩ hx
  all_goals
    obtain rfl : a0 = _ := by first | exact h1 hc1 | exact h1' hc1
    obtain rfl : o = _ := by first | exact h2 hc2 | exact h2' hc2
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [Ho]
    · iexists _; isplitr
      swap; · iexact Ho
      ipureintro
      first
        | rfl
        | sl_unfold_run_names
          rw [read_writes_cons_unit_zero (S := S1024x256) _ _ zeroOffs, View.readCov_unit_zero (S := S1024x256) _ zeroOffs,
            readAt_unit_zero (S := S1024x2048) _ _ zeroOffs, readAt_unit_zero (S := S2048x256) _ _ zeroOffs,
            readAt_unit_zero (S := S1024x256) _ _ zeroOffs, readAt_unit_zero (S := S1x256) _ _ zeroOffs]
    iexists _; isplitr
    swap; · iexact Hs
    ipureintro
    sl_unfold_run_names
    rw [read_writes_cons_unit_zero (S := S1024x256) _ _ zeroOffs, readAt_unit_zero (S := S1024x2048) _ _ zeroOffs,
      readAt_unit_zero (S := S2048x256) _ _ zeroOffs]
    first
      | rw [View.readCov_unit_zero (S := S1024x256) _ zeroOffs]
      | rw [readAt_unit_zero (S := S1024x256) _ _ zeroOffs]

section Region
variable (V : (c : Dev nD) → (b : Ref sig .tc) → Buf (Elt F) ((c : Thread nD τ).loc b))

theorem before13 (c : Dev nD) (t : Fin cfg13.N) :
    (∀ d, (dat13 V c).before 0 t d = iblk13 V c 0 t) ∧ (∀ d, (dat13 V c).before 1 t d = iblk13 V c 1 t)
      ∧ ∀ d, (dat13 V c).before 2 t d = iblk13 V c 2 t := by
  refine ⟨fun d => ?_, fun d => ?_, fun d => ?_⟩ <;>
    exact ((dat13 V c).before_in_eq_fetched _ rfl (fun _ => rfl) (fun _ _ _ => rfl) (fun _ => rfl) t d).trans rfl

/-- The accumulator's recursion unfolded once, with `f` what the point before left. -/
theorem acc13_eq (c : Dev nD) (t : Fin cfg13.N) (f : Vec F S1024x256 .f32)
    (hf : ∀ h : t.val ≠ 0, f = acc13 V c (t.val - 1) (Nat.lt_of_le_of_lt (Nat.sub_le _ _) t.isLt)) :
    acc13 V c t.val t.isLt = k13_pay2 (iblk13 V c 0 t) (iblk13 V c 1 t) (if t.val % 4 = 0 then k13_pay1 else f) := by
  obtain ⟨n, hn⟩ := t
  cases n with
  | zero => rfl
  | succ n =>
    rw [acc13]
    split
    · rfl
    · rw [hf (Nat.succ_ne_zero n)]; rfl

end Region

theorem idleAt13_3 : ∀ t : Fin cfg13.N, ¬t.val % 4 = 3 → cfg13.idle 3 (grid13.coords t) = true ∧ (cfg13.win 3).flush t = false := by decide +kernel
theorem liveAt13_3 : ∀ t : Fin cfg13.N, t.val % 4 = 3 → cfg13.idle 3 (grid13.coords t) = false := by decide +kernel

section Region
variable (V : (c : Dev nD) → (b : Ref sig .tc) → Buf (Elt F) ((c : Thread nD τ).loc b))

/-- The point's obligation: the invariant hands the accumulator over and takes it back one step later. -/
theorem sound_body13 (c : Dev nD) (t : Fin cfg13.N) :
    iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d))
      ∗ (∃ d, owns (c : Thread nD τ) (st13_3 t) fullShare ((dat13 V c).before 3 t d)))
    ⊢ wp frame (wpE (defs₀ (F := F)) Variants.none c none) Set.univ (bodyAt13 t) (fun _ =>
      iprop((dat13 V c).Φ t.succ ∗ (dat13 V c).owesAt () t.succ
        ∗ (dat13 V c).leavesExact 0 t ∗ (dat13 V c).leavesExact 1 t ∗ (dat13 V c).leavesExact 2 t ∗ (dat13 V c).leavesExact 3 t)) := by
  unfold bodyAt13
  obtain ⟨e0, e1, e2⟩ := before13 V c t
  simp only [e0, e1, e2]
  rw [show (dat13 V c).Φ t.castSucc = Φ13 V c t.castSucc from rfl, show (dat13 V c).Φ t.succ = Φ13 V c t.succ from rfl,
    show (dat13 V c).owesAt () t.succ = (dat13 V c).owesAt () t.castSucc from rfl,
    show (dat13 V c).leavesExact 0 t = owns (c : Thread nD τ) (st13_0 t) fullShare (iblk13 V c 0 t) from rfl,
    show (dat13 V c).leavesExact 1 t = owns (c : Thread nD τ) (st13_1 t) fullShare (iblk13 V c 1 t) from rfl,
    show (dat13 V c).leavesExact 2 t = owns (c : Thread nD τ) (st13_2 t) fullShare (iblk13 V c 2 t) from rfl]
  unfold Φ13
  iintro ⟨⟨HR, Hg, ⟨%f, %hf, HS⟩⟩, Ho, ⟨%d0, H0⟩, ⟨%d1, H1⟩, ⟨%d2, H2⟩, ⟨%d3, H3⟩⟩
  have hacc := acc13_eq V c t f hf
  iapply (sound_kernel13 c Set.univ (grid13.coords t)
    (fun h => by have := (hcond13_1 t).mp h.1; have := (hcond13_2 t).mp h.2; omega) _ _ _ _ _ _ _ _ _ _
    (iblk13 V c 0 t) (iblk13 V c 1 t) (iblk13 V c 2 t) ((dat13 V c).before 3 t d3) f
    (if t.val % 4 = 0 then k13_pay1 else f) (if t.val % 4 = 3 then fin13 V c t else (dat13 V c).before 3 t d3) _
    (fun h => if_pos ((hcond13_1 t).mp h)) (fun h => if_neg fun e => h ((hcond13_1 t).mpr e))
    (fun h => by rw [if_pos ((hcond13_2 t).mp h), ← hacc]; rfl) (fun h => if_neg fun e => h ((hcond13_2 t).mpr e)))
  iframe H0 H1 H2 H3 HS
  iintro ⟨H0, H1, H2, H3, HS⟩
  rw [← hacc]
  isplitl [HR Hg HS]
  · iframe HR Hg
    iexists _; isplitr; swap; · iexact HS
    ipureintro; exact fun _ => rfl
  iframe Ho H0 H1 H2
  by_cases h3 : t.val % 4 = 3
  · rw [if_pos h3]; unfold Dat.leavesExact; rw [liveAt13_3 t h3]; iexact H3
  · rw [if_neg h3, Dat.leavesExact_idle _ 3 t (idleAt13_3 t h3).1 (idleAt13_3 t h3).2]; iexists _; iexact H3

theorem body_obligation13 (c : Dev nD) : BodyObligation (dat13 (F := F) V c) (defs₀ (F := F)) Variants.none () Set.univ := fun t => by
  rw [bigSep_W13, bigSep_W13]
  exact sound_body13 V c t

end Region

end Cert.KernelIdeal.Gen

end
-- ==== Proof.Seg13.lean ====
import proofs.«124672_j60567628808244_1_alg».proof.Proof.SegLib
import proofs.«124672_j60567628808244_1_alg».proof.Proof.Gcn13Body

noncomputable section

namespace Cert.KernelIdeal.Gen

open Idealize.ShloMosaic

variable {F : FTy → Type} [FloatOps F] (m : (ℓ : Loc nD τ sig) → Buf (Elt F) ℓ) (outs : Outs (F := F))

theorem ok13 (hok : OutsOk m outs) (c : Dev nD) : SegOk m outs (13 : Fin 14) 3 c (W21 m outs c) (W22 m outs c) where
  A := A_eq13 _ c
  inp := by decide
  out := (hok.h13 c).trans (Function.update_self (f := W21 m outs c) _ _).symm
  rest := V22_of m outs c

def reg13 (hok : OutsOk m outs) : Pipeline.RegionSeg (pcfgs (F := F)) adm (pdats m outs) () defs₀ Variants.none Lz lvz (13 : Fin 14) :=
  segOf launch13 (fun c => (body_obligation13 (U21 m outs) c).loose) (ok13 m outs hok)
    (fun c => acc_in (scopedRest13_split c) (fun _ h => absurd rfl h) _) fun c => acc_out (scopedRest13_split c)

end Cert.KernelIdeal.Gen

end
-- ==== Proof.Frame.lean ====
import proofs.«124672_j60567628808244_1_alg».proof.Proof.Outs
import proofs.«124672_j60567628808244_1_alg».proof.Proof.Seg0
import proofs.«124672_j60567628808244_1_alg».proof.Proof.Seg1
import proofs.«124672_j60567628808244_1_alg».proof.Proof.Seg2
import proofs.«124672_j60567628808244_1_alg».proof.Proof.Seg3
import proofs.«124672_j60567628808244_1_alg».proof.Proof.Seg4
import proofs.«124672_j60567628808244_1_alg».proof.Proof.Seg5
import proofs.«124672_j60567628808244_1_alg».proof.Proof.Seg6
import proofs.«124672_j60567628808244_1_alg».proof.Proof.Seg7
import proofs.«124672_j60567628808244_1_alg».proof.Proof.Seg8
import proofs.«124672_j60567628808244_1_alg».proof.Proof.Seg9
import proofs.«124672_j60567628808244_1_alg».proof.Proof.Seg10
import proofs.«124672_j60567628808244_1_alg».proof.Proof.Seg11
import proofs.«124672_j60567628808244_1_alg».proof.Proof.Seg12
import proofs.«124672_j60567628808244_1_alg».proof.Proof.Seg13

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's fourteen regions and the steps between them, in order. -/
abbrev sgs := segs m (outs m) Variants.none Lz lvz (fun _ c => Rr (F := F) c) () (pdats m (outs m))
  (reg0 m (outs m) (outsOk m)) (reg1 m (outs m) (outsOk m)) (reg2 m (outs m) (outsOk m)) (reg3 m (outs m) (outsOk m)) (reg4 m (outs m) (outsOk m)) (reg5 m (outs m) (outsOk m)) (reg6 m (outs m) (outsOk m)) (reg7 m (outs m) (outsOk m)) (reg8 m (outs m) (outsOk m)) (reg9 m (outs m) (outsOk m)) (reg10 m (outs m) (outsOk m)) (reg11 m (outs m) (outsOk m)) (reg12 m (outs m) (outsOk m)) (reg13 m (outs m) (outsOk m))

set_option backward.isDefEq.respectTransparency.types false in
/-- The program runs to its end: each region starts from exactly what the item before it left. -/
theorem run_results : θ_run defs (onTc (τ := τ) (main (F := F))) ⟨m, fun _ => 0, ρ⟩ (fun r => ∀ c : Dev nD,
      r.2.mem ((c.tc : Thread nD τ).loc main_v12) = V22 m (outs m) c main_v12
      ∧ r.2.mem ((c.tc : Thread nD τ).loc main_v15) = V22 m (outs m) c main_v15
      ∧ r.2.mem ((c.tc : Thread nD τ).loc main_v18) = V22 m (outs m) c main_v18
      ∧ r.2.mem ((c.tc : Thread nD τ).loc main_v21) = V22 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m (outs m)) () cellOf_inj emb₁ defs₀ Variants.none Lz lvz m ρ main
    (sgs m)
    (fun c Q => by
      rewrite [main_chain c, Seg.run_eq_chain]
      exact .rfl)
    (fun c => by simp only [sgs, segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => s.mem ((c.tc : Thread nD τ).loc main_v12) = V22 m (outs m) c main_v12 ∧ s.mem ((c.tc : Thread nD τ).loc main_v15) = V22 m (outs m) c main_v15 ∧ s.mem ((c.tc : Thread nD τ).loc main_v18) = V22 m (outs m) c main_v18 ∧ s.mem ((c.tc : Thread nD τ).loc main_v21) = V22 m (outs m) c main_v21 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · refine Pipeline.initEach Lz lvz fun c => ?_
    rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V22 m (outs m) c) s') $$ [Hh HSI]
    · isplitl [Hh] <;> iassumption
    icases Hr with ⟨%h, HSI⟩
    imodintro
    isplitr
    · ipureintro
      exact ⟨h _ (mem_uc main_v12 (by decide)),
        h _ (mem_uc main_v15 (by decide)),
        h _ (mem_uc main_v18 (by decide)),
        h _ (mem_uc main_v21 (by decide)),
        (h _ (mem_uc main_arg0 (by decide))).trans (V22_main_arg0 m (outs m) c),
        (h _ (mem_uc main_arg1 (by decide))).trans (V22_main_arg1 m (outs m) c),
        (h _ (mem_uc main_arg2 (by decide))).trans (V22_main_arg2 m (outs m) c),
        (h _ (mem_uc main_arg3 (by decide))).trans (V22_main_arg3 m (outs m) c),
        (h _ (mem_uc main_arg4 (by decide))).trans (V22_main_arg4 m (outs m) c),
        (h _ (mem_uc main_arg5 (by decide))).trans (V22_main_arg5 m (outs m) c),
        (h _ (mem_uc main_arg6 (by decide))).trans (V22_main_arg6 m (outs m) c),
        (h _ (mem_uc main_arg7 (by decide))).trans (V22_main_arg7 m (outs m) c),
        (h _ (mem_uc main_arg8 (by decide))).trans (V22_main_arg8 m (outs m) c)⟩
    · iexact HSI

-- Forgetting the results leaves the statement about the arguments.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2.2.2) (run_results m ρ)

end Cert.KernelIdeal.Gen

end
-- ==== Proof.ValueLib.lean ====
import proofs.«124672_j60567628808244_1_alg».proof.Proof.Spec
import Idealize.ShloMosaic.Lib.Pipeline.Value
import Idealize.ShloMosaic.PureOps.Ideal.Laws

noncomputable section

namespace Cert.KernelIdeal.Gen

open Idealize.ShloMosaic Idealize.ShloMosaic.ValueIdx

section Dot
variable {M K N : ℕ} (wf : DotDims.WF ⟨2, ![M, K]⟩ ⟨2, ![K, N]⟩ ⟨2, ![M, N]⟩ [1] [0] [0] [1] [] [])

/-- Rows by contracted index times contracted index by columns, no batch axis, at any sizes. -/
abbrev dot2 : DotDims ⟨2, ![M, K]⟩ ⟨2, ![K, N]⟩ ⟨2, ![M, N]⟩ := ⟨[1], [0], [0], [1], [], [], wf⟩

/-- Such a product into the zero accumulator is, entry by entry, the sum over the contracted index. -/
theorem matmul_zero_ix2 {φ₁ φ₂ : FTy} (a : FVec Ideal ⟨2, ![M, K]⟩ φ₁) (s : FVec Ideal ⟨2, ![K, N]⟩ φ₂) (p : Fin M) (q : Fin N) :
    FloatOps.matmul (dot2 wf) none a s (constant ⟨2, ![M, N]⟩ .f32 0x00000000#32) (ix2 p q)
      = ∑ j : Fin K, a (ix2 p j) * s (ix2 j q) := by
  rw [Ideal.matmul_constant_zero_apply, ← Equiv.sum_comp (contrEquiv1 (dot2 wf) K rfl rfl).symm]
  refine Finset.sum_congr rfl fun k _ => ?_
  have el : (dot2 wf).lhsIdx (ix2 p q) ((contrEquiv1 (dot2 wf) K rfl rfl).symm k) = ix2 p k := Shape.idx_ext₂ rfl rfl
  have er : (dot2 wf).rhsIdx (ix2 p q) ((contrEquiv1 (dot2 wf) K rfl rfl).symm k) = ix2 k q := Shape.idx_ext₂ rfl rfl
  rw [el, er]

end Dot

section Blocks
variable {R C : ℕ} (n b : ℕ)

theorem blk_lt {k j : ℕ} (hk : k < n) (hj : j < b) : k * b + j < n * b :=
  Nat.lt_of_lt_of_le (Nat.add_lt_add_left hj _) (Nat.succ_mul k b ▸ Nat.mul_le_mul_right b hk)

/-- Block `k` of the contracted sum at row `r` and column `q`, zero past the last block. -/
def part (A : Cert.Spec.Mat R (n * b)) (S : Cert.Spec.Mat (n * b) C) (r : Fin R) (q : Fin C) (k : ℕ) : EReal :=
  if h : k < n then ∑ j : Fin b, A (ix2 r ⟨k * b + j.val, blk_lt n b h j.isLt⟩) * S (ix2 ⟨k * b + j.val, blk_lt n b h j.isLt⟩ q)
  else 0

/-- The blocks together are the whole contracted sum. -/
theorem parts_eq (A : Cert.Spec.Mat R (n * b)) (S : Cert.Spec.Mat (n * b) C) (r : Fin R) (q : Fin C) :
    ∑ k ∈ Finset.range n, part n b A S r q k = Cert.Spec.mm A S (ix2 r q) := by
  unfold Cert.Spec.mm
  show _ = ∑ k : Fin (n * b), A (ix2 r k) * S (ix2 k q)
  rw [Finset.sum_range, Cert.Spec.sum_blocks fun k : Fin (n * b) => A (ix2 r k) * S (ix2 k q)]
  refine Finset.sum_congr rfl fun k _ => ?_
  unfold part
  rw [dif_pos k.isLt]

end Blocks

section Acc
variable {N C : ℕ} {A : Cert.Spec.Mat 8192 8192} {S : Cert.Spec.Mat 8192 C}
  {L : Fin N → Cert.Spec.Mat 1024 2048} {B : Fin N → Cert.Spec.Mat 2048 C} {Z : Cert.Spec.Mat 1024 C}
  {step : Cert.Spec.Mat 1024 2048 → Cert.Spec.Mat 2048 C → Cert.Spec.Mat 1024 C → Cert.Spec.Mat 1024 C}
  (acc : (n : ℕ) → n < N → Cert.Spec.Mat 1024 C)
  (hZ : ∀ y, Z y = 0)
  (hstep : ∀ a s x p q, step a s x (ix2 p q) = x (ix2 p q) + ∑ j : Fin 2048, a (ix2 p j) * s (ix2 j q))
  (hL : ∀ t p j (r k : Fin 8192), r.val = t.val / 4 * 1024 + p.val → k.val = t.val % 4 * 2048 + j.val → L t (ix2 p j) = A (ix2 r k))
  (hB : ∀ t j q (k : Fin 8192), k.val = t.val % 4 * 2048 + j.val → B t (ix2 j q) = S (ix2 k q))
  (h0 : ∀ h, acc 0 h = step (L ⟨0, h⟩) (B ⟨0, h⟩) Z)
  (hs : ∀ n h, acc (n + 1) h = step (L ⟨n + 1, h⟩) (B ⟨n + 1, h⟩) (if (n + 1) % 4 = 0 then Z else acc n (Nat.lt_of_succ_lt h)))
include hstep hL hB

/-- One step adds block `t % 4` of the contracted sum of array row `(t / 4) · 1024 + p`. -/
theorem step_part (t : Fin N) (x : Cert.Spec.Mat 1024 C) (p : Fin 1024) (q : Fin C) (r : Fin 8192) (hr : r.val = t.val / 4 * 1024 + p.val) :
    step (L t) (B t) x (ix2 p q) = x (ix2 p q) + part 4 2048 A S r q (t.val % 4) := by
  rw [hstep]
  unfold part
  rw [dif_pos (Nat.mod_lt _ (by decide))]
  exact congrArg _ (Finset.sum_congr rfl fun j _ => congrArg₂ (· * ·) (hL t p j r _ hr rfl) (hB t j q _ rfl))

include hZ h0 hs

/-- A sum restarted from zero every fourth point and grown by one block per point holds blocks `0 … n % 4` after point `n`. -/
theorem acc_parts : ∀ (n : ℕ) (h : n < N) (p : Fin 1024) (q : Fin C) (r : Fin 8192), r.val = n / 4 * 1024 + p.val →
    acc n h (ix2 p q) = ∑ k ∈ Finset.range (n % 4 + 1), part 4 2048 A S r q k
  | 0, h, p, q, r, hr => by
    rw [h0, step_part hstep hL hB ⟨0, h⟩ _ p q r hr, hZ, zero_add]
    exact (Finset.sum_range_one _).symm
  | n + 1, h, p, q, r, hr => by
    rw [hs, step_part hstep hL hB ⟨n + 1, h⟩ _ p q r hr]
    show _ + part _ _ _ _ r q ((n + 1) % 4) = _
    by_cases h4 : (n + 1) % 4 = 0
    · rw [if_pos h4, hZ, zero_add, h4, Finset.sum_range_one]
    · rw [if_neg h4, acc_parts n (Nat.lt_of_succ_lt h) p q r (by omega), show (n + 1) % 4 = n % 4 + 1 by omega]
      exact (Finset.sum_range_succ _ _).symm

/-- At the last point of a row block the sum is the whole contracted sum. -/
theorem acc_mm (n : ℕ) (h : n < N) (h3 : n % 4 = 3) (p : Fin 1024) (q : Fin C) (r : Fin 8192) (hr : r.val = n / 4 * 1024 + p.val) :
    acc n h (ix2 p q) = Cert.Spec.mm A S (ix2 r q) := by
  rw [acc_parts acc hZ hstep hL hB h0 hs n h p q r hr, h3, parts_eq]

end Acc

/-- The zero offsets, as the constant function. -/
theorem zero_offsets : (![0, 0] : Fin 2 → Nat) = fun _ => 0 :=
  funext fun a => match a with | ⟨0, _⟩ => rfl | ⟨1, _⟩ => rfl

end Cert.KernelIdeal.Gen

end
-- ==== Proof.DenseValue0.lean ====
import proofs.«124672_j60567628808244_1_alg».proof.Proof.Dense0
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod0_apply (x0 : Vec Ideal S1024x512 .f32) (x1 : Vec Ideal S512x512 .f32) (p : Fin 1024) (q : Fin 512) :
    k0_pay1 (F := Ideal) x0 x1 (ix2 p q) = ∑ k : Fin 512, x0 (ix2 p k) * x1 (ix2 k q) :=
  matmul_zero_ix2 _ _ _ p q

theorem idx_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region
variable (V : (c : Dev nD) → (b : Ref sig .tc) → Buf (Elt Ideal) ((c : Thread nD τ).loc b))

/-- A point stores its row block of the product: row `p` of the block is row `t · 1024 + p` of the array. -/
theorem flushed0_eq (c : Dev nD) (t : Fin cfg0.N) :
    (dat0 (F := Ideal) V c).flushed 2 t = ((cfg0.win 2).blk t).view.read (Elt Ideal) (Cert.Spec.mm (V c main_arg0) (V c main_arg5)) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x512) zero_offsets]
  obtain ⟨e0, e1, e2, e3, e4, e5⟩ := idx_maps0 t
  funext j
  obtain ⟨p, q, rfl⟩ : ∃ (p : Fin 1024) (q : Fin 512), j = ix2 p q := ⟨j 0, j 1, eq_ix2 j⟩
  show _ = Cert.Spec.mm (V c main_arg0) (V c main_arg5) _
  refine (prod0_apply _ _ p q).trans (Finset.sum_congr rfl fun k _ => congrArg₂ (· * ·) ?_ ?_)
  · show V c main_arg0 _ = V c main_arg0 _
    refine congrArg _ (Shape.idx_ext₂ ?_ ?_)
    · show win0_0.index t (0 : Fin 2) * 1024 + 1 * p.val = win0_2.index t (0 : Fin 2) * 1024 + 1 * p.val; omega
    · show win0_0.index t (1 : Fin 2) * 512 + 1 * k.val = k.val; omega
  · show V c main_arg5 _ = V c main_arg5 _
    refine congrArg _ (Shape.idx_ext₂ ?_ ?_)
    · show win0_1.index t (0 : Fin 2) * 512 + 1 * k.val = k.val; omega
    · show win0_1.index t (1 : Fin 2) * 512 + 1 * q.val = win0_2.index t (1 : Fin 2) * 512 + 1 * q.val; omega

end Region

/-- Row `r` lies in the block of point `r / 1024`. -/
theorem cover0 (i : S8192x512.Idx) : ∃ t : Fin cfg0.N, (cfg0.win 2).flush t = true ∧ i ∈ ((cfg0.win 2).blk t).view.set := by
  have h0 := idx2_lt0 i
  have h1 := idx2_lt1 i
  have hN : cfg0.N = 8 := rfl
  obtain ⟨t, ht⟩ : ∃ t : Fin cfg0.N, t.val = (i 0).val / 1024 := ⟨⟨(i 0).val / 1024, by omega⟩, rfl⟩
  obtain ⟨-, -, -, -, e4, e5⟩ := idx_maps0 t
  refine ⟨t, flush0_2 _, ?_⟩
  show i ∈ ((View.whole main_v0).slice (win0_2.rect t)).set
  rw [View.set_slice_whole, Rect.mem_set_unit]
  refine Fin.forall_fin_two.mpr ⟨?_, ?_⟩
  · show win0_2.index t (0 : Fin 2) * 1024 ≤ (i 0).val ∧ (i 0).val < win0_2.index t (0 : Fin 2) * 1024 + 1024; omega
  · show win0_2.index t (1 : Fin 2) * 512 ≤ (i 1).val ∧ (i 1).val < win0_2.index t (1 : Fin 2) * 512 + 512; omega

theorem arr0 (V : (c : Dev nD) → (b : Ref sig .tc) → Buf (Elt Ideal) ((c : Thread nD τ).loc b)) (c : Dev nD) :
    (dat0 (F := Ideal) V c).arrAt 2 cfg0.N = Cert.Spec.mm (V c main_arg0) (V c main_arg5) :=
  (dat0 (F := Ideal) V c).arrAt_eq_of_cover 2 _ (fun t _ => flushed0_eq V c t) cover0

end Cert.KernelIdeal.Gen

end
-- ==== Proof.DenseValue1.lean ====
import proofs.«124672_j60567628808244_1_alg».proof.Proof.Dense1
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod1_apply (x0 : Vec Ideal S1024x512 .f32) (x1 : Vec Ideal S512x512 .f32) (p : Fin 1024) (q : Fin 512) :
    k1_pay1 (F := Ideal) x0 x1 (ix2 p q) = ∑ k : Fin 512, x0 (ix2 p k) * x1 (ix2 k q) :=
  matmul_zero_ix2 _ _ _ p q

theorem idx_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region
variable (V : (c : Dev nD) → (b : Ref sig .tc) → Buf (Elt Ideal) ((c : Thread nD τ).loc b))

/-- A point stores its row block of the product: row `p` of the block is row `t · 1024 + p` of the array. -/
theorem flushed1_eq (c : Dev nD) (t : Fin cfg1.N) :
    (dat1 (F := Ideal) V c).flushed 2 t = ((cfg1.win 2).blk t).view.read (Elt Ideal) (Cert.Spec.mm (V c main_arg1) (V c main_arg5)) := by
  show (cfg1.win 2).cut (grid1.coords t) ((dat1 V c).after 2 t) = _
  rw [after1_2]
  unfold out1_2
  rw [View.canon_unit_zero zero_offsets]
  simp only [View.ld_unit_zero (S := S1024x512) zero_offsets, View.ld_unit_zero (S := S512x512) zero_offsets]
  obtain ⟨e0, e1, e2, e3, e4, e5⟩ := idx_maps1 t
  funext j
  obtain ⟨p, q, rfl⟩ : ∃ (p : Fin 1024) (q : Fin 512), j = ix2 p q := ⟨j 0, j 1, eq_ix2 j⟩
  show _ = Cert.Spec.mm (V c main_arg1) (V c main_arg5) _
  refine (prod1_apply _ _ p q).trans (Finset.sum_congr rfl fun k _ => congrArg₂ (· * ·) ?_ ?_)
  · show V c main_arg1 _ = V c main_arg1 _
    refine congrArg _ (Shape.idx_ext₂ ?_ ?_)
    · show win1_0.index t (0 : Fin 2) * 1024 + 1 * p.val = win1_2.index t (0 : Fin 2) * 1024 + 1 * p.val; omega
    · show win1_0.index t (1 : Fin 2) * 512 + 1 * k.val = k.val; omega
  · show V c main_arg5 _ = V c main_arg5 _
    refine congrArg _ (Shape.idx_ext₂ ?_ ?_)
    · show win1_1.index t (0 : Fin 2) * 512 + 1 * k.val = k.val; omega
    · show win1_1.index t (1 : Fin 2) * 512 + 1 * q.val = win1_2.index t (1 : Fin 2) * 512 + 1 * q.val; omega

end Region

/-- Row `r` lies in the block of point `r / 1024`. -/
theorem cover1 (i : S8192x512.Idx) : ∃ t : Fin cfg1.N, (cfg1.win 2).flush t = true ∧ i ∈ ((cfg1.win 2).blk t).view.set := by
  have h0 := idx2_lt0 i
  have h1 := idx2_lt1 i
  have hN : cfg1.N = 8 := rfl
  obtain ⟨t, ht⟩ : ∃ t : Fin cfg1.N, t.val = (i 0).val / 1024 := ⟨⟨(i 0).val / 1024, by omega⟩, rfl⟩
  obtain ⟨-, -, -, -, e4, e5⟩ := idx_maps1 t
  refine ⟨t, flush1_2 _, ?_⟩
  show i ∈ ((View.whole main_v1).slice (win1_2.rect t)).set
  rw [View.set_slice_whole, Rect.mem_set_unit]
  refine Fin.forall_fin_two.mpr ⟨?_, ?_⟩
  · show win1_2.index t (0 : Fin 2) * 1024 ≤ (i 0).val ∧ (i 0).val < win1_2.index t (0 : Fin 2) * 1024 + 1024; omega
  · show win1_2.index t (1 : Fin 2) * 512 ≤ (i 1).val ∧ (i 1).val < win1_2.index t (1 : Fin 2) * 512 + 512; omega

theorem arr1 (V : (c : Dev nD) → (b : Ref sig .tc) → Buf (Elt Ideal) ((c : Thread nD τ).loc b)) (c : Dev nD) :
    (dat1 (F := Ideal) V c).arrAt 2 cfg1.N = Cert.Spec.mm (V c main_arg1) (V c main_arg5) :=
  (dat1 (F := Ideal) V c).arrAt_eq_of_cover 2 _ (fun t _ => flushed1_eq V c t) cover1

end Cert.KernelIdeal.Gen

end
-- ==== Proof.GcnValue2.lean ====
import proofs.«124672_j60567628808244_1_alg».proof.Proof.Gcn2Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset2_apply (y : S1024x512.Idx) : (k2_pay1 (F := Ideal)) y = 0 := by
  unfold k2_pay1
  rw [shapeCast_self]
  exact Ideal.ofBits_zero_f32

theorem step2_apply (a : Vec Ideal S1024x2048 .f32) (s : Vec Ideal S2048x512 .f32) (acc : Vec Ideal S1024x512 .f32) (p : Fin 1024) (q : Fin 512) :
    k2_pay2 a s acc (ix2 p q) = acc (ix2 p q) + ∑ j : Fin 2048, a (ix2 p j) * s (ix2 j q) := by
  unfold k2_pay2
  rw [shapeCast_self, shapeCast_self, addf_apply]
  exact congrArg _ (matmul_zero_ix2 _ _ _ p q)

theorem store2_apply (acc : Vec Ideal S1024x512 .f32) (b : Vec Ideal S1x512 .f32) (p : Fin 1024) (q : Fin 512) :
    k2_pay3 acc b (ix2 p q) = max (acc (ix2 p q) + b (ix2 0 q)) 0 := by
  unfold k2_pay3
  rw [shapeCast_self, maximumf_apply, addf_apply, broadcast_apply, broadcastTo_1b_ab_apply]
  exact congrArg _ Ideal.ofBits_zero_f32

section Region
variable (V : (c : Dev nD) → (b : Ref sig .tc) → Buf (Elt Ideal) ((c : Thread nD τ).loc b))

/-- The block indices at point `t`: row block `t / 4`, contracted block `t % 4`. -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

theorem lblk2_apply (c : Dev nD) (t : Fin cfg2.N) (p : Fin 1024) (j : Fin 2048) (r k : Fin 8192)
    (hr : r.val = t.val / 4 * 1024 + p.val) (hk : k.val = t.val % 4 * 2048 + j.val) :
    (iblk2 V c 0 t : Vec Ideal S1024x2048 .f32) (ix2 p j) = (V c main_arg2 : Cert.Spec.Mat 8192 8192) (ix2 r k) := by
  obtain ⟨e0, e1, -⟩ := idx2 t
  show V c main_arg2 _ = V c main_arg2 _
  refine congrArg _ (Shape.idx_ext₂ ?_ ?_)
  · show win2_0.index t (0 : Fin 2) * 1024 + 1 * p.val = r.val; omega
  · show win2_0.index t (1 : Fin 2) * 2048 + 1 * j.val = k.val; omega

theorem rblk2_apply (c : Dev nD) (t : Fin cfg2.N) (j : Fin 2048) (q : Fin 512) (k : Fin 8192)
    (hk : k.val = t.val % 4 * 2048 + j.val) :
    (iblk2 V c 1 t : Vec Ideal S2048x512 .f32) (ix2 j q) = (V c main_v0 : Cert.Spec.Mat 8192 512) (ix2 k q) := by
  obtain ⟨-, -, e0, e1, -⟩ := idx2 t
  show V c main_v0 _ = V c main_v0 _
  refine congrArg _ (Shape.idx_ext₂ ?_ ?_)
  · show win2_1.index t (0 : Fin 2) * 2048 + 1 * j.val = k.val; omega
  · show win2_1.index t (1 : Fin 2) * 512 + 1 * q.val = q.val; omega

/-- At the last point of a row block the stored block is that row block of the result. -/
theorem flushed2_eq (c : Dev nD) (t : Fin cfg2.N) (hf : (cfg2.win 3).flush t = true) :
    (dat2 V c).flushed 3 t = ((cfg2.win 3).blk t).view.read (Elt Ideal)
      (Cert.Spec.relu (Cert.Spec.addRow2 (Cert.Spec.mm (V c main_arg2) (V c main_v0)) (V c main_v2))) := by
  have h3 : t.val % 4 = 3 := (flush2_3 t).mp hf
  have hN : cfg2.N = 32 := N_2
  have ht := t.isLt
  obtain ⟨-, -, -, -, e4, e5, e0, e1⟩ := idx2 t
  funext y
  obtain ⟨p, q, rfl⟩ : ∃ (p : Fin 1024) (q : Fin 512), y = ix2 p q := ⟨y 0, y 1, eq_ix2 y⟩
  have hemb : ((cfg2.win 3).blk t).view.emb (ix2 p q)
      = (ix2 (⟨t.val / 4 * 1024 + p.val, by omega⟩ : Fin 8192) q : S8192x512.Idx) := Shape.idx_ext₂
    (by show win2_3.index t (0 : Fin 2) * 1024 + 1 * p.val = t.val / 4 * 1024 + p.val; omega)
    (by show win2_3.index t (1 : Fin 2) * 512 + 1 * q.val = q.val; omega)
  have hb : (iblk2 V c 2 t : Vec Ideal S1x512 .f32) (ix2 0 q) = (V c main_v2 : Cert.Spec.Mat 1 512) (ix2 0 q) := by
    show V c main_v2 _ = V c main_v2 _
    refine congrArg _ (Shape.idx_ext₂ ?_ ?_)
    · show win2_2.index t (0 : Fin 2) * 1 + 1 * 0 = 0; omega
    · show win2_2.index t (1 : Fin 2) * 512 + 1 * q.val = q.val; omega
  show k2_pay3 (acc2 V c t.val t.isLt) (iblk2 V c 2 t) (ix2 p q) = Cert.Spec.relu _ (((cfg2.win 3).blk t).view.emb (ix2 p q))
  rw [hemb, store2_apply, hb, acc_mm (acc2 V c) reset2_apply step2_apply (lblk2_apply V c) (rblk2_apply V c) (fun _ => rfl) (fun _ _ => rfl)
    t.val t.isLt h3 p q ⟨t.val / 4 * 1024 + p.val, by omega⟩ rfl]
  rfl

/-- Row `r` lies in the block written back at point `4 · (r / 1024) + 3`. -/
theorem cover2 (i : S8192x512.Idx) :
    ∃ t : Fin cfg2.N, (cfg2.win 3).flush t = true ∧ i ∈ ((cfg2.win 3).blk t).view.set := by
  have hN : cfg2.N = 32 := N_2
  have h0 := idx2_lt0 i
  have h1 := idx2_lt1 i
  obtain ⟨t, ht⟩ : ∃ t : Fin cfg2.N, t.val = 4 * ((i 0).val / 1024) + 3 := ⟨⟨4 * ((i 0).val / 1024) + 3, by omega⟩, rfl⟩
  obtain ⟨-, -, -, -, -, -, e0, e1⟩ := idx2 t
  refine ⟨t, (flush2_3 t).mpr (by omega), ?_⟩
  show i ∈ ((View.whole main_v3).slice (win2_3.rect t)).set
  rw [View.set_slice_whole, Rect.mem_set_unit]
  refine Fin.forall_fin_two.mpr ⟨?_, ?_⟩
  · show win2_3.index t (0 : Fin 2) * 1024 ≤ (i 0).val ∧ (i 0).val < win2_3.index t (0 : Fin 2) * 1024 + 1024; omega
  · show win2_3.index t (1 : Fin 2) * 512 ≤ (i 1).val ∧ (i 1).val < win2_3.index t (1 : Fin 2) * 512 + 512; omega

theorem arr2 (c : Dev nD) :
    (dat2 (F := Ideal) V c).arrAt 3 cfg2.N
      = Cert.Spec.relu (Cert.Spec.addRow2 (Cert.Spec.mm (V c main_arg2) (V c main_v0)) (V c main_v2)) :=
  (dat2 V c).arrAt_eq_of_cover 3 _ (flushed2_eq V c) cover2

end Region

end Cert.KernelIdeal.Gen

end
-- ==== Proof.GcnValue3.lean ====
import proofs.«124672_j60567628808244_1_alg».proof.Proof.Gcn3Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset3_apply (y : S1024x512.Idx) : (k3_pay1 (F := Ideal)) y = 0 := by
  unfold k3_pay1
  rw [shapeCast_self]
  exact Ideal.ofBits_zero_f32

theorem step3_apply (a : Vec Ideal S1024x2048 .f32) (s : Vec Ideal S2048x512 .f32) (acc : Vec Ideal S1024x512 .f32) (p : Fin 1024) (q : Fin 512) :
    k3_pay2 a s acc (ix2 p q) = acc (ix2 p q) + ∑ j : Fin 2048, a (ix2 p j) * s (ix2 j q) := by
  unfold k3_pay2
  rw [shapeCast_self, shapeCast_self, addf_apply]
  exact congrArg _ (matmul_zero_ix2 _ _ _ p q)

theorem store3_apply (acc : Vec Ideal S1024x512 .f32) (b : Vec Ideal S1x512 .f32) (p : Fin 1024) (q : Fin 512) :
    k3_pay3 acc b (ix2 p q) = max (acc (ix2 p q) + b (ix2 0 q)) 0 := by
  unfold k3_pay3
  rw [shapeCast_self, maximumf_apply, addf_apply, broadcast_apply, broadcastTo_1b_ab_apply]
  exact congrArg _ Ideal.ofBits_zero_f32

section Region
variable (V : (c : Dev nD) → (b : Ref sig .tc) → Buf (Elt Ideal) ((c : Thread nD τ).loc b))

/-- The block indices at point `t`: row block `t / 4`, contracted block `t % 4`. -/
theorem idx3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

theorem lblk3_apply (c : Dev nD) (t : Fin cfg3.N) (p : Fin 1024) (j : Fin 2048) (r k : Fin 8192)
    (hr : r.val = t.val / 4 * 1024 + p.val) (hk : k.val = t.val % 4 * 2048 + j.val) :
    (iblk3 V c 0 t : Vec Ideal S1024x2048 .f32) (ix2 p j) = (V c main_arg2 : Cert.Spec.Mat 8192 8192) (ix2 r k) := by
  obtain ⟨e0, e1, -⟩ := idx3 t
  show V c main_arg2 _ = V c main_arg2 _
  refine congrArg _ (Shape.idx_ext₂ ?_ ?_)
  · show win3_0.index t (0 : Fin 2) * 1024 + 1 * p.val = r.val; omega
  · show win3_0.index t (1 : Fin 2) * 2048 + 1 * j.val = k.val; omega

theorem rblk3_apply (c : Dev nD) (t : Fin cfg3.N) (j : Fin 2048) (q : Fin 512) (k : Fin 8192)
    (hk : k.val = t.val % 4 * 2048 + j.val) :
    (iblk3 V c 1 t : Vec Ideal S2048x512 .f32) (ix2 j q) = (V c main_v1 : Cert.Spec.Mat 8192 512) (ix2 k q) := by
  obtain ⟨-, -, e0, e1, -⟩ := idx3 t
  show V c main_v1 _ = V c main_v1 _
  refine congrArg _ (Shape.idx_ext₂ ?_ ?_)
  · show win3_1.index t (0 : Fin 2) * 2048 + 1 * j.val = k.val; omega
  · show win3_1.index t (1 : Fin 2) * 512 + 1 * q.val = q.val; omega

/-- At the last point of a row block the stored block is that row block of the result. -/
theorem flushed3_eq (c : Dev nD) (t : Fin cfg3.N) (hf : (cfg3.win 3).flush t = true) :
    (dat3 V c).flushed 3 t = ((cfg3.win 3).blk t).view.read (Elt Ideal)
      (Cert.Spec.relu (Cert.Spec.addRow2 (Cert.Spec.mm (V c main_arg2) (V c main_v1)) (V c main_v4))) := by
  have h3 : t.val % 4 = 3 := (flush3_3 t).mp hf
  have hN : cfg3.N = 32 := N_3
  have ht := t.isLt
  obtain ⟨-, -, -, -, e4, e5, e0, e1⟩ := idx3 t
  funext y
  obtain ⟨p, q, rfl⟩ : ∃ (p : Fin 1024) (q : Fin 512), y = ix2 p q := ⟨y 0, y 1, eq_ix2 y⟩
  have hemb : ((cfg3.win 3).blk t).view.emb (ix2 p q)
      = (ix2 (⟨t.val / 4 * 1024 + p.val, by omega⟩ : Fin 8192) q : S8192x512.Idx) := Shape.idx_ext₂
    (by show win3_3.index t (0 : Fin 2) * 1024 + 1 * p.val = t.val / 4 * 1024 + p.val; omega)
    (by show win3_3.index t (1 : Fin 2) * 512 + 1 * q.val = q.val; omega)
  have hb : (iblk3 V c 2 t : Vec Ideal S1x512 .f32) (ix2 0 q) = (V c main_v4 : Cert.Spec.Mat 1 512) (ix2 0 q) := by
    show V c main_v4 _ = V c main_v4 _
    refine congrArg _ (Shape.idx_ext₂ ?_ ?_)
    · show win3_2.index t (0 : Fin 2) * 1 + 1 * 0 = 0; omega
    · show win3_2.index t (1 : Fin 2) * 512 + 1 * q.val = q.val; omega
  show k3_pay3 (acc3 V c t.val t.isLt) (iblk3 V c 2 t) (ix2 p q) = Cert.Spec.relu _ (((cfg3.win 3).blk t).view.emb (ix2 p q))
  rw [hemb, store3_apply, hb, acc_mm (acc3 V c) reset3_apply step3_apply (lblk3_apply V c) (rblk3_apply V c) (fun _ => rfl) (fun _ _ => rfl)
    t.val t.isLt h3 p q ⟨t.val / 4 * 1024 + p.val, by omega⟩ rfl]
  rfl

/-- Row `r` lies in the block written back at point `4 · (r / 1024) + 3`. -/
theorem cover3 (i : S8192x512.Idx) :
    ∃ t : Fin cfg3.N, (cfg3.win 3).flush t = true ∧ i ∈ ((cfg3.win 3).blk t).view.set := by
  have hN : cfg3.N = 32 := N_3
  have h0 := idx2_lt0 i
  have h1 := idx2_lt1 i
  obtain ⟨t, ht⟩ : ∃ t : Fin cfg3.N, t.val = 4 * ((i 0).val / 1024) + 3 := ⟨⟨4 * ((i 0).val / 1024) + 3, by omega⟩, rfl⟩
  obtain ⟨-, -, -, -, -, -, e0, e1⟩ := idx3 t
  refine ⟨t, (flush3_3 t).mpr (by omega), ?_⟩
  show i ∈ ((View.whole main_v5).slice (win3_3.rect t)).set
  rw [View.set_slice_whole, Rect.mem_set_unit]
  refine Fin.forall_fin_two.mpr ⟨?_, ?_⟩
  · show win3_3.index t (0 : Fin 2) * 1024 ≤ (i 0).val ∧ (i 0).val < win3_3.index t (0 : Fin 2) * 1024 + 1024; omega
  · show win3_3.index t (1 : Fin 2) * 512 ≤ (i 1).val ∧ (i 1).val < win3_3.index t (1 : Fin 2) * 512 + 512; omega

theorem arr3 (c : Dev nD) :
    (dat3 (F := Ideal) V c).arrAt 3 cfg3.N
      = Cert.Spec.relu (Cert.Spec.addRow2 (Cert.Spec.mm (V c main_arg2) (V c main_v1)) (V c main_v4)) :=
  (dat3 V c).arrAt_eq_of_cover 3 _ (flushed3_eq V c) cover3

end Region

end Cert.KernelIdeal.Gen

end
-- ==== Proof.GcnValue4.lean ====
import proofs.«124672_j60567628808244_1_alg».proof.Proof.Gcn4Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset4_apply (y : S1024x512.Idx) : (k4_pay1 (F := Ideal)) y = 0 := by
  unfold k4_pay1
  rw [shapeCast_self]
  exact Ideal.ofBits_zero_f32

theorem step4_apply (a : Vec Ideal S1024x2048 .f32) (s : Vec Ideal S2048x512 .f32) (acc : Vec Ideal S1024x512 .f32) (p : Fin 1024) (q : Fin 512) :
    k4_pay2 a s acc (ix2 p q) = acc (ix2 p q) + ∑ j : Fin 2048, a (ix2 p j) * s (ix2 j q) := by
  unfold k4_pay2
  rw [shapeCast_self, shapeCast_self, addf_apply]
  exact congrArg _ (matmul_zero_ix2 _ _ _ p q)

theorem store4_apply (acc : Vec Ideal S1024x512 .f32) (b : Vec Ideal S1x512 .f32) (p : Fin 1024) (q : Fin 512) :
    k4_pay3 acc b (ix2 p q) = max (acc (ix2 p q) + b (ix2 0 q)) 0 := by
  unfold k4_pay3
  rw [shapeCast_self, maximumf_apply, addf_apply, broadcast_apply, broadcastTo_1b_ab_apply]
  exact congrArg _ Ideal.ofBits_zero_f32

section Region
variable (V : (c : Dev nD) → (b : Ref sig .tc) → Buf (Elt Ideal) ((c : Thread nD τ).loc b))

/-- The block indices at point `t`: row block `t / 4`, contracted block `t % 4`. -/
theorem idx4 : ∀ t : Fin cfg4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = 0 ∧ win4_2.index t (1 : Fin 2) = 0
    ∧ win4_3.index t (0 : Fin 2) = t.val / 4 ∧ win4_3.index t (1 : Fin 2) = 0 :=
  (by decide +kernel : ∀ t : Fin grid4.N, _)

theorem lblk4_apply (c : Dev nD) (t : Fin cfg4.N) (p : Fin 1024) (j : Fin 2048) (r k : Fin 8192)
    (hr : r.val = t.val / 4 * 1024 + p.val) (hk : k.val = t.val % 4 * 2048 + j.val) :
    (iblk4 V c 0 t : Vec Ideal S1024x2048 .f32) (ix2 p j) = (V c main_arg3 : Cert.Spec.Mat 8192 8192) (ix2 r k) := by
  obtain ⟨e0, e1, -⟩ := idx4 t
  show V c main_arg3 _ = V c main_arg3 _
  refine congrArg _ (Shape.idx_ext₂ ?_ ?_)
  · show win4_0.index t (0 : Fin 2) * 1024 + 1 * p.val = r.val; omega
  · show win4_0.index t (1 : Fin 2) * 2048 + 1 * j.val = k.val; omega

theorem rblk4_apply (c : Dev nD) (t : Fin cfg4.N) (j : Fin 2048) (q : Fin 512) (k : Fin 8192)
    (hk : k.val = t.val % 4 * 2048 + j.val) :
    (iblk4 V c 1 t : Vec Ideal S2048x512 .f32) (ix2 j q) = (V c main_v0 : Cert.Spec.Mat 8192 512) (ix2 k q) := by
  obtain ⟨-, -, e0, e1, -⟩ := idx4 t
  show V c main_v0 _ = V c main_v0 _
  refine congrArg _ (Shape.idx_ext₂ ?_ ?_)
  · show win4_1.index t (0 : Fin 2) * 2048 + 1 * j.val = k.val; omega
  · show win4_1.index t (1 : Fin 2) * 512 + 1 * q.val = q.val; omega

/-- At the last point of a row block the stored block is that row block of the result. -/
theorem flushed4_eq (c : Dev nD) (t : Fin cfg4.N) (hf : (cfg4.win 3).flush t = true) :
    (dat4 V c).flushed 3 t = ((cfg4.win 3).blk t).view.read (Elt Ideal)
      (Cert.Spec.relu (Cert.Spec.addRow2 (Cert.Spec.mm (V c main_arg3) (V c main_v0)) (V c main_v6))) := by
  have h3 : t.val % 4 = 3 := (flush4_3 t).mp hf
  have hN : cfg4.N = 32 := N_4
  have ht := t.isLt
  obtain ⟨-, -, -, -, e4, e5, e0, e1⟩ := idx4 t
  funext y
  obtain ⟨p, q, rfl⟩ : ∃ (p : Fin 1024) (q : Fin 512), y = ix2 p q := ⟨y 0, y 1, eq_ix2 y⟩
  have hemb : ((cfg4.win 3).blk t).view.emb (ix2 p q)
      = (ix2 (⟨t.val / 4 * 1024 + p.val, by omega⟩ : Fin 8192) q : S8192x512.Idx) := Shape.idx_ext₂
    (by show win4_3.index t (0 : Fin 2) * 1024 + 1 * p.val = t.val / 4 * 1024 + p.val; omega)
    (by show win4_3.index t (1 : Fin 2) * 512 + 1 * q.val = q.val; omega)
  have hb : (iblk4 V c 2 t : Vec Ideal S1x512 .f32) (ix2 0 q) = (V c main_v6 : Cert.Spec.Mat 1 512) (ix2 0 q) := by
    show V c main_v6 _ = V c main_v6 _
    refine congrArg _ (Shape.idx_ext₂ ?_ ?_)
    · show win4_2.index t (0 : Fin 2) * 1 + 1 * 0 = 0; omega
    · show win4_2.index t (1 : Fin 2) * 512 + 1 * q.val = q.val; omega
  show k4_pay3 (acc4 V c t.val t.isLt) (iblk4 V c 2 t) (ix2 p q) = Cert.Spec.relu _ (((cfg4.win 3).blk t).view.emb (ix2 p q))
  rw [hemb, store4_apply, hb, acc_mm (acc4 V c) reset4_apply step4_apply (lblk4_apply V c) (rblk4_apply V c) (fun _ => rfl) (fun _ _ => rfl)
    t.val t.isLt h3 p q ⟨t.val / 4 * 1024 + p.val, by omega⟩ rfl]
  rfl

/-- Row `r` lies in the block written back at point `4 · (r / 1024) + 3`. -/
theorem cover4 (i : S8192x512.Idx) :
    ∃ t : Fin cfg4.N, (cfg4.win 3).flush t = true ∧ i ∈ ((cfg4.win 3).blk t).view.set := by
  have hN : cfg4.N = 32 := N_4
  have h0 := idx2_lt0 i
  have h1 := idx2_lt1 i
  obtain ⟨t, ht⟩ : ∃ t : Fin cfg4.N, t.val = 4 * ((i 0).val / 1024) + 3 := ⟨⟨4 * ((i 0).val / 1024) + 3, by omega⟩, rfl⟩
  obtain ⟨-, -, -, -, -, -, e0, e1⟩ := idx4 t
  refine ⟨t, (flush4_3 t).mpr (by omega), ?_⟩
  show i ∈ ((View.whole main_v7).slice (win4_3.rect t)).set
  rw [View.set_slice_whole, Rect.mem_set_unit]
  refine Fin.forall_fin_two.mpr ⟨?_, ?_⟩
  · show win4_3.index t (0 : Fin 2) * 1024 ≤ (i 0).val ∧ (i 0).val < win4_3.index t (0 : Fin 2) * 1024 + 1024; omega
  · show win4_3.index t (1 : Fin 2) * 512 ≤ (i 1).val ∧ (i 1).val < win4_3.index t (1 : Fin 2) * 512 + 512; omega

theorem arr4 (c : Dev nD) :
    (dat4 (F := Ideal) V c).arrAt 3 cfg4.N
      = Cert.Spec.relu (Cert.Spec.addRow2 (Cert.Spec.mm (V c main_arg3) (V c main_v0)) (V c main_v6)) :=
  (dat4 V c).arrAt_eq_of_cover 3 _ (flushed4_eq V c) cover4

end Region

end Cert.KernelIdeal.Gen

end
-- ==== Proof.GcnValue5.lean ====
import proofs.«124672_j60567628808244_1_alg».proof.Proof.Gcn5Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset5_apply (y : S1024x512.Idx) : (k5_pay1 (F := Ideal)) y = 0 := by
  unfold k5_pay1
  rw [shapeCast_self]
  exact Ideal.ofBits_zero_f32

theorem step5_apply (a : Vec Ideal S1024x2048 .f32) (s : Vec Ideal S2048x512 .f32) (acc : Vec Ideal S1024x512 .f32) (p : Fin 1024) (q : Fin 512) :
    k5_pay2 a s acc (ix2 p q) = acc (ix2 p q) + ∑ j : Fin 2048, a (ix2 p j) * s (ix2 j q) := by
  unfold k5_pay2
  rw [shapeCast_self, shapeCast_self, addf_apply]
  exact congrArg _ (matmul_zero_ix2 _ _ _ p q)

theorem store5_apply (acc : Vec Ideal S1024x512 .f32) (b : Vec Ideal S1x512 .f32) (p : Fin 1024) (q : Fin 512) :
    k5_pay3 acc b (ix2 p q) = max (acc (ix2 p q) + b (ix2 0 q)) 0 := by
  unfold k5_pay3
  rw [shapeCast_self, maximumf_apply, addf_apply, broadcast_apply, broadcastTo_1b_ab_apply]
  exact congrArg _ Ideal.ofBits_zero_f32

section Region
variable (V : (c : Dev nD) → (b : Ref sig .tc) → Buf (Elt Ideal) ((c : Thread nD τ).loc b))

/-- The block indices at point `t`: row block `t / 4`, contracted block `t % 4`. -/
theorem idx5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N, _)

theorem lblk5_apply (c : Dev nD) (t : Fin cfg5.N) (p : Fin 1024) (j : Fin 2048) (r k : Fin 8192)
    (hr : r.val = t.val / 4 * 1024 + p.val) (hk : k.val = t.val % 4 * 2048 + j.val) :
    (iblk5 V c 0 t : Vec Ideal S1024x2048 .f32) (ix2 p j) = (V c main_arg4 : Cert.Spec.Mat 8192 8192) (ix2 r k) := by
  obtain ⟨e0, e1, -⟩ := idx5 t
  show V c main_arg4 _ = V c main_arg4 _
  refine congrArg _ (Shape.idx_ext₂ ?_ ?_)
  · show win5_0.index t (0 : Fin 2) * 1024 + 1 * p.val = r.val; omega
  · show win5_0.index t (1 : Fin 2) * 2048 + 1 * j.val = k.val; omega

theorem rblk5_apply (c : Dev nD) (t : Fin cfg5.N) (j : Fin 2048) (q : Fin 512) (k : Fin 8192)
    (hk : k.val = t.val % 4 * 2048 + j.val) :
    (iblk5 V c 1 t : Vec Ideal S2048x512 .f32) (ix2 j q) = (V c main_v0 : Cert.Spec.Mat 8192 512) (ix2 k q) := by
  obtain ⟨-, -, e0, e1, -⟩ := idx5 t
  show V c main_v0 _ = V c main_v0 _
  refine congrArg _ (Shape.idx_ext₂ ?_ ?_)
  · show win5_1.index t (0 : Fin 2) * 2048 + 1 * j.val = k.val; omega
  · show win5_1.index t (1 : Fin 2) * 512 + 1 * q.val = q.val; omega

/-- At the last point of a row block the stored block is that row block of the result. -/
theorem flushed5_eq (c : Dev nD) (t : Fin cfg5.N) (hf : (cfg5.win 3).flush t = true) :
    (dat5 V c).flushed 3 t = ((cfg5.win 3).blk t).view.read (Elt Ideal)
      (Cert.Spec.relu (Cert.Spec.addRow2 (Cert.Spec.mm (V c main_arg4) (V c main_v0)) (V c main_v8))) := by
  have h3 : t.val % 4 = 3 := (flush5_3 t).mp hf
  have hN : cfg5.N = 32 := N_5
  have ht := t.isLt
  obtain ⟨-, -, -, -, e4, e5, e0, e1⟩ := idx5 t
  funext y
  obtain ⟨p, q, rfl⟩ : ∃ (p : Fin 1024) (q : Fin 512), y = ix2 p q := ⟨y 0, y 1, eq_ix2 y⟩
  have hemb : ((cfg5.win 3).blk t).view.emb (ix2 p q)
      = (ix2 (⟨t.val / 4 * 1024 + p.val, by omega⟩ : Fin 8192) q : S8192x512.Idx) := Shape.idx_ext₂
    (by show win5_3.index t (0 : Fin 2) * 1024 + 1 * p.val = t.val / 4 * 1024 + p.val; omega)
    (by show win5_3.index t (1 : Fin 2) * 512 + 1 * q.val = q.val; omega)
  have hb : (iblk5 V c 2 t : Vec Ideal S1x512 .f32) (ix2 0 q) = (V c main_v8 : Cert.Spec.Mat 1 512) (ix2 0 q) := by
    show V c main_v8 _ = V c main_v8 _
    refine congrArg _ (Shape.idx_ext₂ ?_ ?_)
    · show win5_2.index t (0 : Fin 2) * 1 + 1 * 0 = 0; omega
    · show win5_2.index t (1 : Fin 2) * 512 + 1 * q.val = q.val; omega
  show k5_pay3 (acc5 V c t.val t.isLt) (iblk5 V c 2 t) (ix2 p q) = Cert.Spec.relu _ (((cfg5.win 3).blk t).view.emb (ix2 p q))
  rw [hemb, store5_apply, hb, acc_mm (acc5 V c) reset5_apply step5_apply (lblk5_apply V c) (rblk5_apply V c) (fun _ => rfl) (fun _ _ => rfl)
    t.val t.isLt h3 p q ⟨t.val / 4 * 1024 + p.val, by omega⟩ rfl]
  rfl

/-- Row `r` lies in the block written back at point `4 · (r / 1024) + 3`. -/
theorem cover5 (i : S8192x512.Idx) :
    ∃ t : Fin cfg5.N, (cfg5.win 3).flush t = true ∧ i ∈ ((cfg5.win 3).blk t).view.set := by
  have hN : cfg5.N = 32 := N_5
  have h0 := idx2_lt0 i
  have h1 := idx2_lt1 i
  obtain ⟨t, ht⟩ : ∃ t : Fin cfg5.N, t.val = 4 * ((i 0).val / 1024) + 3 := ⟨⟨4 * ((i 0).val / 1024) + 3, by omega⟩, rfl⟩
  obtain ⟨-, -, -, -, -, -, e0, e1⟩ := idx5 t
  refine ⟨t, (flush5_3 t).mpr (by omega), ?_⟩
  show i ∈ ((View.whole main_v9).slice (win5_3.rect t)).set
  rw [View.set_slice_whole, Rect.mem_set_unit]
  refine Fin.forall_fin_two.mpr ⟨?_, ?_⟩
  · show win5_3.index t (0 : Fin 2) * 1024 ≤ (i 0).val ∧ (i 0).val < win5_3.index t (0 : Fin 2) * 1024 + 1024; omega
  · show win5_3.index t (1 : Fin 2) * 512 ≤ (i 1).val ∧ (i 1).val < win5_3.index t (1 : Fin 2) * 512 + 512; omega

theorem arr5 (c : Dev nD) :
    (dat5 (F := Ideal) V c).arrAt 3 cfg5.N
      = Cert.Spec.relu (Cert.Spec.addRow2 (Cert.Spec.mm (V c main_arg4) (V c main_v0)) (V c main_v8)) :=
  (dat5 V c).arrAt_eq_of_cover 3 _ (flushed5_eq V c) cover5

end Region

end Cert.KernelIdeal.Gen

end
-- ==== Proof.DenseValue6.lean ====
import proofs.«124672_j60567628808244_1_alg».proof.Proof.Dense6
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod6_apply (x0 : Vec Ideal S1024x512 .f32) (x1 : Vec Ideal S512x256 .f32) (p : Fin 1024) (q : Fin 256) :
    k6_pay1 (F := Ideal) x0 x1 (ix2 p q) = ∑ k : Fin 512, x0 (ix2 p k) * x1 (ix2 k q) := by
  unfold k6_pay1
  rw [shapeCast_self]
  exact matmul_zero_ix2 _ _ _ p q

theorem idx_maps6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section Region
variable (V : (c : Dev nD) → (b : Ref sig .tc) → Buf (Elt Ideal) ((c : Thread nD τ).loc b))

/-- A point stores its row block of the product: row `p` of the block is row `t · 1024 + p` of the array. -/
theorem flushed6_eq (c : Dev nD) (t : Fin cfg6.N) :
    (dat6 (F := Ideal) V c).flushed 2 t = ((cfg6.win 2).blk t).view.read (Elt Ideal) (Cert.Spec.mm (V c main_v3) (V c main_arg7)) := by
  show (cfg6.win 2).cut (grid6.coords t) ((dat6 V c).after 2 t) = _
  rw [after6_2]
  unfold out6_2
  rw [View.canon_unit_zero zero_offsets]
  simp only [View.ld_unit_zero (S := S1024x512) zero_offsets, View.ld_unit_zero (S := S512x256) zero_offsets]
  obtain ⟨e0, e1, e2, e3, e4, e5⟩ := idx_maps6 t
  funext j
  obtain ⟨p, q, rfl⟩ : ∃ (p : Fin 1024) (q : Fin 256), j = ix2 p q := ⟨j 0, j 1, eq_ix2 j⟩
  show _ = Cert.Spec.mm (V c main_v3) (V c main_arg7) _
  refine (prod6_apply _ _ p q).trans (Finset.sum_congr rfl fun k _ => congrArg₂ (· * ·) ?_ ?_)
  · show V c main_v3 _ = V c main_v3 _
    refine congrArg _ (Shape.idx_ext₂ ?_ ?_)
    · show win6_0.index t (0 : Fin 2) * 1024 + 1 * p.val = win6_2.index t (0 : Fin 2) * 1024 + 1 * p.val; omega
    · show win6_0.index t (1 : Fin 2) * 512 + 1 * k.val = k.val; omega
  · show V c main_arg7 _ = V c main_arg7 _
    refine congrArg _ (Shape.idx_ext₂ ?_ ?_)
    · show win6_1.index t (0 : Fin 2) * 512 + 1 * k.val = k.val; omega
    · show win6_1.index t (1 : Fin 2) * 256 + 1 * q.val = win6_2.index t (1 : Fin 2) * 256 + 1 * q.val; omega

end Region

/-- Row `r` lies in the block of point `r / 1024`. -/
theorem cover6 (i : S8192x256.Idx) : ∃ t : Fin cfg6.N, (cfg6.win 2).flush t = true ∧ i ∈ ((cfg6.win 2).blk t).view.set := by
  have h0 := idx2_lt0 i
  have h1 := idx2_lt1 i
  have hN : cfg6.N = 8 := rfl
  obtain ⟨t, ht⟩ : ∃ t : Fin cfg6.N, t.val = (i 0).val / 1024 := ⟨⟨(i 0).val / 1024, by omega⟩, rfl⟩
  obtain ⟨-, -, -, -, e4, e5⟩ := idx_maps6 t
  refine ⟨t, flush6_2 _, ?_⟩
  show i ∈ ((View.whole main_v10).slice (win6_2.rect t)).set
  rw [View.set_slice_whole, Rect.mem_set_unit]
  refine Fin.forall_fin_two.mpr ⟨?_, ?_⟩
  · show win6_2.index t (0 : Fin 2) * 1024 ≤ (i 0).val ∧ (i 0).val < win6_2.index t (0 : Fin 2) * 1024 + 1024; omega
  · show win6_2.index t (1 : Fin 2) * 256 ≤ (i 1).val ∧ (i 1).val < win6_2.index t (1 : Fin 2) * 256 + 256; omega

theorem arr6 (V : (c : Dev nD) → (b : Ref sig .tc) → Buf (Elt Ideal) ((c : Thread nD τ).loc b)) (c : Dev nD) :
    (dat6 (F := Ideal) V c).arrAt 2 cfg6.N = Cert.Spec.mm (V c main_v3) (V c main_arg7) :=
  (dat6 (F := Ideal) V c).arrAt_eq_of_cover 2 _ (fun t _ => flushed6_eq V c t) cover6

end Cert.KernelIdeal.Gen

end
-- ==== Proof.GcnValue7.lean ====
import proofs.«124672_j60567628808244_1_alg».proof.Proof.Gcn7Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset7_apply (y : S1024x256.Idx) : (k7_pay1 (F := Ideal)) y = 0 := by
  unfold k7_pay1
  rw [shapeCast_self]
  exact Ideal.ofBits_zero_f32

theorem step7_apply (a : Vec Ideal S1024x2048 .f32) (s : Vec Ideal S2048x256 .f32) (acc : Vec Ideal S1024x256 .f32) (p : Fin 1024) (q : Fin 256) :
    k7_pay2 a s acc (ix2 p q) = acc (ix2 p q) + ∑ j : Fin 2048, a (ix2 p j) * s (ix2 j q) := by
  unfold k7_pay2
  rw [shapeCast_self, shapeCast_self, addf_apply]
  exact congrArg _ (matmul_zero_ix2 _ _ _ p q)

theorem store7_apply (acc : Vec Ideal S1024x256 .f32) (b : Vec Ideal S1x256 .f32) (p : Fin 1024) (q : Fin 256) :
    k7_pay3 acc b (ix2 p q) = acc (ix2 p q) + b (ix2 0 q) := by
  unfold k7_pay3
  rw [shapeCast_self, addf_apply, broadcastTo_1b_ab_apply]

section Region
variable (V : (c : Dev nD) → (b : Ref sig .tc) → Buf (Elt Ideal) ((c : Thread nD τ).loc b))

/-- The block indices at point `t`: row block `t / 4`, contracted block `t % 4`. -/
theorem idx7 : ∀ t : Fin cfg7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = 0 ∧ win7_2.index t (1 : Fin 2) = 0
    ∧ win7_3.index t (0 : Fin 2) = t.val / 4 ∧ win7_3.index t (1 : Fin 2) = 0 :=
  (by decide +kernel : ∀ t : Fin grid7.N, _)

theorem lblk7_apply (c : Dev nD) (t : Fin cfg7.N) (p : Fin 1024) (j : Fin 2048) (r k : Fin 8192)
    (hr : r.val = t.val / 4 * 1024 + p.val) (hk : k.val = t.val % 4 * 2048 + j.val) :
    (iblk7 V c 0 t : Vec Ideal S1024x2048 .f32) (ix2 p j) = (V c main_arg2 : Cert.Spec.Mat 8192 8192) (ix2 r k) := by
  obtain ⟨e0, e1, -⟩ := idx7 t
  show V c main_arg2 _ = V c main_arg2 _
  refine congrArg _ (Shape.idx_ext₂ ?_ ?_)
  · show win7_0.index t (0 : Fin 2) * 1024 + 1 * p.val = r.val; omega
  · show win7_0.index t (1 : Fin 2) * 2048 + 1 * j.val = k.val; omega

theorem rblk7_apply (c : Dev nD) (t : Fin cfg7.N) (j : Fin 2048) (q : Fin 256) (k : Fin 8192)
    (hk : k.val = t.val % 4 * 2048 + j.val) :
    (iblk7 V c 1 t : Vec Ideal S2048x256 .f32) (ix2 j q) = (V c main_v10 : Cert.Spec.Mat 8192 256) (ix2 k q) := by
  obtain ⟨-, -, e0, e1, -⟩ := idx7 t
  show V c main_v10 _ = V c main_v10 _
  refine congrArg _ (Shape.idx_ext₂ ?_ ?_)
  · show win7_1.index t (0 : Fin 2) * 2048 + 1 * j.val = k.val; omega
  · show win7_1.index t (1 : Fin 2) * 256 + 1 * q.val = q.val; omega

/-- At the last point of a row block the stored block is that row block of the result. -/
theorem flushed7_eq (c : Dev nD) (t : Fin cfg7.N) (hf : (cfg7.win 3).flush t = true) :
    (dat7 V c).flushed 3 t = ((cfg7.win 3).blk t).view.read (Elt Ideal)
      (Cert.Spec.addRow2 (Cert.Spec.mm (V c main_arg2) (V c main_v10)) (V c main_v11)) := by
  have h3 : t.val % 4 = 3 := (flush7_3 t).mp hf
  have hN : cfg7.N = 32 := N_7
  have ht := t.isLt
  obtain ⟨-, -, -, -, e4, e5, e0, e1⟩ := idx7 t
  funext y
  obtain ⟨p, q, rfl⟩ : ∃ (p : Fin 1024) (q : Fin 256), y = ix2 p q := ⟨y 0, y 1, eq_ix2 y⟩
  have hemb : ((cfg7.win 3).blk t).view.emb (ix2 p q)
      = (ix2 (⟨t.val / 4 * 1024 + p.val, by omega⟩ : Fin 8192) q : S8192x256.Idx) := Shape.idx_ext₂
    (by show win7_3.index t (0 : Fin 2) * 1024 + 1 * p.val = t.val / 4 * 1024 + p.val; omega)
    (by show win7_3.index t (1 : Fin 2) * 256 + 1 * q.val = q.val; omega)
  have hb : (iblk7 V c 2 t : Vec Ideal S1x256 .f32) (ix2 0 q) = (V c main_v11 : Cert.Spec.Mat 1 256) (ix2 0 q) := by
    show V c main_v11 _ = V c main_v11 _
    refine congrArg _ (Shape.idx_ext₂ ?_ ?_)
    · show win7_2.index t (0 : Fin 2) * 1 + 1 * 0 = 0; omega
    · show win7_2.index t (1 : Fin 2) * 256 + 1 * q.val = q.val; omega
  show k7_pay3 (acc7 V c t.val t.isLt) (iblk7 V c 2 t) (ix2 p q) = Cert.Spec.addRow2 _ _ (((cfg7.win 3).blk t).view.emb (ix2 p q))
  rw [hemb, store7_apply, hb, acc_mm (acc7 V c) reset7_apply step7_apply (lblk7_apply V c) (rblk7_apply V c) (fun _ => rfl) (fun _ _ => rfl)
    t.val t.isLt h3 p q ⟨t.val / 4 * 1024 + p.val, by omega⟩ rfl]
  rfl

/-- Row `r` lies in the block written back at point `4 · (r / 1024) + 3`. -/
theorem cover7 (i : S8192x256.Idx) :
    ∃ t : Fin cfg7.N, (cfg7.win 3).flush t = true ∧ i ∈ ((cfg7.win 3).blk t).view.set := by
  have hN : cfg7.N = 32 := N_7
  have h0 := idx2_lt0 i
  have h1 := idx2_lt1 i
  obtain ⟨t, ht⟩ : ∃ t : Fin cfg7.N, t.val = 4 * ((i 0).val / 1024) + 3 := ⟨⟨4 * ((i 0).val / 1024) + 3, by omega⟩, rfl⟩
  obtain ⟨-, -, -, -, -, -, e0, e1⟩ := idx7 t
  refine ⟨t, (flush7_3 t).mpr (by omega), ?_⟩
  show i ∈ ((View.whole main_v12).slice (win7_3.rect t)).set
  rw [View.set_slice_whole, Rect.mem_set_unit]
  refine Fin.forall_fin_two.mpr ⟨?_, ?_⟩
  · show win7_3.index t (0 : Fin 2) * 1024 ≤ (i 0).val ∧ (i 0).val < win7_3.index t (0 : Fin 2) * 1024 + 1024; omega
  · show win7_3.index t (1 : Fin 2) * 256 ≤ (i 1).val ∧ (i 1).val < win7_3.index t (1 : Fin 2) * 256 + 256; omega

theorem arr7 (c : Dev nD) :
    (dat7 (F := Ideal) V c).arrAt 3 cfg7.N
      = Cert.Spec.addRow2 (Cert.Spec.mm (V c main_arg2) (V c main_v10)) (V c main_v11) :=
  (dat7 V c).arrAt_eq_of_cover 3 _ (flushed7_eq V c) cover7

end Region

end Cert.KernelIdeal.Gen

end
-- ==== Proof.DenseValue8.lean ====
import proofs.«124672_j60567628808244_1_alg».proof.Proof.Dense8
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod8_apply (x0 : Vec Ideal S1024x512 .f32) (x1 : Vec Ideal S512x256 .f32) (p : Fin 1024) (q : Fin 256) :
    k8_pay1 (F := Ideal) x0 x1 (ix2 p q) = ∑ k : Fin 512, x0 (ix2 p k) * x1 (ix2 k q) := by
  unfold k8_pay1
  rw [shapeCast_self]
  exact matmul_zero_ix2 _ _ _ p q

theorem idx_maps8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

section Region
variable (V : (c : Dev nD) → (b : Ref sig .tc) → Buf (Elt Ideal) ((c : Thread nD τ).loc b))

/-- A point stores its row block of the product: row `p` of the block is row `t · 1024 + p` of the array. -/
theorem flushed8_eq (c : Dev nD) (t : Fin cfg8.N) :
    (dat8 (F := Ideal) V c).flushed 2 t = ((cfg8.win 2).blk t).view.read (Elt Ideal) (Cert.Spec.mm (V c main_v5) (V c main_arg7)) := by
  show (cfg8.win 2).cut (grid8.coords t) ((dat8 V c).after 2 t) = _
  rw [after8_2]
  unfold out8_2
  rw [View.canon_unit_zero zero_offsets]
  simp only [View.ld_unit_zero (S := S1024x512) zero_offsets, View.ld_unit_zero (S := S512x256) zero_offsets]
  obtain ⟨e0, e1, e2, e3, e4, e5⟩ := idx_maps8 t
  funext j
  obtain ⟨p, q, rfl⟩ : ∃ (p : Fin 1024) (q : Fin 256), j = ix2 p q := ⟨j 0, j 1, eq_ix2 j⟩
  show _ = Cert.Spec.mm (V c main_v5) (V c main_arg7) _
  refine (prod8_apply _ _ p q).trans (Finset.sum_congr rfl fun k _ => congrArg₂ (· * ·) ?_ ?_)
  · show V c main_v5 _ = V c main_v5 _
    refine congrArg _ (Shape.idx_ext₂ ?_ ?_)
    · show win8_0.index t (0 : Fin 2) * 1024 + 1 * p.val = win8_2.index t (0 : Fin 2) * 1024 + 1 * p.val; omega
    · show win8_0.index t (1 : Fin 2) * 512 + 1 * k.val = k.val; omega
  · show V c main_arg7 _ = V c main_arg7 _
    refine congrArg _ (Shape.idx_ext₂ ?_ ?_)
    · show win8_1.index t (0 : Fin 2) * 512 + 1 * k.val = k.val; omega
    · show win8_1.index t (1 : Fin 2) * 256 + 1 * q.val = win8_2.index t (1 : Fin 2) * 256 + 1 * q.val; omega

end Region

/-- Row `r` lies in the block of point `r / 1024`. -/
theorem cover8 (i : S8192x256.Idx) : ∃ t : Fin cfg8.N, (cfg8.win 2).flush t = true ∧ i ∈ ((cfg8.win 2).blk t).view.set := by
  have h0 := idx2_lt0 i
  have h1 := idx2_lt1 i
  have hN : cfg8.N = 8 := rfl
  obtain ⟨t, ht⟩ : ∃ t : Fin cfg8.N, t.val = (i 0).val / 1024 := ⟨⟨(i 0).val / 1024, by omega⟩, rfl⟩
  obtain ⟨-, -, -, -, e4, e5⟩ := idx_maps8 t
  refine ⟨t, flush8_2 _, ?_⟩
  show i ∈ ((View.whole main_v13).slice (win8_2.rect t)).set
  rw [View.set_slice_whole, Rect.mem_set_unit]
  refine Fin.forall_fin_two.mpr ⟨?_, ?_⟩
  · show win8_2.index t (0 : Fin 2) * 1024 ≤ (i 0).val ∧ (i 0).val < win8_2.index t (0 : Fin 2) * 1024 + 1024; omega
  · show win8_2.index t (1 : Fin 2) * 256 ≤ (i 1).val ∧ (i 1).val < win8_2.index t (1 : Fin 2) * 256 + 256; omega

theorem arr8 (V : (c : Dev nD) → (b : Ref sig .tc) → Buf (Elt Ideal) ((c : Thread nD τ).loc b)) (c : Dev nD) :
    (dat8 (F := Ideal) V c).arrAt 2 cfg8.N = Cert.Spec.mm (V c main_v5) (V c main_arg7) :=
  (dat8 (F := Ideal) V c).arrAt_eq_of_cover 2 _ (fun t _ => flushed8_eq V c t) cover8

end Cert.KernelIdeal.Gen

end
-- ==== Proof.GcnValue9.lean ====
import proofs.«124672_j60567628808244_1_alg».proof.Proof.Gcn9Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset9_apply (y : S1024x256.Idx) : (k9_pay1 (F := Ideal)) y = 0 := by
  unfold k9_pay1
  rw [shapeCast_self]
  exact Ideal.ofBits_zero_f32

theorem step9_apply (a : Vec Ideal S1024x2048 .f32) (s : Vec Ideal S2048x256 .f32) (acc : Vec Ideal S1024x256 .f32) (p : Fin 1024) (q : Fin 256) :
    k9_pay2 a s acc (ix2 p q) = acc (ix2 p q) + ∑ j : Fin 2048, a (ix2 p j) * s (ix2 j q) := by
  unfold k9_pay2
  rw [shapeCast_self, shapeCast_self, addf_apply]
  exact congrArg _ (matmul_zero_ix2 _ _ _ p q)

theorem store9_apply (acc : Vec Ideal S1024x256 .f32) (b : Vec Ideal S1x256 .f32) (p : Fin 1024) (q : Fin 256) :
    k9_pay3 acc b (ix2 p q) = acc (ix2 p q) + b (ix2 0 q) := by
  unfold k9_pay3
  rw [shapeCast_self, addf_apply, broadcastTo_1b_ab_apply]

section Region
variable (V : (c : Dev nD) → (b : Ref sig .tc) → Buf (Elt Ideal) ((c : Thread nD τ).loc b))

/-- The block indices at point `t`: row block `t / 4`, contracted block `t % 4`. -/
theorem idx9 : ∀ t : Fin cfg9.N,
    win9_0.index t (0 : Fin 2) = t.val / 4 ∧ win9_0.index t (1 : Fin 2) = t.val % 4
    ∧ win9_1.index t (0 : Fin 2) = t.val % 4 ∧ win9_1.index t (1 : Fin 2) = 0
    ∧ win9_2.index t (0 : Fin 2) = 0 ∧ win9_2.index t (1 : Fin 2) = 0
    ∧ win9_3.index t (0 : Fin 2) = t.val / 4 ∧ win9_3.index t (1 : Fin 2) = 0 :=
  (by decide +kernel : ∀ t : Fin grid9.N, _)

theorem lblk9_apply (c : Dev nD) (t : Fin cfg9.N) (p : Fin 1024) (j : Fin 2048) (r k : Fin 8192)
    (hr : r.val = t.val / 4 * 1024 + p.val) (hk : k.val = t.val % 4 * 2048 + j.val) :
    (iblk9 V c 0 t : Vec Ideal S1024x2048 .f32) (ix2 p j) = (V c main_arg2 : Cert.Spec.Mat 8192 8192) (ix2 r k) := by
  obtain ⟨e0, e1, -⟩ := idx9 t
  show V c main_arg2 _ = V c main_arg2 _
  refine congrArg _ (Shape.idx_ext₂ ?_ ?_)
  · show win9_0.index t (0 : Fin 2) * 1024 + 1 * p.val = r.val; omega
  · show win9_0.index t (1 : Fin 2) * 2048 + 1 * j.val = k.val; omega

theorem rblk9_apply (c : Dev nD) (t : Fin cfg9.N) (j : Fin 2048) (q : Fin 256) (k : Fin 8192)
    (hk : k.val = t.val % 4 * 2048 + j.val) :
    (iblk9 V c 1 t : Vec Ideal S2048x256 .f32) (ix2 j q) = (V c main_v13 : Cert.Spec.Mat 8192 256) (ix2 k q) := by
  obtain ⟨-, -, e0, e1, -⟩ := idx9 t
  show V c main_v13 _ = V c main_v13 _
  refine congrArg _ (Shape.idx_ext₂ ?_ ?_)
  · show win9_1.index t (0 : Fin 2) * 2048 + 1 * j.val = k.val; omega
  · show win9_1.index t (1 : Fin 2) * 256 + 1 * q.val = q.val; omega

/-- At the last point of a row block the stored block is that row block of the result. -/
theorem flushed9_eq (c : Dev nD) (t : Fin cfg9.N) (hf : (cfg9.win 3).flush t = true) :
    (dat9 V c).flushed 3 t = ((cfg9.win 3).blk t).view.read (Elt Ideal)
      (Cert.Spec.addRow2 (Cert.Spec.mm (V c main_arg2) (V c main_v13)) (V c main_v14)) := by
  have h3 : t.val % 4 = 3 := (flush9_3 t).mp hf
  have hN : cfg9.N = 32 := N_9
  have ht := t.isLt
  obtain ⟨-, -, -, -, e4, e5, e0, e1⟩ := idx9 t
  funext y
  obtain ⟨p, q, rfl⟩ : ∃ (p : Fin 1024) (q : Fin 256), y = ix2 p q := ⟨y 0, y 1, eq_ix2 y⟩
  have hemb : ((cfg9.win 3).blk t).view.emb (ix2 p q)
      = (ix2 (⟨t.val / 4 * 1024 + p.val, by omega⟩ : Fin 8192) q : S8192x256.Idx) := Shape.idx_ext₂
    (by show win9_3.index t (0 : Fin 2) * 1024 + 1 * p.val = t.val / 4 * 1024 + p.val; omega)
    (by show win9_3.index t (1 : Fin 2) * 256 + 1 * q.val = q.val; omega)
  have hb : (iblk9 V c 2 t : Vec Ideal S1x256 .f32) (ix2 0 q) = (V c main_v14 : Cert.Spec.Mat 1 256) (ix2 0 q) := by
    show V c main_v14 _ = V c main_v14 _
    refine congrArg _ (Shape.idx_ext₂ ?_ ?_)
    · show win9_2.index t (0 : Fin 2) * 1 + 1 * 0 = 0; omega
    · show win9_2.index t (1 : Fin 2) * 256 + 1 * q.val = q.val; omega
  show k9_pay3 (acc9 V c t.val t.isLt) (iblk9 V c 2 t) (ix2 p q) = Cert.Spec.addRow2 _ _ (((cfg9.win 3).blk t).view.emb (ix2 p q))
  rw [hemb, store9_apply, hb, acc_mm (acc9 V c) reset9_apply step9_apply (lblk9_apply V c) (rblk9_apply V c) (fun _ => rfl) (fun _ _ => rfl)
    t.val t.isLt h3 p q ⟨t.val / 4 * 1024 + p.val, by omega⟩ rfl]
  rfl

/-- Row `r` lies in the block written back at point `4 · (r / 1024) + 3`. -/
theorem cover9 (i : S8192x256.Idx) :
    ∃ t : Fin cfg9.N, (cfg9.win 3).flush t = true ∧ i ∈ ((cfg9.win 3).blk t).view.set := by
  have hN : cfg9.N = 32 := N_9
  have h0 := idx2_lt0 i
  have h1 := idx2_lt1 i
  obtain ⟨t, ht⟩ : ∃ t : Fin cfg9.N, t.val = 4 * ((i 0).val / 1024) + 3 := ⟨⟨4 * ((i 0).val / 1024) + 3, by omega⟩, rfl⟩
  obtain ⟨-, -, -, -, -, -, e0, e1⟩ := idx9 t
  refine ⟨t, (flush9_3 t).mpr (by omega), ?_⟩
  show i ∈ ((View.whole main_v15).slice (win9_3.rect t)).set
  rw [View.set_slice_whole, Rect.mem_set_unit]
  refine Fin.forall_fin_two.mpr ⟨?_, ?_⟩
  · show win9_3.index t (0 : Fin 2) * 1024 ≤ (i 0).val ∧ (i 0).val < win9_3.index t (0 : Fin 2) * 1024 + 1024; omega
  · show win9_3.index t (1 : Fin 2) * 256 ≤ (i 1).val ∧ (i 1).val < win9_3.index t (1 : Fin 2) * 256 + 256; omega

theorem arr9 (c : Dev nD) :
    (dat9 (F := Ideal) V c).arrAt 3 cfg9.N
      = Cert.Spec.addRow2 (Cert.Spec.mm (V c main_arg2) (V c main_v13)) (V c main_v14) :=
  (dat9 V c).arrAt_eq_of_cover 3 _ (flushed9_eq V c) cover9

end Region

end Cert.KernelIdeal.Gen

end
-- ==== Proof.DenseValue10.lean ====
import proofs.«124672_j60567628808244_1_alg».proof.Proof.Dense10
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod10_apply (x0 : Vec Ideal S1024x512 .f32) (x1 : Vec Ideal S512x256 .f32) (p : Fin 1024) (q : Fin 256) :
    k10_pay1 (F := Ideal) x0 x1 (ix2 p q) = ∑ k : Fin 512, x0 (ix2 p k) * x1 (ix2 k q) := by
  unfold k10_pay1
  rw [shapeCast_self]
  exact matmul_zero_ix2 _ _ _ p q

theorem idx_maps10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

section Region
variable (V : (c : Dev nD) → (b : Ref sig .tc) → Buf (Elt Ideal) ((c : Thread nD τ).loc b))

/-- A point stores its row block of the product: row `p` of the block is row `t · 1024 + p` of the array. -/
theorem flushed10_eq (c : Dev nD) (t : Fin cfg10.N) :
    (dat10 (F := Ideal) V c).flushed 2 t = ((cfg10.win 2).blk t).view.read (Elt Ideal) (Cert.Spec.mm (V c main_v7) (V c main_arg7)) := by
  show (cfg10.win 2).cut (grid10.coords t) ((dat10 V c).after 2 t) = _
  rw [after10_2]
  unfold out10_2
  rw [View.canon_unit_zero zero_offsets]
  simp only [View.ld_unit_zero (S := S1024x512) zero_offsets, View.ld_unit_zero (S := S512x256) zero_offsets]
  obtain ⟨e0, e1, e2, e3, e4, e5⟩ := idx_maps10 t
  funext j
  obtain ⟨p, q, rfl⟩ : ∃ (p : Fin 1024) (q : Fin 256), j = ix2 p q := ⟨j 0, j 1, eq_ix2 j⟩
  show _ = Cert.Spec.mm (V c main_v7) (V c main_arg7) _
  refine (prod10_apply _ _ p q).trans (Finset.sum_congr rfl fun k _ => congrArg₂ (· * ·) ?_ ?_)
  · show V c main_v7 _ = V c main_v7 _
    refine congrArg _ (Shape.idx_ext₂ ?_ ?_)
    · show win10_0.index t (0 : Fin 2) * 1024 + 1 * p.val = win10_2.index t (0 : Fin 2) * 1024 + 1 * p.val; omega
    · show win10_0.index t (1 : Fin 2) * 512 + 1 * k.val = k.val; omega
  · show V c main_arg7 _ = V c main_arg7 _
    refine congrArg _ (Shape.idx_ext₂ ?_ ?_)
    · show win10_1.index t (0 : Fin 2) * 512 + 1 * k.val = k.val; omega
    · show win10_1.index t (1 : Fin 2) * 256 + 1 * q.val = win10_2.index t (1 : Fin 2) * 256 + 1 * q.val; omega

end Region

/-- Row `r` lies in the block of point `r / 1024`. -/
theorem cover10 (i : S8192x256.Idx) : ∃ t : Fin cfg10.N, (cfg10.win 2).flush t = true ∧ i ∈ ((cfg10.win 2).blk t).view.set := by
  have h0 := idx2_lt0 i
  have h1 := idx2_lt1 i
  have hN : cfg10.N = 8 := rfl
  obtain ⟨t, ht⟩ : ∃ t : Fin cfg10.N, t.val = (i 0).val / 1024 := ⟨⟨(i 0).val / 1024, by omega⟩, rfl⟩
  obtain ⟨-, -, -, -, e4, e5⟩ := idx_maps10 t
  refine ⟨t, flush10_2 _, ?_⟩
  show i ∈ ((View.whole main_v16).slice (win10_2.rect t)).set
  rw [View.set_slice_whole, Rect.mem_set_unit]
  refine Fin.forall_fin_two.mpr ⟨?_, ?_⟩
  · show win10_2.index t (0 : Fin 2) * 1024 ≤ (i 0).val ∧ (i 0).val < win10_2.index t (0 : Fin 2) * 1024 + 1024; omega
  · show win10_2.index t (1 : Fin 2) * 256 ≤ (i 1).val ∧ (i 1).val < win10_2.index t (1 : Fin 2) * 256 + 256; omega

theorem arr10 (V : (c : Dev nD) → (b : Ref sig .tc) → Buf (Elt Ideal) ((c : Thread nD τ).loc b)) (c : Dev nD) :
    (dat10 (F := Ideal) V c).arrAt 2 cfg10.N = Cert.Spec.mm (V c main_v7) (V c main_arg7) :=
  (dat10 (F := Ideal) V c).arrAt_eq_of_cover 2 _ (fun t _ => flushed10_eq V c t) cover10

end Cert.KernelIdeal.Gen

end
-- ==== Proof.GcnValue11.lean ====
import proofs.«124672_j60567628808244_1_alg».proof.Proof.Gcn11Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset11_apply (y : S1024x256.Idx) : (k11_pay1 (F := Ideal)) y = 0 := by
  unfold k11_pay1
  rw [shapeCast_self]
  exact Ideal.ofBits_zero_f32

theorem step11_apply (a : Vec Ideal S1024x2048 .f32) (s : Vec Ideal S2048x256 .f32) (acc : Vec Ideal S1024x256 .f32) (p : Fin 1024) (q : Fin 256) :
    k11_pay2 a s acc (ix2 p q) = acc (ix2 p q) + ∑ j : Fin 2048, a (ix2 p j) * s (ix2 j q) := by
  unfold k11_pay2
  rw [shapeCast_self, shapeCast_self, addf_apply]
  exact congrArg _ (matmul_zero_ix2 _ _ _ p q)

theorem store11_apply (acc : Vec Ideal S1024x256 .f32) (b : Vec Ideal S1x256 .f32) (p : Fin 1024) (q : Fin 256) :
    k11_pay3 acc b (ix2 p q) = acc (ix2 p q) + b (ix2 0 q) := by
  unfold k11_pay3
  rw [shapeCast_self, addf_apply, broadcastTo_1b_ab_apply]

section Region
variable (V : (c : Dev nD) → (b : Ref sig .tc) → Buf (Elt Ideal) ((c : Thread nD τ).loc b))

/-- The block indices at point `t`: row block `t / 4`, contracted block `t % 4`. -/
theorem idx11 : ∀ t : Fin cfg11.N,
    win11_0.index t (0 : Fin 2) = t.val / 4 ∧ win11_0.index t (1 : Fin 2) = t.val % 4
    ∧ win11_1.index t (0 : Fin 2) = t.val % 4 ∧ win11_1.index t (1 : Fin 2) = 0
    ∧ win11_2.index t (0 : Fin 2) = 0 ∧ win11_2.index t (1 : Fin 2) = 0
    ∧ win11_3.index t (0 : Fin 2) = t.val / 4 ∧ win11_3.index t (1 : Fin 2) = 0 :=
  (by decide +kernel : ∀ t : Fin grid11.N, _)

theorem lblk11_apply (c : Dev nD) (t : Fin cfg11.N) (p : Fin 1024) (j : Fin 2048) (r k : Fin 8192)
    (hr : r.val = t.val / 4 * 1024 + p.val) (hk : k.val = t.val % 4 * 2048 + j.val) :
    (iblk11 V c 0 t : Vec Ideal S1024x2048 .f32) (ix2 p j) = (V c main_arg3 : Cert.Spec.Mat 8192 8192) (ix2 r k) := by
  obtain ⟨e0, e1, -⟩ := idx11 t
  show V c main_arg3 _ = V c main_arg3 _
  refine congrArg _ (Shape.idx_ext₂ ?_ ?_)
  · show win11_0.index t (0 : Fin 2) * 1024 + 1 * p.val = r.val; omega
  · show win11_0.index t (1 : Fin 2) * 2048 + 1 * j.val = k.val; omega

theorem rblk11_apply (c : Dev nD) (t : Fin cfg11.N) (j : Fin 2048) (q : Fin 256) (k : Fin 8192)
    (hk : k.val = t.val % 4 * 2048 + j.val) :
    (iblk11 V c 1 t : Vec Ideal S2048x256 .f32) (ix2 j q) = (V c main_v16 : Cert.Spec.Mat 8192 256) (ix2 k q) := by
  obtain ⟨-, -, e0, e1, -⟩ := idx11 t
  show V c main_v16 _ = V c main_v16 _
  refine congrArg _ (Shape.idx_ext₂ ?_ ?_)
  · show win11_1.index t (0 : Fin 2) * 2048 + 1 * j.val = k.val; omega
  · show win11_1.index t (1 : Fin 2) * 256 + 1 * q.val = q.val; omega

/-- At the last point of a row block the stored block is that row block of the result. -/
theorem flushed11_eq (c : Dev nD) (t : Fin cfg11.N) (hf : (cfg11.win 3).flush t = true) :
    (dat11 V c).flushed 3 t = ((cfg11.win 3).blk t).view.read (Elt Ideal)
      (Cert.Spec.addRow2 (Cert.Spec.mm (V c main_arg3) (V c main_v16)) (V c main_v17)) := by
  have h3 : t.val % 4 = 3 := (flush11_3 t).mp hf
  have hN : cfg11.N = 32 := N_11
  have ht := t.isLt
  obtain ⟨-, -, -, -, e4, e5, e0, e1⟩ := idx11 t
  funext y
  obtain ⟨p, q, rfl⟩ : ∃ (p : Fin 1024) (q : Fin 256), y = ix2 p q := ⟨y 0, y 1, eq_ix2 y⟩
  have hemb : ((cfg11.win 3).blk t).view.emb (ix2 p q)
      = (ix2 (⟨t.val / 4 * 1024 + p.val, by omega⟩ : Fin 8192) q : S8192x256.Idx) := Shape.idx_ext₂
    (by show win11_3.index t (0 : Fin 2) * 1024 + 1 * p.val = t.val / 4 * 1024 + p.val; omega)
    (by show win11_3.index t (1 : Fin 2) * 256 + 1 * q.val = q.val; omega)
  have hb : (iblk11 V c 2 t : Vec Ideal S1x256 .f32) (ix2 0 q) = (V c main_v17 : Cert.Spec.Mat 1 256) (ix2 0 q) := by
    show V c main_v17 _ = V c main_v17 _
    refine congrArg _ (Shape.idx_ext₂ ?_ ?_)
    · show win11_2.index t (0 : Fin 2) * 1 + 1 * 0 = 0; omega
    · show win11_2.index t (1 : Fin 2) * 256 + 1 * q.val = q.val; omega
  show k11_pay3 (acc11 V c t.val t.isLt) (iblk11 V c 2 t) (ix2 p q) = Cert.Spec.addRow2 _ _ (((cfg11.win 3).blk t).view.emb (ix2 p q))
  rw [hemb, store11_apply, hb, acc_mm (acc11 V c) reset11_apply step11_apply (lblk11_apply V c) (rblk11_apply V c) (fun _ => rfl) (fun _ _ => rfl)
    t.val t.isLt h3 p q ⟨t.val / 4 * 1024 + p.val, by omega⟩ rfl]
  rfl

/-- Row `r` lies in the block written back at point `4 · (r / 1024) + 3`. -/
theorem cover11 (i : S8192x256.Idx) :
    ∃ t : Fin cfg11.N, (cfg11.win 3).flush t = true ∧ i ∈ ((cfg11.win 3).blk t).view.set := by
  have hN : cfg11.N = 32 := N_11
  have h0 := idx2_lt0 i
  have h1 := idx2_lt1 i
  obtain ⟨t, ht⟩ : ∃ t : Fin cfg11.N, t.val = 4 * ((i 0).val / 1024) + 3 := ⟨⟨4 * ((i 0).val / 1024) + 3, by omega⟩, rfl⟩
  obtain ⟨-, -, -, -, -, -, e0, e1⟩ := idx11 t
  refine ⟨t, (flush11_3 t).mpr (by omega), ?_⟩
  show i ∈ ((View.whole main_v18).slice (win11_3.rect t)).set
  rw [View.set_slice_whole, Rect.mem_set_unit]
  refine Fin.forall_fin_two.mpr ⟨?_, ?_⟩
  · show win11_3.index t (0 : Fin 2) * 1024 ≤ (i 0).val ∧ (i 0).val < win11_3.index t (0 : Fin 2) * 1024 + 1024; omega
  · show win11_3.index t (1 : Fin 2) * 256 ≤ (i 1).val ∧ (i 1).val < win11_3.index t (1 : Fin 2) * 256 + 256; omega

theorem arr11 (c : Dev nD) :
    (dat11 (F := Ideal) V c).arrAt 3 cfg11.N
      = Cert.Spec.addRow2 (Cert.Spec.mm (V c main_arg3) (V c main_v16)) (V c main_v17) :=
  (dat11 V c).arrAt_eq_of_cover 3 _ (flushed11_eq V c) cover11

end Region

end Cert.KernelIdeal.Gen

end
-- ==== Proof.DenseValue12.lean ====
import proofs.«124672_j60567628808244_1_alg».proof.Proof.Dense12
import proofs.«124672_j60567628808244_1_alg».proof.Proof.ValueLib

noncomputable section

namespace Cert.KernelIdeal.Gen

open Idealize.ShloMosaic Idealize.ShloMosaic.TcCoe Idealize.ShloMosaic.ValueIdx
open Idealize.ShloMosaic.Pipeline (Dat Cfg Window)

theorem prod12_apply (x0 : Vec Ideal S1024x512 .f32) (x1 : Vec Ideal S512x256 .f32) (p : Fin 1024) (q : Fin 256) :
    k12_pay1 (F := Ideal) x0 x1 (ix2 p q) = ∑ k : Fin 512, x0 (ix2 p k) * x1 (ix2 k q) := by
  unfold k12_pay1
  rw [shapeCast_self]
  exact matmul_zero_ix2 _ _ _ p q

theorem idx_maps12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

section Region
variable (V : (c : Dev nD) → (b : Ref sig .tc) → Buf (Elt Ideal) ((c : Thread nD τ).loc b))

/-- A point stores its row block of the product: row `p` of the block is row `t · 1024 + p` of the array. -/
theorem flushed12_eq (c : Dev nD) (t : Fin cfg12.N) :
    (dat12 (F := Ideal) V c).flushed 2 t = ((cfg12.win 2).blk t).view.read (Elt Ideal) (Cert.Spec.mm (V c main_v9) (V c main_arg7)) := by
  show (cfg12.win 2).cut (grid12.coords t) ((dat12 V c).after 2 t) = _
  rw [after12_2]
  unfold out12_2
  rw [View.canon_unit_zero zero_offsets]
  simp only [View.ld_unit_zero (S := S1024x512) zero_offsets, View.ld_unit_zero (S := S512x256) zero_offsets]
  obtain ⟨e0, e1, e2, e3, e4, e5⟩ := idx_maps12 t
  funext j
  obtain ⟨p, q, rfl⟩ : ∃ (p : Fin 1024) (q : Fin 256), j = ix2 p q := ⟨j 0, j 1, eq_ix2 j⟩
  show _ = Cert.Spec.mm (V c main_v9) (V c main_arg7) _
  refine (prod12_apply _ _ p q).trans (Finset.sum_congr rfl fun k _ => congrArg₂ (· * ·) ?_ ?_)
  · show V c main_v9 _ = V c main_v9 _
    refine congrArg _ (Shape.idx_ext₂ ?_ ?_)
    · show win12_0.index t (0 : Fin 2) * 1024 + 1 * p.val = win12_2.index t (0 : Fin 2) * 1024 + 1 * p.val; omega
    · show win12_0.index t (1 : Fin 2) * 512 + 1 * k.val = k.val; omega
  · show V c main_arg7 _ = V c main_arg7 _
    refine congrArg _ (Shape.idx_ext₂ ?_ ?_)
    · show win12_1.index t (0 : Fin 2) * 512 + 1 * k.val = k.val; omega
    · show win12_1.index t (1 : Fin 2) * 256 + 1 * q.val = win12_2.index t (1 : Fin 2) * 256 + 1 * q.val; omega

end Region

/-- Row `r` lies in the block of point `r / 1024`. -/
theorem cover12 (i : S8192x256.Idx) : ∃ t : Fin cfg12.N, (cfg12.win 2).flush t = true ∧ i ∈ ((cfg12.win 2).blk t).view.set := by
  have h0 := idx2_lt0 i
  have h1 := idx2_lt1 i
  have hN : cfg12.N = 8 := rfl
  obtain ⟨t, ht⟩ : ∃ t : Fin cfg12.N, t.val = (i 0).val / 1024 := ⟨⟨(i 0).val / 1024, by omega⟩, rfl⟩
  obtain ⟨-, -, -, -, e4, e5⟩ := idx_maps12 t
  refine ⟨t, flush12_2 _, ?_⟩
  show i ∈ ((View.whole main_v19).slice (win12_2.rect t)).set
  rw [View.set_slice_whole, Rect.mem_set_unit]
  refine Fin.forall_fin_two.mpr ⟨?_, ?_⟩
  · show win12_2.index t (0 : Fin 2) * 1024 ≤ (i 0).val ∧ (i 0).val < win12_2.index t (0 : Fin 2) * 1024 + 1024; omega
  · show win12_2.index t (1 : Fin 2) * 256 ≤ (i 1).val ∧ (i 1).val < win12_2.index t (1 : Fin 2) * 256 + 256; omega

theorem arr12 (V : (c : Dev nD) → (b : Ref sig .tc) → Buf (Elt Ideal) ((c : Thread nD τ).loc b)) (c : Dev nD) :
    (dat12 (F := Ideal) V c).arrAt 2 cfg12.N = Cert.Spec.mm (V c main_v9) (V c main_arg7) :=
  (dat12 (F := Ideal) V c).arrAt_eq_of_cover 2 _ (fun t _ => flushed12_eq V c t) cover12

end Cert.KernelIdeal.Gen

end
-- ==== Proof.GcnValue13.lean ====
import proofs.«124672_j60567628808244_1_alg».proof.Proof.Gcn13Data
import proofs.«124672_j60567628808244_1_alg».proof.Proof.ValueLib
import Idealize.ShloMosaic.Lib.ValueLayout

noncomputable section

namespace Cert.KernelIdeal.Gen

open Idealize.ShloMosaic Idealize.ShloMosaic.TcCoe Idealize.ShloMosaic.ValueIdx Idealize.SL.Sem
open Idealize.ShloMosaic.Pipeline (Dat)

theorem reset13_apply (y : S1024x256.Idx) : (k13_pay1 (F := Ideal)) y = 0 := by
  unfold k13_pay1
  rw [shapeCast_self]
  exact Ideal.ofBits_zero_f32

theorem step13_apply (a : Vec Ideal S1024x2048 .f32) (s : Vec Ideal S2048x256 .f32) (acc : Vec Ideal S1024x256 .f32) (p : Fin 1024) (q : Fin 256) :
    k13_pay2 a s acc (ix2 p q) = acc (ix2 p q) + ∑ j : Fin 2048, a (ix2 p j) * s (ix2 j q) := by
  unfold k13_pay2
  rw [shapeCast_self, shapeCast_self, addf_apply]
  exact congrArg _ (matmul_zero_ix2 _ _ _ p q)

theorem store13_apply (acc : Vec Ideal S1024x256 .f32) (b : Vec Ideal S1x256 .f32) (p : Fin 1024) (q : Fin 256) :
    k13_pay3 acc b (ix2 p q) = acc (ix2 p q) + b (ix2 0 q) := by
  unfold k13_pay3
  rw [shapeCast_self, addf_apply, broadcastTo_1b_ab_apply]

section Region
variable (V : (c : Dev nD) → (b : Ref sig .tc) → Buf (Elt Ideal) ((c : Thread nD τ).loc b))

/-- The block indices at point `t`: row block `t / 4`, contracted block `t % 4`. -/
theorem idx13 : ∀ t : Fin cfg13.N,
    win13_0.index t (0 : Fin 2) = t.val / 4 ∧ win13_0.index t (1 : Fin 2) = t.val % 4
    ∧ win13_1.index t (0 : Fin 2) = t.val % 4 ∧ win13_1.index t (1 : Fin 2) = 0
    ∧ win13_2.index t (0 : Fin 2) = 0 ∧ win13_2.index t (1 : Fin 2) = 0
    ∧ win13_3.index t (0 : Fin 2) = t.val / 4 ∧ win13_3.index t (1 : Fin 2) = 0 :=
  (by decide +kernel : ∀ t : Fin grid13.N, _)

theorem lblk13_apply (c : Dev nD) (t : Fin cfg13.N) (p : Fin 1024) (j : Fin 2048) (r k : Fin 8192)
    (hr : r.val = t.val / 4 * 1024 + p.val) (hk : k.val = t.val % 4 * 2048 + j.val) :
    (iblk13 V c 0 t : Vec Ideal S1024x2048 .f32) (ix2 p j) = (V c main_arg4 : Cert.Spec.Mat 8192 8192) (ix2 r k) := by
  obtain ⟨e0, e1, -⟩ := idx13 t
  show V c main_arg4 _ = V c main_arg4 _
  refine congrArg _ (Shape.idx_ext₂ ?_ ?_)
  · show win13_0.index t (0 : Fin 2) * 1024 + 1 * p.val = r.val; omega
  · show win13_0.index t (1 : Fin 2) * 2048 + 1 * j.val = k.val; omega

theorem rblk13_apply (c : Dev nD) (t : Fin cfg13.N) (j : Fin 2048) (q : Fin 256) (k : Fin 8192)
    (hk : k.val = t.val % 4 * 2048 + j.val) :
    (iblk13 V c 1 t : Vec Ideal S2048x256 .f32) (ix2 j q) = (V c main_v19 : Cert.Spec.Mat 8192 256) (ix2 k q) := by
  obtain ⟨-, -, e0, e1, -⟩ := idx13 t
  show V c main_v19 _ = V c main_v19 _
  refine congrArg _ (Shape.idx_ext₂ ?_ ?_)
  · show win13_1.index t (0 : Fin 2) * 2048 + 1 * j.val = k.val; omega
  · show win13_1.index t (1 : Fin 2) * 256 + 1 * q.val = q.val; omega

/-- At the last point of a row block the stored block is that row block of the result. -/
theorem flushed13_eq (c : Dev nD) (t : Fin cfg13.N) (hf : (cfg13.win 3).flush t = true) :
    (dat13 V c).flushed 3 t = ((cfg13.win 3).blk t).view.read (Elt Ideal)
      (Cert.Spec.addRow2 (Cert.Spec.mm (V c main_arg4) (V c main_v19)) (V c main_v20)) := by
  have h3 : t.val % 4 = 3 := (flush13_3 t).mp hf
  have hN : cfg13.N = 32 := N_13
  have ht := t.isLt
  obtain ⟨-, -, -, -, e4, e5, e0, e1⟩ := idx13 t
  funext y
  obtain ⟨p, q, rfl⟩ : ∃ (p : Fin 1024) (q : Fin 256), y = ix2 p q := ⟨y 0, y 1, eq_ix2 y⟩
  have hemb : ((cfg13.win 3).blk t).view.emb (ix2 p q)
      = (ix2 (⟨t.val / 4 * 1024 + p.val, by omega⟩ : Fin 8192) q : S8192x256.Idx) := Shape.idx_ext₂
    (by show win13_3.index t (0 : Fin 2) * 1024 + 1 * p.val = t.val / 4 * 1024 + p.val; omega)
    (by show win13_3.index t (1 : Fin 2) * 256 + 1 * q.val = q.val; omega)
  have hb : (iblk13 V c 2 t : Vec Ideal S1x256 .f32) (ix2 0 q) = (V c main_v20 : Cert.Spec.Mat 1 256) (ix2 0 q) := by
    show V c main_v20 _ = V c main_v20 _
    refine congrArg _ (Shape.idx_ext₂ ?_ ?_)
    · show win13_2.index t (0 : Fin 2) * 1 + 1 * 0 = 0; omega
    · show win13_2.index t (1 : Fin 2) * 256 + 1 * q.val = q.val; omega
  show k13_pay3 (acc13 V c t.val t.isLt) (iblk13 V c 2 t) (ix2 p q) = Cert.Spec.addRow2 _ _ (((cfg13.win 3).blk t).view.emb (ix2 p q))
  rw [hemb, store13_apply, hb, acc_mm (acc13 V c) reset13_apply step13_apply (lblk13_apply V c) (rblk13_apply V c) (fun _ => rfl) (fun _ _ => rfl)
    t.val t.isLt h3 p q ⟨t.val / 4 * 1024 + p.val, by omega⟩ rfl]
  rfl

/-- Row `r` lies in the block written back at point `4 · (r / 1024) + 3`. -/
theorem cover13 (i : S8192x256.Idx) :
    ∃ t : Fin cfg13.N, (cfg13.win 3).flush t = true ∧ i ∈ ((cfg13.win 3).blk t).view.set := by
  have hN : cfg13.N = 32 := N_13
  have h0 := idx2_lt0 i
  have h1 := idx2_lt1 i
  obtain ⟨t, ht⟩ : ∃ t : Fin cfg13.N, t.val = 4 * ((i 0).val / 1024) + 3 := ⟨⟨4 * ((i 0).val / 1024) + 3, by omega⟩, rfl⟩
  obtain ⟨-, -, -, -, -, -, e0, e1⟩ := idx13 t
  refine ⟨t, (flush13_3 t).mpr (by omega), ?_⟩
  show i ∈ ((View.whole main_v21).slice (win13_3.rect t)).set
  rw [View.set_slice_whole, Rect.mem_set_unit]
  refine Fin.forall_fin_two.mpr ⟨?_, ?_⟩
  · show win13_3.index t (0 : Fin 2) * 1024 ≤ (i 0).val ∧ (i 0).val < win13_3.index t (0 : Fin 2) * 1024 + 1024; omega
  · show win13_3.index t (1 : Fin 2) * 256 ≤ (i 1).val ∧ (i 1).val < win13_3.index t (1 : Fin 2) * 256 + 256; omega

theorem arr13 (c : Dev nD) :
    (dat13 (F := Ideal) V c).arrAt 3 cfg13.N
      = Cert.Spec.addRow2 (Cert.Spec.mm (V c main_arg4) (V c main_v19)) (V c main_v20) :=
  (dat13 V c).arrAt_eq_of_cover 3 _ (flushed13_eq V c) cover13

end Region

end Cert.KernelIdeal.Gen

end
-- ==== Proof.Chain.lean ====
import proofs.«124672_j60567628808244_1_alg».proof.Proof.Pdats
import proofs.«124672_j60567628808244_1_alg».proof.Proof.DenseValue0
import proofs.«124672_j60567628808244_1_alg».proof.Proof.DenseValue1
import proofs.«124672_j60567628808244_1_alg».proof.Proof.GcnValue2
import proofs.«124672_j60567628808244_1_alg».proof.Proof.GcnValue3
import proofs.«124672_j60567628808244_1_alg».proof.Proof.GcnValue4
import proofs.«124672_j60567628808244_1_alg».proof.Proof.GcnValue5
import proofs.«124672_j60567628808244_1_alg».proof.Proof.DenseValue6
import proofs.«124672_j60567628808244_1_alg».proof.Proof.GcnValue7
import proofs.«124672_j60567628808244_1_alg».proof.Proof.DenseValue8
import proofs.«124672_j60567628808244_1_alg».proof.Proof.GcnValue9
import proofs.«124672_j60567628808244_1_alg».proof.Proof.DenseValue10
import proofs.«124672_j60567628808244_1_alg».proof.Proof.GcnValue11
import proofs.«124672_j60567628808244_1_alg».proof.Proof.DenseValue12
import proofs.«124672_j60567628808244_1_alg».proof.Proof.GcnValue13
import Idealize.ShloMosaic.Lib.StableHlo.Run
import Idealize.ShloMosaic.Lib.ValueLayout

noncomputable section

namespace Cert.KernelIdeal.Gen

open Idealize.ShloMosaic Idealize.ShloMosaic.TcCoe Idealize.ShloMosaic.ValueIdx
open Idealize.SL.Sem Cert.Spec

-- Adding a single row to every row is adding the vector that row was made from.
theorem addRow2_cast {M a : ℕ} (X : Mat M a) (b : Row a) (h : (⟨1, ![a]⟩ : Shape).ShapeCasts ⟨2, ![1, a]⟩) :
    addRow2 X (shapeCast ⟨2, ![1, a]⟩ b h) = addRow X b :=
  funext fun i => congrArg (X i + ·) (shapeCast_a_1a_apply b h 0 (i 1))

-- An adjacency product plus a recast bias is one layer, once each operand is known.
theorem gcn {M a : ℕ} {A A' : Mat M M} {H H' : Mat M a} {b : Mat 1 a} {v v' : Row a} {h}
    (hA : A = A') (hH : H = H') (hb : b = shapeCast ⟨2, ![1, a]⟩ v h) (hv : v = v') :
    addRow2 (mm A H) b = addRow (mm A' H') v' := by
  subst hA hH hb hv; exact addRow2_cast _ _ h

-- The entry just written holds what was written.
theorem upd {α : Type} [DecidableEq α] {β : α → Type} {f : ∀ a, β a} {a : α} {x y z : β a} (h : y = x) (h' : y = z) :
    Function.update f a x a = z :=
  (Function.update_self ..).trans (h.symm.trans h')

-- Between two regions the program only recasts a bias vector as a one-row matrix.
theorem row2 (V : Valuation τ sig (Elt Ideal)) :
    StableHlo.after hostOps2 V main_v2 = shapeCast S1x512 (V main_arg6) shapeCasts_S512_S1x512 := by
  after_results; rfl
theorem row3 (V : Valuation τ sig (Elt Ideal)) :
    StableHlo.after hostOps3 V main_v4 = shapeCast S1x512 (V main_arg6) shapeCasts_S512_S1x512 := by
  after_results; rfl
theorem row4 (V : Valuation τ sig (Elt Ideal)) :
    StableHlo.after hostOps4 V main_v6 = shapeCast S1x512 (V main_arg6) shapeCasts_S512_S1x512 := by
  after_results; rfl
theorem row5 (V : Valuation τ sig (Elt Ideal)) :
    StableHlo.after hostOps5 V main_v8 = shapeCast S1x512 (V main_arg6) shapeCasts_S512_S1x512 := by
  after_results; rfl
theorem row7 (V : Valuation τ sig (Elt Ideal)) :
    StableHlo.after hostOps7 V main_v11 = shapeCast S1x256 (V main_arg8) shapeCasts_S256_S1x256 := by
  after_results; rfl
theorem row9 (V : Valuation τ sig (Elt Ideal)) :
    StableHlo.after hostOps9 V main_v14 = shapeCast S1x256 (V main_arg8) shapeCasts_S256_S1x256 := by
  after_results; rfl
theorem row11 (V : Valuation τ sig (Elt Ideal)) :
    StableHlo.after hostOps11 V main_v17 = shapeCast S1x256 (V main_arg8) shapeCasts_S256_S1x256 := by
  after_results; rfl
theorem row13 (V : Valuation τ sig (Elt Ideal)) :
    StableHlo.after hostOps13 V main_v20 = shapeCast S1x256 (V main_arg8) shapeCasts_S256_S1x256 := by
  after_results; rfl

section Chain

variable (m : (ℓ : Loc nD τ sig) → Buf (Elt Ideal) ℓ) (outs : Outs (F := Ideal)) (c : Dev nD)

abbrev feat1 : Mat 8192 512 := m ((c : Thread nD τ).loc main_arg0)
abbrev feat2 : Mat 8192 512 := m ((c : Thread nD τ).loc main_arg1)
abbrev adjA : Mat 8192 8192 := m ((c : Thread nD τ).loc main_arg2)
abbrev adjB : Mat 8192 8192 := m ((c : Thread nD τ).loc main_arg3)
abbrev adjC : Mat 8192 8192 := m ((c : Thread nD τ).loc main_arg4)
abbrev wts0 : Mat 512 512 := m ((c : Thread nD τ).loc main_arg5)
abbrev bias0 : Row 512 := m ((c : Thread nD τ).loc main_arg6)
abbrev wts1 : Mat 512 256 := m ((c : Thread nD τ).loc main_arg7)
abbrev bias1 : Row 256 := m ((c : Thread nD τ).loc main_arg8)

/-- The buffer item `k` of the program writes. -/
noncomputable def wr (k : ℕ) : Ref sig .tc :=
  [main_v0, main_v1, main_v2, main_v3, main_v4, main_v5, main_v6, main_v7, main_v8, main_v9, main_v10, main_v11, main_v12, main_v13, main_v14, main_v15, main_v16, main_v17, main_v18, main_v19, main_v20, main_v21].getD k main_v21

/-- The buffers after the first `k` items. -/
noncomputable def Vs (k : ℕ) : Valuation τ sig (Elt Ideal) :=
  [V0 m c, V1 m outs c, V2 m outs c, V3 m outs c, V4 m outs c, V5 m outs c, V6 m outs c, V7 m outs c, V8 m outs c, V9 m outs c, V10 m outs c, V11 m outs c, V12 m outs c, V13 m outs c, V14 m outs c, V15 m outs c, V16 m outs c, V17 m outs c, V18 m outs c, V19 m outs c, V20 m outs c, V21 m outs c].getD k (V22 m outs c)

theorem Vs_step : ∀ k, k < 22 → ∀ r : Ref sig .tc, r ∉ [wr k] → Vs m outs c (k + 1) r = Vs m outs c k r
  | 0, _ => V1_of m outs c
  | 1, _ => V2_of m outs c
  | 2, _ => V3_of m outs c
  | 3, _ => V4_of m outs c
  | 4, _ => V5_of m outs c
  | 5, _ => V6_of m outs c
  | 6, _ => V7_of m outs c
  | 7, _ => V8_of m outs c
  | 8, _ => V9_of m outs c
  | 9, _ => V10_of m outs c
  | 10, _ => V11_of m outs c
  | 11, _ => V12_of m outs c
  | 12, _ => V13_of m outs c
  | 13, _ => V14_of m outs c
  | 14, _ => V15_of m outs c
  | 15, _ => V16_of m outs c
  | 16, _ => V17_of m outs c
  | 17, _ => V18_of m outs c
  | 18, _ => V19_of m outs c
  | 19, _ => V20_of m outs c
  | 20, _ => V21_of m outs c
  | 21, _ => V22_of m outs c
  | k + 22, h => absurd h (by omega)

-- A buffer that items i, …, j - 1 do not write holds after j items what it held after i.
theorem still (i j : ℕ) (r : Ref sig .tc) (hij : i ≤ j := by decide) (hj : j ≤ 22 := by decide)
    (h : ∀ k < j, i ≤ k → r ∉ [wr k] := by decide) : Vs m outs c j r = Vs m outs c i r := by
  induction j, hij using Nat.le_induction with
  | base => rfl
  | succ j hij ih =>
    exact (Vs_step m outs c j hj r (h j j.lt_succ_self hij)).trans
      (ih (Nat.le_of_succ_le hj) fun k hk => h k (hk.trans j.lt_succ_self))

variable (hok : OutsOk m outs)
include hok

theorem val_v0 : V1 m outs c main_v0 = mm (feat1 m c) (wts0 m c) :=
  upd (hok.h0 c) (arr0 (U0 m outs) c)
theorem val_v1 : V2 m outs c main_v1 = mm (feat2 m c) (wts0 m c) :=
  upd (hok.h1 c) ((arr1 (U1 m outs) c).trans (congrArg₂ mm (still m outs c 0 1 main_arg1) (still m outs c 0 1 main_arg5)))
theorem val_v3 : V4 m outs c main_v3 = relu (layer (adjA m c) (feat1 m c) (wts0 m c) (bias0 m c)) :=
  upd (hok.h2 c) ((arr2 (U3 m outs) c).trans (congrArg relu (gcn (still m outs c 0 3 main_arg2)
    ((still m outs c 1 3 main_v0).trans (val_v0 m outs c hok)) (row2 (V2 m outs c)) (still m outs c 0 2 main_arg6))))
theorem val_v5 : V6 m outs c main_v5 = relu (layer (adjA m c) (feat2 m c) (wts0 m c) (bias0 m c)) :=
  upd (hok.h3 c) ((arr3 (U5 m outs) c).trans (congrArg relu (gcn (still m outs c 0 5 main_arg2)
    ((still m outs c 2 5 main_v1).trans (val_v1 m outs c hok)) (row3 (V4 m outs c)) (still m outs c 0 4 main_arg6))))
theorem val_v7 : V8 m outs c main_v7 = relu (layer (adjB m c) (feat1 m c) (wts0 m c) (bias0 m c)) :=
  upd (hok.h4 c) ((arr4 (U7 m outs) c).trans (congrArg relu (gcn (still m outs c 0 7 main_arg3)
    ((still m outs c 1 7 main_v0).trans (val_v0 m outs c hok)) (row4 (V6 m outs c)) (still m outs c 0 6 main_arg6))))
theorem val_v9 : V10 m outs c main_v9 = relu (layer (adjC m c) (feat1 m c) (wts0 m c) (bias0 m c)) :=
  upd (hok.h5 c) ((arr5 (U9 m outs) c).trans (congrArg relu (gcn (still m outs c 0 9 main_arg4)
    ((still m outs c 1 9 main_v0).trans (val_v0 m outs c hok)) (row5 (V8 m outs c)) (still m outs c 0 8 main_arg6))))
theorem val_v10 : V11 m outs c main_v10 = mm (relu (layer (adjA m c) (feat1 m c) (wts0 m c) (bias0 m c))) (wts1 m c) :=
  upd (hok.h6 c) ((arr6 (U10 m outs) c).trans (congrArg₂ mm ((still m outs c 4 10 main_v3).trans (val_v3 m outs c hok)) (still m outs c 0 10 main_arg7)))
theorem val_v12 : V13 m outs c main_v12 = branch (feat1 m c) (adjA m c) (wts0 m c) (bias0 m c) (wts1 m c) (bias1 m c) :=
  upd (hok.h7 c) ((arr7 (U12 m outs) c).trans (gcn (still m outs c 0 12 main_arg2)
    ((still m outs c 11 12 main_v10).trans (val_v10 m outs c hok)) (row7 (V11 m outs c)) (still m outs c 0 11 main_arg8)))
theorem val_v13 : V14 m outs c main_v13 = mm (relu (layer (adjA m c) (feat2 m c) (wts0 m c) (bias0 m c))) (wts1 m c) :=
  upd (hok.h8 c) ((arr8 (U13 m outs) c).trans (congrArg₂ mm ((still m outs c 6 13 main_v5).trans (val_v5 m outs c hok)) (still m outs c 0 13 main_arg7)))
theorem val_v15 : V16 m outs c main_v15 = branch (feat2 m c) (adjA m c) (wts0 m c) (bias0 m c) (wts1 m c) (bias1 m c) :=
  upd (hok.h9 c) ((arr9 (U15 m outs) c).trans (gcn (still m outs c 0 15 main_arg2)
    ((still m outs c 14 15 main_v13).trans (val_v13 m outs c hok)) (row9 (V14 m outs c)) (still m outs c 0 14 main_arg8)))
theorem val_v16 : V17 m outs c main_v16 = mm (relu (layer (adjB m c) (feat1 m c) (wts0 m c) (bias0 m c))) (wts1 m c) :=
  upd (hok.h10 c) ((arr10 (U16 m outs) c).trans (congrArg₂ mm ((still m outs c 8 16 main_v7).trans (val_v7 m outs c hok)) (still m outs c 0 16 main_arg7)))
theorem val_v18 : V19 m outs c main_v18 = branch (feat1 m c) (adjB m c) (wts0 m c) (bias0 m c) (wts1 m c) (bias1 m c) :=
  upd (hok.h11 c) ((arr11 (U18 m outs) c).trans (gcn (still m outs c 0 18 main_arg3)
    ((still m outs c 17 18 main_v16).trans (val_v16 m outs c hok)) (row11 (V17 m outs c)) (still m outs c 0 17 main_arg8)))
theorem val_v19 : V20 m outs c main_v19 = mm (relu (layer (adjC m c) (feat1 m c) (wts0 m c) (bias0 m c))) (wts1 m c) :=
  upd (hok.h12 c) ((arr12 (U19 m outs) c).trans (congrArg₂ mm ((still m outs c 10 19 main_v9).trans (val_v9 m outs c hok)) (still m outs c 0 19 main_arg7)))
theorem val_v21 : V22 m outs c main_v21 = branch (feat1 m c) (adjC m c) (wts0 m c) (bias0 m c) (wts1 m c) (bias1 m c) :=
  upd (hok.h13 c) ((arr13 (U21 m outs) c).trans (gcn (still m outs c 0 21 main_arg4)
    ((still m outs c 20 21 main_v19).trans (val_v19 m outs c hok)) (row13 (V20 m outs c)) (still m outs c 0 20 main_arg8)))

end Chain

-- The four results are the four branches of the network, computed from the launch arguments.
theorem results (m : (ℓ : Loc nD τ sig) → Buf (Elt Ideal) ℓ) (outs : Outs (F := Ideal)) (hok : OutsOk m outs) (c : Dev nD) :
      V22 m outs c main_v12 = branch (feat1 m c) (adjA m c) (wts0 m c) (bias0 m c) (wts1 m c) (bias1 m c)
      ∧ V22 m outs c main_v15 = branch (feat2 m c) (adjA m c) (wts0 m c) (bias0 m c) (wts1 m c) (bias1 m c)
      ∧ V22 m outs c main_v18 = branch (feat1 m c) (adjB m c) (wts0 m c) (bias0 m c) (wts1 m c) (bias1 m c)
      ∧ V22 m outs c main_v21 = branch (feat1 m c) (adjC m c) (wts0 m c) (bias0 m c) (wts1 m c) (bias1 m c) :=
  ⟨(still m outs c 13 22 main_v12).trans (val_v12 m outs c hok),
   (still m outs c 16 22 main_v15).trans (val_v15 m outs c hok),
   (still m outs c 19 22 main_v18).trans (val_v18 m outs c hok),
   val_v21 m outs c hok⟩

end Cert.KernelIdeal.Gen

end
-- ==== Proof.Claims.lean ====
import proofs.«124672_j60567628808244_1_alg».proof.Defs
import proofs.«124672_j60567628808244_1_alg».proof.Proof.Gen.Pre_finite_inputs
import proofs.«124672_j60567628808244_1_alg».proof.Proof.RefValue
import proofs.«124672_j60567628808244_1_alg».proof.Proof.Bits.Frame
import proofs.«124672_j60567628808244_1_alg».proof.Proof.Frame
import proofs.«124672_j60567628808244_1_alg».proof.Proof.Chain

noncomputable section

namespace Cert.Proof.Claims

open Idealize.ShloMosaic Idealize.ShloMosaic.TcCoe Idealize.SL.Sem

-- Forget the results in the reference's run.
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

theorem frame_k : Cert.frame_Kernel := fun m ρ _ => Cert.Kernel.Gen.frame (F := Bits) m ρ

theorem frame_ki : Cert.frame_KernelIdeal := fun m ρ _ => Cert.KernelIdeal.Gen.frame (F := Ideal) m ρ

-- Both programs leave the four branches of the network at arguments that agree.
theorem algebraic : Cert.algebraic_KernelIdeal_ReferenceIdeal := by
  intro m ρ m' ρ' _ hagree
  refine ⟨_, _, _, _, Cert.KernelIdeal.Gen.run_results (F := Ideal) m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨r0, r1, r2, r3⟩ := Cert.KernelIdeal.Gen.results m _ (Cert.KernelIdeal.Gen.outsOk m) c
  refine ⟨(h c).1.trans ?_, (h c).2.1.trans ?_, (h c).2.2.1.trans ?_, (h c).2.2.2.1.trans ?_, (h c).2.2.2.2⟩
  · rw [a0, a2, a5, a6, a7, a8]; exact (Cert.ReferenceIdeal.RefValue.branch_eq ..).trans r0.symm
  · rw [a1, a2, a5, a6, a7, a8]; exact (Cert.ReferenceIdeal.RefValue.branch_eq ..).trans r1.symm
  · rw [a0, a3, a5, a6, a7, a8]; exact (Cert.ReferenceIdeal.RefValue.branch_eq ..).trans r2.symm
  · rw [a0, a4, a5, a6, a7, a8]; exact (Cert.ReferenceIdeal.RefValue.branch_eq ..).trans r3.symm

end Cert.Proof.Claims

end
-- ==== Proof.lean ====
import proofs.«124672_j60567628808244_1_alg».proof.Proof.Claims

noncomputable section

namespace Cert.Proof

open Cert.Proof.Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
